-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x64 : Shape := ⟨3, ![4, 10000, 64]⟩
abbrev S128x64 : Shape := ⟨2, ![128, 64]⟩
abbrev S128 : Shape := ⟨1, ![128]⟩
abbrev S2x160000 : Shape := ⟨2, ![2, 160000]⟩
abbrev S_ : Shape := ⟨0, ![]⟩

class Facts : Prop where
  bcast_S_S4x10000x64 : S_.BroadcastsInDim S4x10000x64 (![] : Fin 0 → Fin S4x10000x64.rank)
  reducesTo_S4x10000x64_S_d0_1_2 : S4x10000x64.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg7 : IVec S2x160000 32) (main_v33 : IVec S_ 1) : IVec S_ 1 :=
  let main_c_12 : IVec S_ 32 := constantI S_ 32 0#32
  let main_v34 : IVec S2x160000 32 := broadcastInDim S2x160000 ![] bcast_S_S2x160000 main_c_12
  let main_v35 : IVec S2x160000 1 := cmpi .sge main_arg7 main_v34
  let main_c_13 : IVec S_ 1 := constantI S_ 1 1#1
  let main_v36 : IVec S_ 1 := (fun x v => Host.reduce IntOp.andi x v reducesTo_S2x160000_S_d0_1 h_S_) main_v35 main_c_13
  let main_v37 : IVec S_ 1 := andi main_v33 main_v36
  let main_c_14 : IVec S_ 32 := constantI S_ 32 10000#32
  let main_v38 : IVec S2x160000 32 := broadcastInDim S2x160000 ![] bcast_S_S2x160000 main_c_14
  let main_v39 : IVec S2x160000 1 := cmpi .slt main_arg7 main_v38
  let main_c_15 : IVec S_ 1 := constantI S_ 1 1#1
  let main_v40 : IVec S_ 1 := (fun x v => Host.reduce IntOp.andi x v reducesTo_S2x160000_S_d0_1 h_S_) main_v39 main_c_15
  let main_v41 : IVec S_ 1 := andi main_v37 main_v40
  main_v41

def fn_part1 {F : FTy → Type} [FloatOps F] (main_arg4 : FVec F S128 .f32) (main_arg5 : FVec F S128x64 .f32) (main_arg6 : FVec F S128 .f32) (main_arg7 : IVec S2x160000 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S4x10000x64 .f32) (main_arg1 : FVec F S128x64 .f32) (main_arg2 : FVec F S128 .f32) (main_arg3 : FVec F S128x64 .f32) (main_arg4 : FVec F S128 .f32) (main_arg5 : FVec F S128x64 .f32) (main_arg6 : FVec F S128 .f32) (main_arg7 : IVec S2x160000 32) : IVec S_ 1 :=
  let main_v0 : FVec F S4x10000x64 .f32 := Host.absf main_arg0
  let main_cst : FVec F S_ .f32 := constant S_ .f32 0x7F800000#32
  let main_v1 : FVec F S4x10000x64 .f32 := broadcastInDim S4x10000x64 ![] bcast_S_S4x10000x64 main_cst
  let main_v2 : IVec S4x10000x64 1 := cmpf .olt main_v0 main_v1
  let main_c : IVec S_ 1 := constantI S_ 1 1#1
  let main_v3 : IVec S_ 1 := (fun x v => Host.reduce IntOp.andi x v reducesTo_S4x10000x64_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_v13 main_v16
-- ==== Kernel.lean ====
abbrev S4x10000x64 : Shape := ⟨3, ![4, 10000, 64]⟩
abbrev S128x64 : Shape := ⟨2, ![128, 64]⟩
abbrev S128 : Shape := ⟨1, ![128]⟩
abbrev S2x160000 : Shape := ⟨2, ![2, 160000]⟩
abbrev S384x64 : Shape := ⟨2, ![384, 64]⟩
abbrev S64x384 : Shape := ⟨2, ![64, 384]⟩
abbrev S384 : Shape := ⟨1, ![384]⟩
abbrev S4x10000x128 : Shape := ⟨3, ![4, 10000, 128]⟩
abbrev S1x1000x64 : Shape := ⟨3, ![1, 1000, 64]⟩
abbrev S1x1000x128 : Shape := ⟨3, ![1, 1000, 128]⟩
abbrev S1000x64 : Shape := ⟨2, ![1000, 64]⟩
abbrev S1000x384 : Shape := ⟨2, ![1000, 384]⟩
abbrev S1x384 : Shape := ⟨2, ![1, 384]⟩
abbrev S1000x128 : Shape := ⟨2, ![1000, 128]⟩
abbrev S_ : Shape := ⟨0, ![]⟩
abbrev S4x10240x128 : Shape := ⟨3, ![4, 10240, 128]⟩
abbrev S10240x4x128 : Shape := ⟨3, ![10240, 4, 128]⟩
abbrev S10240x512 : Shape := ⟨2, ![10240, 512]⟩
abbrev S1x160000 : Shape := ⟨2, ![1, 160000]⟩
abbrev S160000 : Shape := ⟨1, ![160000]⟩
abbrev S161792 : Shape := ⟨1, ![161792]⟩
abbrev S4x8x161792 : Shape := ⟨3, ![4, 8, 161792]⟩
abbrev S512x512 : Shape := ⟨2, ![512, 512]⟩
abbrev S2048 : Shape := ⟨1, ![2048]⟩
abbrev S4x8x2048 : Shape := ⟨3, ![4, 8, 2048]⟩
abbrev S2048x512 : Shape := ⟨2, ![2048, 512]⟩
abbrev S1x512 : Shape := ⟨2, ![1, 512]⟩
abbrev S2048x1 : Shape := ⟨2, ![2048, 1]⟩
abbrev S128x8 : Shape := ⟨2, ![128, 8]⟩
abbrev S2048x128 : Shape := ⟨2, ![2048, 128]⟩
abbrev S2048x8 : Shape := ⟨2, ![2048, 8]⟩
abbrev S8x2048 : Shape := ⟨2, ![8, 2048]⟩
abbrev S1x8x2048 : Shape := ⟨3, ![1, 8, 2048]⟩
abbrev S4x8x1 : Shape := ⟨3, ![4, 8, 1]⟩
abbrev S1x8x16000 : Shape := ⟨3, ![1, 8, 16000]⟩
abbrev S1x8x1 : Shape := ⟨3, ![1, 8, 1]⟩
abbrev S8x1 : Shape := ⟨2, ![8, 1]⟩
abbrev S8x16000 : Shape := ⟨2, ![8, 16000]⟩
abbrev S8 : Shape := ⟨1, ![8]⟩
abbrev S4x160000x8 : Shape := ⟨3, ![4, 160000, 8]⟩
abbrev S1x16000x8 : Shape := ⟨3, ![1, 16000, 8]⟩
abbrev S16000x8 : Shape := ⟨2, ![16000, 8]⟩
abbrev S4x10000x8x16 : Shape := ⟨4, ![4, 10000, 8, 16]⟩
abbrev S4x10000x16x8 : Shape := ⟨4, ![4, 10000, 16, 8]⟩

abbrev nBuf : Space → Nat
  | .hbm => 40
  | .vmem => 38
  | .smem => 0
  | _ => 0

abbrev bufTy : (tb : Table) → Fin (tcTables nBuf tb) → BufTy
  | .hbm, ⟨0, _⟩ => ⟨S4x10000x64, .f32⟩
  | .hbm, ⟨1, _⟩ => ⟨S128x64, .f32⟩
  | .hbm, ⟨2, _⟩ => ⟨S128, .f32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S128, .f32⟩
  | .hbm, ⟨7, _⟩ => ⟨S2x160000, .i32⟩
  | .hbm, ⟨8, _⟩ => ⟨S384x64, .f32⟩
  | .hbm, ⟨9, _⟩ => ⟨S64x384, .f32⟩
  | .hbm, ⟨10, _⟩ => ⟨S384, .f32⟩
  | .hbm, ⟨11, _⟩ => ⟨S4x10000x128, .bf16⟩
  | .hbm, ⟨12, _⟩ => ⟨S4x10000x128, .bf16⟩
  | .hbm, ⟨13, _⟩ => ⟨S4x10000x128, .f32⟩
  | .hbm, ⟨14, _⟩ => ⟨S_, .i32⟩
  | .hbm, ⟨15, _⟩ => ⟨S_, .bf16⟩
  | .hbm, ⟨16, _⟩ => ⟨S4x10240x128, .bf16⟩
  | .hbm, ⟨17, _⟩ => ⟨S_, .i32⟩
  | .hbm, ⟨18, _⟩ => ⟨S_, .bf16⟩
  | .hbm, ⟨19, _⟩ => ⟨S4x10240x128, .bf16⟩
  | .hbm, ⟨20, _⟩ => ⟨S10240x4x128, .bf16⟩
  | .hbm, ⟨21, _⟩ => ⟨S10240x512, .bf16⟩
  | .hbm, ⟨22, _⟩ => ⟨S10240x4x128, .bf16⟩
  | .hbm, ⟨23, _⟩ => ⟨S10240x512, .bf16⟩
  | .hbm, ⟨24, _⟩ => ⟨S1x160000, .i32⟩
  | .hbm, ⟨25, _⟩ => ⟨S160000, .i32⟩
  | .hbm, ⟨26, _⟩ => ⟨S_, .i32⟩
  | .hbm, ⟨27, _⟩ => ⟨S_, .i32⟩
  | .hbm, ⟨28, _⟩ => ⟨S161792, .i32⟩
  | .hbm, ⟨29, _⟩ => ⟨S1x160000, .i32⟩
  | .hbm, ⟨30, _⟩ => ⟨S160000, .i32⟩
  | .hbm, ⟨31, _⟩ => ⟨S_, .i32⟩
  | .hbm, ⟨32, _⟩ => ⟨S_, .i32⟩
  | .hbm, ⟨33, _⟩ => ⟨S161792, .i32⟩
  | .hbm, ⟨34, _⟩ => ⟨S4x8x161792, .f32⟩
  | .hbm, ⟨35, _⟩ => ⟨S4x8x1, .f32⟩
  | .hbm, ⟨36, _⟩ => ⟨S4x8x1, .f32⟩
  | .hbm, ⟨37, _⟩ => ⟨S4x160000x8, .f32⟩
  | .hbm, ⟨38, _⟩ => ⟨S4x10000x8x16, .f32⟩
  | .hbm, ⟨39, _⟩ => ⟨S4x10000x16x8, .f32⟩
  | .local _ .vmem, ⟨0, _⟩ => ⟨S1x1000x64, .f32⟩
  | .local _ .vmem, ⟨1, _⟩ => ⟨S1x1000x64, .f32⟩
  | .local _ .vmem, ⟨2, _⟩ => ⟨S64x384, .f32⟩
  | .local _ .vmem, ⟨3, _⟩ => ⟨S384, .f32⟩
  | .local _ .vmem, ⟨4, _⟩ => ⟨S1x1000x128, .bf16⟩
  | .local _ .vmem, ⟨5, _⟩ => ⟨S1x1000x128, .bf16⟩
  | .local _ .vmem, ⟨6, _⟩ => ⟨S1x1000x128, .bf16⟩
  | .local _ .vmem, ⟨7, _⟩ => ⟨S1x1000x128, .bf16⟩
  | .local _ .vmem, ⟨8, _⟩ => ⟨S1x1000x128, .f32⟩
  | .local _ .vmem, ⟨9, _⟩ => ⟨S1x1000x128, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S2048, .i32⟩
  | .local _ .vmem, ⟨15, _⟩ => ⟨S2048, .i32⟩
  | .local _ .vmem, ⟨16, _⟩ => ⟨S2048, .i32⟩
  | .local _ .vmem, ⟨17, _⟩ => ⟨S2048, .i32⟩
  | .local _ .vmem, ⟨18, _⟩ => ⟨S4x8x2048, .f32⟩
  | .local _ .vmem, ⟨19, _⟩ => ⟨S4x8x2048, .f32⟩
  | .local _ .vmem, ⟨20, _⟩ => ⟨S2048x512, .f32⟩
  | .local _ .vmem, ⟨21, _⟩ => ⟨S2048x512, .f32⟩
  | .local _ .vmem, ⟨22, _⟩ => ⟨S1x8x16000, .f32⟩
  | .local _ .vmem, ⟨23, _⟩ => ⟨S1x8x16000, .f32⟩
  | .local _ .vmem, ⟨24, _⟩ => ⟨S1x8x1, .f32⟩
  | .local _ .vmem, ⟨25, _⟩ => ⟨S1x8x1, .f32⟩
  | .local _ .vmem, ⟨26, _⟩ => ⟨S1x8x1, .f32⟩
  | .local _ .vmem, ⟨27, _⟩ => ⟨S1x8x1, .f32⟩
  | .local _ .vmem, ⟨28, _⟩ => ⟨S8x1, .f32⟩
  | .local _ .vmem, ⟨29, _⟩ => ⟨S8x1, .f32⟩
  | .local _ .vmem, ⟨30, _⟩ => ⟨S1x8x16000, .f32⟩
  | .local _ .vmem, ⟨31, _⟩ => ⟨S1x8x16000, .f32⟩
  | .local _ .vmem, ⟨32, _⟩ => ⟨S1x8x1, .f32⟩
  | .local _ .vmem, ⟨33, _⟩ => ⟨S1x8x1, .f32⟩
  | .local _ .vmem, ⟨34, _⟩ => ⟨S1x8x1, .f32⟩
  | .local _ .vmem, ⟨35, _⟩ => ⟨S1x8x1, .f32⟩
  | .local _ .vmem, ⟨36, _⟩ => ⟨S1x16000x8, .f32⟩
  | .local _ .vmem, ⟨37, _⟩ => ⟨S1x16000x8, .f32⟩
  | _, _ => ⟨S4x10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_call2_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_call3_v0 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨2, ![4, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![79, 20], ![false, false]⟩

def k1_cond2 (i : grid1.Coords) : BitVec 1 :=
  let arg1 : BitVec 32 := BitVec.ofNat 32 (i 1).val
  let c19_i32 : BitVec 32 := 19#32
  let v41 : BitVec 1 := Scalar.cmpi .eq arg1 c19_i32
  let v42 : BitVec 32 := Scalar.extui v41
  let c0_i32_15 : BitVec 32 := 0#32
  let v43 : BitVec 1 := Scalar.cmpi .ne v42 c0_i32_15
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S4x8x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 10], ![false, false]⟩

def k2_cond2 (i : grid2.Coords) : BitVec 1 :=
  let arg1 : BitVec 32 := BitVec.ofNat 32 (i 1).val
  let c9_i32 : BitVec 32 := 9#32
  let v26 : BitVec 1 := Scalar.cmpi .eq arg1 c9_i32
  let v27 : BitVec 32 := Scalar.extui v26
  let c0_i32_14 : BitVec 32 := 0#32
  let v28 : BitVec 1 := Scalar.cmpi .ne v27 c0_i32_14
  v28

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x8x16000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x8x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 10], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x8x16000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x8x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x8x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x16000x8 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  concatenates_S128x64_S128x64_S128x64_S384x64_d0 : Shape.Concatenates [S128x64, S128x64, S128x64] S384x64 0
  transposes_S384x64_S64x384_1_0 : S384x64.Transposes [1, 0] S64x384
  concatenates_S128_S128_S128_S384_d0 : Shape.Concatenates [S128, S128, S128] S384 0
  inb_S1x1000x64_S1x1000x64_0_0_0 : ∀ a, (![0, 0, 0] : Fin 3 → Nat) a + S1x1000x64.size a ≤ S1x1000x64.size a
  h_S1x1000x64 : 0 < S1x1000x64.numel
  shapeCasts_S1x1000x64_S1000x64 : S1x1000x64.ShapeCasts S1000x64
  bitsLt_bf16_f32 : FTy.bits .bf16 < FTy.bits .f32
  inb_S64x384_S64x384_0_0 : ∀ a, (![0, 0] : Fin 2 → Nat) a + S64x384.size a ≤ S64x384.size a
  h_S64x384 : 0 < S64x384.numel
  shapeCasts_S64x384_S64x384 : S64x384.ShapeCasts S64x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S1000x384 : S1x384.Broadcasts S1000x384
  slices_S1000x384_o0_0_S1000x128 : S1000x384.Slices ![0, 0] S1000x128
  inb_S1x1000x128_S1x1000x128_0_0_0 : ∀ a, (![0, 0, 0] : Fin 3 → Nat) a + S1x1000x128.size a ≤ S1x1000x128.size a
  h_S1x1000x128 : 0 < S1x1000x128.numel
  shapeCasts_S1x1000x128_S1000x128 : S1x1000x128.ShapeCasts S1000x128
  shapeCasts_S1000x128_S1x1000x128 : S1000x128.ShapeCasts S1x1000x128
  packedbf16_S1x1000x128_S1x1000x128_0_0_0 : (Rect.unit (s := S1x1000x128) ![0, 0, 0] S1x1000x128.size inb_S1x1000x128_S1x1000x128_0_0_0).PackedRows (EltTy.packing .bf16)
  slices_S1000x384_o0_128_S1000x128 : S1000x384.Slices ![0, 128] S1000x128
  slices_S1000x384_o0_256_S1000x128 : S1000x384.Slices ![0, 256] S1000x128
  pads_S4x10000x128_S4x10240x128_000_02400_000 : S4x10000x128.Pads (![0, 0, 0] : Fin 3 → Nat) ![0, 240, 0] ![0, 0, 0] S4x10240x128
  h_S_ : 0 < S_.numel
  transposes_S4x10240x128_S10240x4x128_1_0_2 : S4x10240x128.Transposes [1, 0, 2] S10240x4x128
  shapeCasts_S10240x4x128_S10240x512 : S10240x4x128.ShapeCasts S10240x512
  slices_S2x160000_S1x160000_0_0 : S2x160000.Slices ![0, 0] S1x160000
  shapeCasts_S1x160000_S160000 : S1x160000.ShapeCasts S160000
  pads_S160000_S161792_017920 : S160000.Pads (![0] : Fin 1 → Nat) ![1792] ![0] S161792
  slices_S2x160000_S1x160000_1_0 : S2x160000.Slices ![1, 0] S1x160000
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  iota_S1x512_d1_w32 : S1x512.Iotas .tc 32 [1]
  inb_S2048_S2048_0 : ∀ a, (![0] : Fin 1 → Nat) a + S2048.size a ≤ S2048.size a
  h_S2048 : 0 < S2048.numel
  shapeCasts_S2048_S2048 : S2048.ShapeCasts S2048
  shapeCasts_S2048_S2048x1 : S2048.ShapeCasts S2048x1
  broadcasts_S2048x1_S2048x512 : S2048x1.Broadcasts S2048x512
  broadcasts_S1x512_S2048x512 : S1x512.Broadcasts S2048x512
  natLt_1_32 : 1 < 32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S128x8_d0_w32 : S128x8.Iotas .tc 32 [0]
  iota_S128x8_d1_w32 : S128x8.Iotas .tc 32 [1]
  slices_S2048x512_o0_0_S2048x128 : S2048x512.Slices ![0, 0] S2048x128
  transposes_S2048x8_p1_0_S8x2048 : S2048x8.Transposes [1, 0] S8x2048
  inb_S4x8x2048_S1x8x2048_0_0_0 : ∀ a, (![0, 0, 0] : Fin 3 → Nat) a + S1x8x2048.size a ≤ S4x8x2048.size a
  h_S1x8x2048 : 0 < S1x8x2048.numel
  shapeCasts_S1x8x2048_S8x2048 : S1x8x2048.ShapeCasts S8x2048
  shapeCasts_S8x2048_S1x8x2048 : S8x2048.ShapeCasts S1x8x2048
  slices_S2048x512_o0_128_S2048x128 : S2048x512.Slices ![0, 128] S2048x128
  inb_S4x8x2048_S1x8x2048_1_0_0 : ∀ a, (![1, 0, 0] : Fin 3 → Nat) a + S1x8x2048.size a ≤ S4x8x2048.size a
  slices_S2048x512_o0_256_S2048x128 : S2048x512.Slices ![0, 256] S2048x128
  inb_S4x8x2048_S1x8x2048_2_0_0 : ∀ a, (![2, 0, 0] : Fin 3 → Nat) a + S1x8x2048.size a ≤ S4x8x2048.size a
  slices_S2048x512_o0_384_S2048x128 : S2048x512.Slices ![0, 384] S2048x128
  inb_S4x8x2048_S1x8x2048_3_0_0 : ∀ a, (![3, 0, 0] : Fin 3 → Nat) a + S1x8x2048.size a ≤ S4x8x2048.size a
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x8x16000_S1x8x16000_0_0_0 : ∀ a, (![0, 0, 0] : Fin 3 → Nat) a + S1x8x16000.size a ≤ S1x8x16000.size a
  h_S1x8x16000 : 0 < S1x8x16000.numel
  shapeCasts_S1x8x16000_S8x16000 : S1x8x16000.ShapeCasts S8x16000
  reduces_S8x16000_S8 : S8x16000.Reduces [1] S8
  shapeCasts_S8_S8x1 : S8.ShapeCasts S8x1
  broadcasts_S8x1_S8x16000 : S8x1.Broadcasts S8x16000
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  shapeCasts_S8x1_S1x8x1 : S8x1.ShapeCasts S1x8x1
  transposes_S8x16000_p1_0_S16000x8 : S8x16000.Transposes [1, 0] S16000x8
  inb_S1x16000x8_S1x16000x8_0_0_0 : ∀ a, (![0, 0, 0] : Fin 3 → Nat) a + S1x16000x8.size a ≤ S1x16000x8.size a
  h_S1x16000x8 : 0 < S1x16000x8.numel
  shapeCasts_S1x16000x8_S16000x8 : S1x16000x8.ShapeCasts S16000x8
  shapeCasts_S16000x8_S1x16000x8 : S16000x8.ShapeCasts S1x16000x8
  shapeCasts_S4x10000x128_S4x10000x8x16 : S4x10000x128.ShapeCasts S4x10000x8x16
  transposes_S4x10000x8x16_S4x10000x16x8_0_1_3_2 : S4x10000x8x16.Transposes [0, 1, 3, 2] S4x10000x16x8
  dot_S1000x64_S64x384_S1000x384_1_0_0_1_n_n_wf : DotDims.WF S1000x64 S64x384 S1000x384 [1] [0] [0] [1] [] []
  dot_S2048x512_S512x512_S2048x512_1_0_0_1_n_n_wf : DotDims.WF S2048x512 S512x512 S2048x512 [1] [0] [0] [1] [] []
  dot_S2048x128_S128x8_S2048x8_1_0_0_1_n_n_wf : DotDims.WF S2048x128 S128x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x64.size a ≤ S4x10000x64.size a
  hwx0_0 : ∀ i : grid0.Coords, EltTy.bits .f32 = 32 ∨ (Rect.block (s := S4x10000x64) S1x1000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x384.size a ≤ S64x384.size a
  hwx0_1 : ∀ i : grid0.Coords, EltTy.bits .f32 = 32 ∨ (Rect.block (s := S64x384) S64x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1000x128.size a ≤ S4x10000x128.size a
  hwx0_3 : ∀ i : grid0.Coords, EltTy.bits .bf16 = 32 ∨ (Rect.block (s := S4x10000x128) S1x1000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1000x128.size a ≤ S4x10000x128.size a
  hwx0_4 : ∀ i : grid0.Coords, EltTy.bits .bf16 = 32 ∨ (Rect.block (s := S4x10000x128) S1x1000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1000x128.size a ≤ S4x10000x128.size a
  hwx0_5 : ∀ i : grid0.Coords, EltTy.bits .f32 = 32 ∨ (Rect.block (s := S4x10000x128) S1x1000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S10240x512.size a
  hwx1_0 : ∀ i : grid1.Coords, EltTy.bits .bf16 = 32 ∨ (Rect.block (s := S10240x512) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S10240x512.size a
  hwx1_1 : ∀ i : grid1.Coords, EltTy.bits .bf16 = 32 ∨ (Rect.block (s := S10240x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S161792.size a
  hwx1_2 : ∀ i : grid1.Coords, EltTy.bits .i32 = 32 ∨ (Rect.block (s := S161792) S2048.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048.size a ≤ S161792.size a
  hwx1_3 : ∀ i : grid1.Coords, EltTy.bits .i32 = 32 ∨ (Rect.block (s := S161792) S2048.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x8x2048.size a ≤ S4x8x161792.size a
  hwx1_4 : ∀ i : grid1.Coords, EltTy.bits .f32 = 32 ∨ (Rect.block (s := S4x8x161792) S4x8x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S1x8x16000.size a < S4x8x161792.size a
  hwx2_0 : ∀ i : grid2.Coords, EltTy.bits .f32 = 32 ∨ (Rect.unit (s := S4x8x161792) (fun a => cc2_transform_0 i a * S1x8x16000.size a) (fun a => (Pipeline.Clip.of (cc2_transform_0 i a) (S1x8x16000.size a) (S4x8x161792.size a)).extent (S1x8x16000.size a)) fun a => Pipeline.Clip.inb (Pipeline.Clip.ok_of (hstart2_0 i a))).WholeWords (EltTy.packing .f32)
  hwxs2_0 : ∀ i : grid2.Coords, EltTy.bits .f32 = 32 ∨ (Rect.unit (s := S1x8x16000) (fun _ => 0) (fun a => (Pipeline.Clip.of (cc2_transform_0 i a) (S1x8x16000.size a) (S4x8x161792.size a)).extent (S1x8x16000.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x8x1.size a ≤ S4x8x1.size a
  hwx2_1 : ∀ i : grid2.Coords, EltTy.bits .f32 = 32 ∨ (Rect.block (s := S4x8x1) S1x8x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x8x1.size a ≤ S4x8x1.size a
  hwx2_2 : ∀ i : grid2.Coords, EltTy.bits .f32 = 32 ∨ (Rect.block (s := S4x8x1) S1x8x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S1x8x16000.size a < S4x8x161792.size a
  hwx3_0 : ∀ i : grid3.Coords, EltTy.bits .f32 = 32 ∨ (Rect.unit (s := S4x8x161792) (fun a => cc3_transform_0 i a * S1x8x16000.size a) (fun a => (Pipeline.Clip.of (cc3_transform_0 i a) (S1x8x16000.size a) (S4x8x161792.size a)).extent (S1x8x16000.size a)) fun a => Pipeline.Clip.inb (Pipeline.Clip.ok_of (hstart3_0 i a))).WholeWords (EltTy.packing .f32)
  hwxs3_0 : ∀ i : grid3.Coords, EltTy.bits .f32 = 32 ∨ (Rect.unit (s := S1x8x16000) (fun _ => 0) (fun a => (Pipeline.Clip.of (cc3_transform_0 i a) (S1x8x16000.size a) (S4x8x161792.size a)).extent (S1x8x16000.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x8x1.size a ≤ S4x8x1.size a
  hwx3_1 : ∀ i : grid3.Coords, EltTy.bits .f32 = 32 ∨ (Rect.block (s := S4x8x1) S1x8x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x8x1.size a ≤ S4x8x1.size a
  hwx3_2 : ∀ i : grid3.Coords, EltTy.bits .f32 = 32 ∨ (Rect.block (s := S4x8x1) S1x8x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x16000x8.size a ≤ S4x160000x8.size a
  hwx3_3 : ∀ i : grid3.Coords, EltTy.bits .f32 = 32 ∨ (Rect.block (s := S4x160000x8) S1x16000x8.size (cc3_transform_3 i) (hinb3_3 i)).WholeWords (EltTy.packing .f32)

variable [Facts₀]

def dot_S1000x64_S64x384_S1000x384_1_0_0_1_n_n : DotDims S1000x64 S64x384 S1000x384 where
  lhsContracting := [1]
  rhsContracting := [0]
  lhsNonContracting := [0]
  rhsNonContracting := [1]
  lhsBatch := []
  rhsBatch := []
  wf := dot_S1000x64_S64x384_S1000x384_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf

abbrev win0_0 : Pipeline.Window sig grid0 :=
  Pipeline.Window.ofSpec (Memref.whole main_arg0) S1x1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S4x8x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpecClip (Memref.whole main_v16) S1x8x16000.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v17_0) S1x8x1.size cc2_transform_1 reads2_1 true false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17_1) S1x8x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun i => !(k2_cond2 i == 1#1) | 2 => fun i => !(k2_cond2 i == 1#1) | ⟨_ + 3, h⟩ => absurd h (Nat.not_lt.2 (Nat.le_add_left _ _))

abbrev win3_0 : Pipeline.Window sig grid3 :=
  Pipeline.Window.ofSpecClip (Memref.whole main_v16) S1x8x16000.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpec (Memref.whole main_v17_0) S1x8x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17_1) S1x8x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1x16000x8.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4x10000x64 : Shape := ⟨3, ![4, 10000, 64]⟩
abbrev S128x64 : Shape := ⟨2, ![128, 64]⟩
abbrev S128 : Shape := ⟨1, ![128]⟩
abbrev S2x160000 : Shape := ⟨2, ![2, 160000]⟩
abbrev S4x10000x128 : Shape := ⟨3, ![4, 10000, 128]⟩
abbrev S1x1x128 : Shape := ⟨3, ![1, 1, 128]⟩
abbrev S4x10000x8x16 : Shape := ⟨4, ![4, 10000, 8, 16]⟩
abbrev S4x10000x16x8 : Shape := ⟨4, ![4, 10000, 16, 8]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S4x160000x16x8 : Shape := ⟨4, ![4, 160000, 16, 8]⟩
abbrev S4x160000x8 : Shape := ⟨3, ![4, 160000, 8]⟩
abbrev S4x8 : Shape := ⟨2, ![4, 8]⟩
abbrev S4x1x8 : Shape := ⟨3, ![4, 1, 8]⟩

abbrev nBuf : Space → Nat
  | .hbm => 68
  | .vmem => 0
  | .smem => 0
  | _ => 0

abbrev bufTy : (tb : Table) → Fin (tcTables nBuf tb) → BufTy
  | .hbm, ⟨0, _⟩ => ⟨S4x10000x64, .f32⟩
  | .hbm, ⟨1, _⟩ => ⟨S128x64, .f32⟩
  | .hbm, ⟨2, _⟩ => ⟨S128, .f32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S128, .f32⟩
  | .hbm, ⟨7, _⟩ => ⟨S2x160000, .i32⟩
  | .hbm, ⟨8, _⟩ => ⟨S4x10000x128, .f32⟩
  | .hbm, ⟨9, _⟩ => ⟨S1x1x128, .f32⟩
  | .hbm, ⟨10, _⟩ => ⟨S4x10000x128, .f32⟩
  | .hbm, ⟨11, _⟩ => ⟨S4x10000x128, .f32⟩
  | .hbm, ⟨12, _⟩ => ⟨S4x10000x8x16, .f32⟩
  | .hbm, ⟨13, _⟩ => ⟨S4x10000x16x8, .f32⟩
  | .hbm, ⟨14, _⟩ => ⟨S4x10000x128, .f32⟩
  | .hbm, ⟨15, _⟩ => ⟨S1x1x128, .f32⟩
  | .hbm, ⟨16, _⟩ => ⟨S4x10000x128, .f32⟩
  | .hbm, ⟨17, _⟩ => ⟨S4x10000x128, .f32⟩
  | .hbm, ⟨18, _⟩ => ⟨S4x10000x8x16, .f32⟩
  | .hbm, ⟨19, _⟩ => ⟨S4x10000x16x8, .f32⟩
  | .hbm, ⟨20, _⟩ => ⟨S4x10000x128, .f32⟩
  | .hbm, ⟨21, _⟩ => ⟨S1x1x128, .f32⟩
  | .hbm, ⟨22, _⟩ => ⟨S4x10000x128, .f32⟩
  | .hbm, ⟨23, _⟩ => ⟨S4x10000x128, .f32⟩
  | .hbm, ⟨24, _⟩ => ⟨S4x10000x8x16, .f32⟩
  | .hbm, ⟨25, _⟩ => ⟨S4x10000x16x8, .f32⟩
  | .hbm, ⟨26, _⟩ => ⟨S1x160000, .i32⟩
  | .hbm, ⟨27, _⟩ => ⟨S160000, .i32⟩
  | .hbm, ⟨28, _⟩ => ⟨S_, .i32⟩
  | .hbm, ⟨29, _⟩ => ⟨S160000, .i32⟩
  | .hbm, ⟨30, _⟩ => ⟨S160000, .i1⟩
  | .hbm, ⟨31, _⟩ => ⟨S_, .i32⟩
  | .hbm, ⟨32, _⟩ => ⟨S160000, .i32⟩
  | .hbm, ⟨33, _⟩ => ⟨S160000, .i32⟩
  | .hbm, ⟨34, _⟩ => ⟨S160000, .i32⟩
  | .hbm, ⟨35, _⟩ => ⟨S160000x1, .i32⟩
  | .hbm, ⟨36, _⟩ => ⟨S4x160000x16x8, .f32⟩
  | .hbm, ⟨37, _⟩ => ⟨S1x160000, .i32⟩
  | .hbm, ⟨38, _⟩ => ⟨S160000, .i32⟩
  | .hbm, ⟨39, _⟩ => ⟨S_, .i32⟩
  | .hbm, ⟨40, _⟩ => ⟨S160000, .i32⟩
  | .hbm, ⟨41, _⟩ => ⟨S160000, .i1⟩
  | .hbm, ⟨42, _⟩ => ⟨S_, .i32⟩
  | .hbm, ⟨43, _⟩ => ⟨S160000, .i32⟩
  | .hbm, ⟨44, _⟩ => ⟨S160000, .i32⟩
  | .hbm, ⟨45, _⟩ => ⟨S160000, .i32⟩
  | .hbm, ⟨46, _⟩ => ⟨S160000x1, .i32⟩
  | .hbm, ⟨47, _⟩ => ⟨S4x160000x16x8, .f32⟩
  | .hbm, ⟨48, _⟩ => ⟨S4x160000x16x8, .f32⟩
  | .hbm, ⟨49, _⟩ => ⟨S_, .f32⟩
  | .hbm, ⟨50, _⟩ => ⟨S4x160000x8, .f32⟩
  | .hbm, ⟨51, _⟩ => ⟨S_, .f32⟩
  | .hbm, ⟨52, _⟩ => ⟨S4x160000x8, .f32⟩
  | .hbm, ⟨53, _⟩ => ⟨S4x160000x8, .f32⟩
  | .hbm, ⟨54, _⟩ => ⟨S_, .f32⟩
  | .hbm, ⟨55, _⟩ => ⟨S4x8, .f32⟩
  | .hbm, ⟨56, _⟩ => ⟨S_, .f32⟩
  | .hbm, ⟨57, _⟩ => ⟨S4x8, .f32⟩
  | .hbm, ⟨58, _⟩ => ⟨S4x8, .f32⟩
  | .hbm, ⟨59, _⟩ => ⟨S4x1x8, .f32⟩
  | .hbm, ⟨60, _⟩ => ⟨S4x160000x8, .f32⟩
  | .hbm, ⟨61, _⟩ => ⟨S4x160000x8, .f32⟩
  | .hbm, ⟨62, _⟩ => ⟨S4x160000x8, .f32⟩
  | .hbm, ⟨63, _⟩ => ⟨S_, .f32⟩
  | .hbm, ⟨64, _⟩ => ⟨S4x8, .f32⟩
  | .hbm, ⟨65, _⟩ => ⟨S4x1x8, .f32⟩
  | .hbm, ⟨66, _⟩ => ⟨S4x160000x8, .f32⟩
  | .hbm, ⟨67, _⟩ => ⟨S4x160000x8, .f32⟩
  | _, _ => ⟨S4x10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_1 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x10000x128_0_1_2 : S1x1x128.BroadcastsInDim S4x10000x128 (![0, 1, 2] : Fin 3 → Fin S4x10000x128.rank)
  shapeCasts_S4x10000x128_S4x10000x8x16 : S4x10000x128.ShapeCasts S4x10000x8x16
  transposes_S4x10000x8x16_S4x10000x16x8_0_1_3_2 : S4x10000x8x16.Transposes [0, 1, 3, 2] S4x10000x16x8
  slices_S2x160000_S1x160000_0_0 : S2x160000.Slices ![0, 0] S1x160000
  shapeCasts_S1x160000_S160000 : S1x160000.ShapeCasts S160000
  bcast_S_S160000 : S_.BroadcastsInDim S160000 (![] : Fin 0 → Fin S160000.rank)
  bcast_S160000_S160000x1_0 : S160000.BroadcastsInDim S160000x1 (![0] : Fin 1 → Fin S160000x1.rank)
  slices_S2x160000_S1x160000_1_0 : S2x160000.Slices ![1, 0] S1x160000
  reducesTo_S4x160000x16x8_S4x160000x8_d2 : S4x160000x16x8.ReducesTo [2] S4x160000x8
  h_S_ : 0 < S_.numel
  bcast_S_S4x160000x8 : S_.BroadcastsInDim S4x160000x8 (![] : Fin 0 → Fin S4x160000x8.rank)
  reducesTo_S4x160000x8_S4x8_d1 : S4x160000x8.ReducesTo [1] S4x8
  bcast_S_S4x8 : S_.BroadcastsInDim S4x8 (![] : Fin 0 → Fin S4x8.rank)
  bcast_S4x8_S4x1x8_0_2 : S4x8.BroadcastsInDim S4x1x8 (![0, 2] : Fin 2 → Fin S4x1x8.rank)
  bcast_S4x1x8_S4x160000x8_0_1_2 : S4x1x8.BroadcastsInDim S4x160000x8 (![0, 1, 2] : Fin 3 → Fin S4x160000x8.rank)
  dot_S4x10000x64_S128x64_S4x10000x128_2_1_01_0_n_n_wf : DotDims.WF S4x10000x64 S128x64 S4x10000x128 [2] [1] [0, 1] [0] [] []
  gather_S4x10000x16x8_S160000x1_S4x160000x16x8_023_1_n_n_1_1_41168_wf : GatherDims.WF S4x10000x16x8 S160000x1 S4x160000x16x8 [0, 2, 3] [1] [] [1] [] 1 ![4, 1, 16, 8]

variable [Facts₀]

def dot_S4x10000x64_S128x64_S4x10000x128_2_1_01_0_n_n : DotDims S4x10000x64 S128x64 S4x10000x128 where
  lhsContracting := [2]
  rhsContracting := [1]
  lhsNonContracting := [0, 1]
  rhsNonContracting := [0]
  lhsBatch := []
  rhsBatch := []
  wf := dot_S4x10000x64_S128x64_S4x10000x128_2_1_01_0_n_n_wf
def gather_S4x10000x16x8_S160000x1_S4x160000x16x8_023_1_n_n_1_1_41168 : GatherDims S4x10000x16x8 S160000x1 S4x160000x16x8 where
  offsetDims := [0, 2, 3]
  collapsedSliceDims := [1]
  operandBatchingDims := []
  startIndicesBatchingDims := []
  startIndexMap := [1]
  indexVectorDim := 1
  sliceSizes := ![4, 1, 16, 8]
  wf := gather_S4x10000x16x8_S160000x1_S4x160000x16x8_023_1_n_n_1_1_41168_wf

class Facts : Prop extends Facts₀ where

variable [Facts]
-- ==== Proof.PreFacts.lean ====
import proofs.«412990_j12266426597865_3_alg».proof.Pre_finite_inputs
import Idealize.ShloMosaic.PureOps.Ideal
import Idealize.ShloMosaic.Lib.ReduceAll
import Idealize.ShloMosaic.Lib.ValueIdx

noncomputable section

namespace Cert.PreFacts

open Idealize.ShloMosaic Cert.Pre_finite_inputs

instance subsingleton_scalar_idx : Subsingleton S_.Idx := ⟨fun a b => funext fun d => d.elim0⟩

theorem inf_bits : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

theorem finite_of_all {s : Shape} {axes : List (Fin s.rank)} (a : FVec Ideal s .f32)
    (hb : S_.BroadcastsInDim s (![] : Fin 0 → Fin s.rank)) (hr : s.ReducesTo axes S_) (h0 : 0 < S_.numel) (init : IVec S_ 1)
    (e : Host.reduce IntOp.andi (cmpf .olt (Host.absf a) (broadcastInDim s ![] hb (constant S_ .f32 0x7F800000#32))) init hr h0
      ValueIdx.ix0 = 1#1) (i : s.Idx) : ∃ r : ℝ, a i = (r : EReal) :=
  real_of_abs_lt_inf (a i) (Host.reduce_andi_all _ init hr h0 ValueIdx.ix0 e i)

theorem of_pre [Facts] (a0 : FVec Ideal S4x10000x64 .f32) (a1 : FVec Ideal S128x64 .f32) (a2 : FVec Ideal S128 .f32)
    (a3 : FVec Ideal S128x64 .f32) (a4 : FVec Ideal S128 .f32) (a5 : FVec Ideal S128x64 .f32) (a6 : FVec Ideal S128 .f32)
    (a7 : IVec S2x160000 32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, 0 ≤ (a7 i).toInt ∧ (a7 i).toInt < 10000) := by
  have e := congrFun h ValueIdx.ix0
  dsimp only [fn, fn_part1, fn_part2] at e
  obtain ⟨e, e8⟩ := IntOp.andi_eq_one.1 (show IntOp.andi _ _ = 1#1 from e)
  obtain ⟨e, e7⟩ := IntOp.andi_eq_one.1 (show IntOp.andi _ _ = 1#1 from e)
  obtain ⟨e, e6⟩ := IntOp.andi_eq_one.1 (show IntOp.andi _ _ = 1#1 from e)
  obtain ⟨e, e5⟩ := IntOp.andi_eq_one.1 (show IntOp.andi _ _ = 1#1 from e)
  obtain ⟨e, e4⟩ := IntOp.andi_eq_one.1 (show IntOp.andi _ _ = 1#1 from e)
  obtain ⟨e, e3⟩ := IntOp.andi_eq_one.1 (show IntOp.andi _ _ = 1#1 from e)
  obtain ⟨e, e2⟩ := IntOp.andi_eq_one.1 (show IntOp.andi _ _ = 1#1 from e)
  obtain ⟨e0, e1⟩ := IntOp.andi_eq_one.1 (show IntOp.andi _ _ = 1#1 from e)
  refine ⟨finite_of_all a0 _ _ _ _ e0, finite_of_all a1 _ _ _ _ e1, finite_of_all a2 _ _ _ _ e2, finite_of_all a3 _ _ _ _ e3,
    finite_of_all a4 _ _ _ _ e4, finite_of_all a5 _ _ _ _ e5, finite_of_all a6 _ _ _ _ e6, fun i => ⟨?_, ?_⟩⟩
  · have c := IntOp.cmpi_sge.1 (show IntOp.cmpi .sge (a7 i) 0#32 = 1#1 from Host.reduce_andi_all _ _ _ _ ValueIdx.ix0 e7 i)
    have z : (0#32 : BitVec 32).toInt = 0 := by decide
    omega
  · have c := IntOp.cmpi_slt.1 (show IntOp.cmpi .slt (a7 i) 10000#32 = 1#1 from Host.reduce_andi_all _ _ _ _ ValueIdx.ix0 e8 i)
    have z : (10000#32 : BitVec 32).toInt = 10000 := by decide
    omega

end Cert.PreFacts

end
-- ==== Proof.AttnSpec.lean ====
import Idealize.ShloMosaic.PureOps.Ideal
import Idealize.ShloMosaic.Lib.ValueIdx

noncomputable section

namespace AttnSpec

open Idealize.ShloMosaic

def feat (h : Fin 8) (d : Fin 16) : Fin 128 := ⟨16 * h.val + d.val, by omega⟩

def node (w : BitVec 32) : Fin 10000 := ⟨min w.toInt.toNat 9999, by omega⟩

def proj (x : Fin 4 → Fin 10000 → Fin 64 → EReal) (W : Fin 128 → Fin 64 → EReal) (β : Fin 128 → EReal) :
    Fin 4 → Fin 10000 → Fin 128 → EReal :=
  fun b n a => (∑ f : Fin 64, x b n f * W a f) + β a

def score (q k : Fin 4 → Fin 10000 → Fin 128 → EReal) (src dst : Fin 160000 → Fin 10000) :
    Fin 4 → Fin 160000 → Fin 8 → EReal :=
  fun b e h => (∑ d : Fin 16, q b (src e) (feat h d) * k b (dst e) (feat h d)) * ((1 / 4 : ℝ) : EReal)

def top (p : Fin 4 → Fin 160000 → Fin 8 → EReal) (b : Fin 4) (h : Fin 8) : EReal :=
  Finset.univ.sup fun e : Fin 160000 => p b e h

def mass (p : Fin 4 → Fin 160000 → Fin 8 → EReal) (b : Fin 4) (h : Fin 8) : EReal :=
  ∑ e : Fin 160000, Ideal.exp (p b e h - top p b h)

def attn (p : Fin 4 → Fin 160000 → Fin 8 → EReal) : Fin 4 → Fin 160000 → Fin 8 → EReal :=
  fun b e h => Ideal.div (Ideal.exp (p b e h - top p b h)) (mass p b h)

def heads (y : Fin 4 → Fin 10000 → Fin 128 → EReal) : Fin 4 → Fin 10000 → Fin 16 → Fin 8 → EReal :=
  fun b n d h => y b n (feat h d)

open ValueIdx

def weights (x : (⟨3, ![4, 10000, 64]⟩ : Shape).Idx → EReal)
    (Qw : (⟨2, ![128, 64]⟩ : Shape).Idx → EReal) (Qb : (⟨1, ![128]⟩ : Shape).Idx → EReal)
    (Kw : (⟨2, ![128, 64]⟩ : Shape).Idx → EReal) (Kb : (⟨1, ![128]⟩ : Shape).Idx → EReal)
    (edge : (⟨2, ![2, 160000]⟩ : Shape).Idx → BitVec 32) : (⟨3, ![4, 160000, 8]⟩ : Shape).Idx → EReal :=
  fun i => attn (score (proj (fun b n f => x (ix3 b n f)) (fun a f => Qw (ix2 a f)) (fun a => Qb (ix1 a)))
      (proj (fun b n f => x (ix3 b n f)) (fun a f => Kw (ix2 a f)) (fun a => Kb (ix1 a)))
      (fun e => node (edge (ix2 (0 : Fin 2) e))) (fun e => node (edge (ix2 (1 : Fin 2) e)))) (i 0) (i 1) (i 2)

def values (x : (⟨3, ![4, 10000, 64]⟩ : Shape).Idx → EReal)
    (Vw : (⟨2, ![128, 64]⟩ : Shape).Idx → EReal) (Vb : (⟨1, ![128]⟩ : Shape).Idx → EReal) :
    (⟨4, ![4, 10000, 16, 8]⟩ : Shape).Idx → EReal :=
  fun i => heads (proj (fun b n f => x (ix3 b n f)) (fun a f => Vw (ix2 a f)) (fun a => Vb (ix1 a))) (i 0) (i 1) (i 2) (i 3)

end AttnSpec

end
-- ==== Proof.RefValue.lean ====
import proofs.«412990_j12266426597865_3_alg».proof.Proof.Gen.ReferenceIdeal.Run
import proofs.«412990_j12266426597865_3_alg».proof.Proof.Gen.ReferenceIdeal.Read
import proofs.«412990_j12266426597865_3_alg».proof.Proof.AttnSpec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

theorem ofBits_four : Ideal.ofBits .f32 0x40800000#32 = ((4 : ℝ) : EReal) := by
  simp [Ideal.ofBits, Ideal.ieee, -EReal.coe_mul]; norm_num

theorem ofBits_neg_inf : Ideal.ofBits .f32 0xFF800000#32 = ⊥ := by
  simp [Ideal.ofBits, Ideal.ieee]

abbrev GD : GatherDims S4x10000x16x8 S160000x1 S4x160000x16x8 :=
  gather_S4x10000x16x8_S160000x1_S4x160000x16x8_023_1_n_n_1_1_41168

theorem gather_axis0 {w : Nat} (idx : IVec S160000x1 w) (b : Fin 4) (e : Fin 160000) (d : Fin 16) (h : Fin 8) :
    (GD.operandIdx (ix4 b e d h) idx 0).val = b.val := by
  show GD.start (ix4 b e d h) idx 0 + GD.batchCoord (ix4 b e d h) 0 + GD.offCoord (ix4 b e d h) 0 = _
  rw [GatherDims.batchCoord_eq_zero GD (ix4 b e d h) 0 (by decide)]
  unfold GatherDims.start GatherDims.offCoord
  rw [dif_neg (show ¬ (0 : Fin S4x10000x16x8.rank) ∈ GD.startIndexMap by decide),
    dif_pos (show (0 : Fin S4x10000x16x8.rank) ∈ GD.sKept by decide), Nat.zero_add]
  rfl

theorem gather_axis1 {w : Nat} (idx : IVec S160000x1 w) (b : Fin 4) (e : Fin 160000) (d : Fin 16) (h : Fin 8) :
    (GD.operandIdx (ix4 b e d h) idx 1).val = min (idx (ix2 e (0 : Fin 1))).toInt.toNat 9999 := by
  show GD.start (ix4 b e d h) idx 1 + GD.batchCoord (ix4 b e d h) 1 + GD.offCoord (ix4 b e d h) 1 = _
  rw [GatherDims.batchCoord_eq_zero GD (ix4 b e d h) 1 (by decide),
    GatherDims.offCoord_eq_zero GD (ix4 b e d h) 1 (by decide)]
  unfold GatherDims.start
  rw [dif_pos (show (1 : Fin S4x10000x16x8.rank) ∈ GD.startIndexMap by decide)]
  have hsi : GD.siIdx (ix4 b e d h) ⟨List.idxOf (1 : Fin S4x10000x16x8.rank) GD.startIndexMap,
      List.idxOf_lt_length_iff.2 (by decide)⟩ = ix2 e (0 : Fin 1) := by
    funext a; refine Fin.ext ?_
    match a with
    | ⟨0, _⟩ => rfl
    | ⟨1, _⟩ => rfl
  rw [hsi]
  rfl

theorem gather_axis2 {w : Nat} (idx : IVec S160000x1 w) (b : Fin 4) (e : Fin 160000) (d : Fin 16) (h : Fin 8) :
    (GD.operandIdx (ix4 b e d h) idx 2).val = d.val := by
  show GD.start (ix4 b e d h) idx 2 + GD.batchCoord (ix4 b e d h) 2 + GD.offCoord (ix4 b e d h) 2 = _
  rw [GatherDims.batchCoord_eq_zero GD (ix4 b e d h) 2 (by decide)]
  unfold GatherDims.start GatherDims.offCoord
  rw [dif_neg (show ¬ (2 : Fin S4x10000x16x8.rank) ∈ GD.startIndexMap by decide),
    dif_pos (show (2 : Fin S4x10000x16x8.rank) ∈ GD.sKept by decide), Nat.zero_add]
  rfl

theorem gather_axis3 {w : Nat} (idx : IVec S160000x1 w) (b : Fin 4) (e : Fin 160000) (d : Fin 16) (h : Fin 8) :
    (GD.operandIdx (ix4 b e d h) idx 3).val = h.val := by
  show GD.start (ix4 b e d h) idx 3 + GD.batchCoord (ix4 b e d h) 3 + GD.offCoord (ix4 b e d h) 3 = _
  rw [GatherDims.batchCoord_eq_zero GD (ix4 b e d h) 3 (by decide)]
  unfold GatherDims.start GatherDims.offCoord
  rw [dif_neg (show ¬ (3 : Fin S4x10000x16x8.rank) ∈ GD.startIndexMap by decide),
    dif_pos (show (3 : Fin S4x10000x16x8.rank) ∈ GD.sKept by decide), Nat.zero_add]
  rfl

theorem gather_read {α : Type} (x : S4x10000x16x8.Idx → α) (idx : IVec S160000x1 32)
    (b : Fin 4) (e : Fin 160000) (d : Fin 16) (h : Fin 8) :
    Host.gather GD x idx (ix4 b e d h) = x (ix4 b (AttnSpec.node (idx (ix2 e (0 : Fin 1)))) d h) := by
  unfold Host.gather
  refine congrArg x (funext fun a => Fin.ext ?_)
  match a with
  | ⟨0, _⟩ => exact gather_axis0 idx b e d h
  | ⟨1, _⟩ => exact gather_axis1 idx b e d h
  | ⟨2, _⟩ => exact gather_axis2 idx b e d h
  | ⟨3, _⟩ => exact gather_axis3 idx b e d h

theorem wrap_id (w : BitVec 32) (h0 : 0 ≤ w.toInt) :
    Scalar.select (IntOp.cmpi .slt w 0#32) (IntOp.addi w 10000#32) w = w := by
  have hs : IntOp.cmpi .slt w 0#32 = 0#1 := by
    unfold IntOp.cmpi
    have : w.slt 0#32 = false := by
      rw [BitVec.slt]; simp; exact h0
    simp [this]
  rw [hs]; exact select_zero _ _

theorem heads_read (x0 : (⟨S4x10000x64, .f32⟩ : BufTy).Contents (Elt Ideal)) (x1 : (⟨S128x64, .f32⟩ : BufTy).Contents (Elt Ideal))
    (x2 : (⟨S128, .f32⟩ : BufTy).Contents (Elt Ideal)) (b : Fin 4) (n : Fin 10000) (d : Fin 16) (h : Fin 8) :
    val_main_v5 (F := Ideal) x0 x1 x2 (ix4 b n d h)
      = AttnSpec.proj (fun b n f => x0 (ix3 b n f)) (fun a f => x1 (ix2 a f)) (fun a => x2 (ix1 a)) b n (AttnSpec.feat h d) := by
  have hb := b.isLt
  have hn := n.isLt
  have hd := d.isLt
  have hh := h.isLt
  have e4 : idx_main_v4 (idx_main_v5 (ix4 b n d h)) = ix3 b n (AttnSpec.feat h d) := funext fun a => Fin.ext (by
    match a with
    | ⟨0, _⟩ => show (((b.val * 10000 + n.val) * 8 + h.val) * 16 + d.val) / 1280000 = b.val; omega
    | ⟨1, _⟩ => show (((b.val * 10000 + n.val) * 8 + h.val) * 16 + d.val) / 128 % 10000 = n.val; omega
    | ⟨2, _⟩ => show (((b.val * 10000 + n.val) * 8 + h.val) * 16 + d.val) % 128 = 16 * h.val + d.val; omega)
  have el : ∀ k : Fin 64, lidx_main_v0 (ix3 b n (AttnSpec.feat h d)) k = ix3 b n k := fun k => funext fun a => by
    match a with
    | ⟨0, _⟩ => rfl
    | ⟨1, _⟩ => rfl
    | ⟨2, _⟩ => rfl
  have er : ∀ k : Fin 64, ridx_main_v0 (ix3 b n (AttnSpec.feat h d)) k = ix2 (AttnSpec.feat h d) k := fun k => funext fun a => by
    match a with
    | ⟨0, _⟩ => rfl
    | ⟨1, _⟩ => rfl
  have eb : idx_main_v1 (idx_main_v2 (ix3 b n (AttnSpec.feat h d))) = ix1 (AttnSpec.feat h d) := funext fun a => by
    match a with
    | ⟨0, _⟩ => rfl
  rw [val_main_v5_apply, val_main_v4_apply, e4, val_main_v3_apply, val_main_v0_apply, val_main_v2_apply, val_main_v1_apply, eb]
  simp only [el, er]
  rfl

theorem v11_eq_v5 (x0 : (⟨S4x10000x64, .f32⟩ : BufTy).Contents (Elt Ideal)) (x3 : (⟨S128x64, .f32⟩ : BufTy).Contents (Elt Ideal))
    (x4 : (⟨S128, .f32⟩ : BufTy).Contents (Elt Ideal)) : val_main_v11 (F := Ideal) x0 x3 x4 = val_main_v5 (F := Ideal) x0 x3 x4 := rfl

theorem v17_eq_v5 (x0 : (⟨S4x10000x64, .f32⟩ : BufTy).Contents (Elt Ideal)) (x5 : (⟨S128x64, .f32⟩ : BufTy).Contents (Elt Ideal))
    (x6 : (⟨S128, .f32⟩ : BufTy).Contents (Elt Ideal)) : val_main_v17 (F := Ideal) x0 x5 x6 = val_main_v5 (F := Ideal) x0 x5 x6 := rfl

theorem values_eq (x0 : (⟨S4x10000x64, .f32⟩ : BufTy).Contents (Elt Ideal)) (x5 : (⟨S128x64, .f32⟩ : BufTy).Contents (Elt Ideal))
    (x6 : (⟨S128, .f32⟩ : BufTy).Contents (Elt Ideal)) :
    val_main_v17 (F := Ideal) x0 x5 x6 = AttnSpec.values x0 x5 x6 := by
  funext i
  obtain ⟨b, n, d, h, rfl⟩ : ∃ (b : Fin 4) (n : Fin 10000) (d : Fin 16) (h : Fin 8), i = ix4 b n d h :=
    ⟨i 0, i 1, i 2, i 3, eq_ix4 i⟩
  rw [v17_eq_v5, heads_read]
  rfl

theorem src_read (x7 : (⟨S2x160000, .i32⟩ : BufTy).Contents (Elt Ideal)) (e : Fin 160000)
    (h0 : 0 ≤ (x7 (ix2 (0 : Fin 2) e)).toInt) :
    val_main_v25 (F := Ideal) x7 (ix2 e (0 : Fin 1)) = x7 (ix2 (0 : Fin 2) e) := by
  have hi : idx_main_v18 (idx_main_v19 (idx_main_v25 (ix2 e (0 : Fin 1)))) = ix2 (0 : Fin 2) e := funext fun a => Fin.ext (by
    match a with
    | ⟨0, _⟩ => rfl
    | ⟨1, _⟩ => show e.val % 160000 = e.val; have := e.isLt; omega)
  rw [val_main_v25_apply, val_main_v24_apply, val_main_v21_apply, val_main_v23_apply, val_main_v19_apply, val_main_v18_apply, hi,
    val_main_v20_apply, val_main_c_apply, val_main_v22_apply, val_main_c_0_apply]
  exact wrap_id _ h0

theorem dst_read (x7 : (⟨S2x160000, .i32⟩ : BufTy).Contents (Elt Ideal)) (e : Fin 160000)
    (h0 : 0 ≤ (x7 (ix2 (1 : Fin 2) e)).toInt) :
    val_main_v34 (F := Ideal) x7 (ix2 e (0 : Fin 1)) = x7 (ix2 (1 : Fin 2) e) := by
  have hi : idx_main_v27 (idx_main_v28 (idx_main_v34 (ix2 e (0 : Fin 1)))) = ix2 (1 : Fin 2) e := funext fun a => Fin.ext (by
    match a with
    | ⟨0, _⟩ => rfl
    | ⟨1, _⟩ => show e.val % 160000 = e.val; have := e.isLt; omega)
  rw [val_main_v34_apply, val_main_v33_apply, val_main_v30_apply, val_main_v32_apply, val_main_v28_apply, val_main_v27_apply, hi,
    val_main_v29_apply, val_main_c_1_apply, val_main_v31_apply, val_main_c_2_apply]
  exact wrap_id _ h0

section Scores

variable (x0 : (⟨S4x10000x64, .f32⟩ : BufTy).Contents (Elt Ideal)) (x1 : (⟨S128x64, .f32⟩ : BufTy).Contents (Elt Ideal))
  (x2 : (⟨S128, .f32⟩ : BufTy).Contents (Elt Ideal)) (x3 : (⟨S128x64, .f32⟩ : BufTy).Contents (Elt Ideal))
  (x4 : (⟨S128, .f32⟩ : BufTy).Contents (Elt Ideal)) (x7 : (⟨S2x160000, .i32⟩ : BufTy).Contents (Elt Ideal))

abbrev scores : Fin 4 → Fin 160000 → Fin 8 → EReal :=
  AttnSpec.score (AttnSpec.proj (fun b n f => x0 (ix3 b n f)) (fun a f => x1 (ix2 a f)) (fun a => x2 (ix1 a)))
    (AttnSpec.proj (fun b n f => x0 (ix3 b n f)) (fun a f => x3 (ix2 a f)) (fun a => x4 (ix1 a)))
    (fun e => AttnSpec.node (x7 (ix2 (0 : Fin 2) e))) (fun e => AttnSpec.node (x7 (ix2 (1 : Fin 2) e)))

theorem query_read (hr : ∀ i, 0 ≤ (x7 i).toInt ∧ (x7 i).toInt < 10000) (b : Fin 4) (e : Fin 160000) (d : Fin 16) (h : Fin 8) :
    val_main_v26 (F := Ideal) x0 x1 x2 x7 (ix4 b e d h)
      = AttnSpec.proj (fun b n f => x0 (ix3 b n f)) (fun a f => x1 (ix2 a f)) (fun a => x2 (ix1 a)) b
          (AttnSpec.node (x7 (ix2 (0 : Fin 2) e))) (AttnSpec.feat h d) := by
  unfold val_main_v26
  rw [gather_read, src_read x7 e (hr _).1, heads_read]

theorem key_read (hr : ∀ i, 0 ≤ (x7 i).toInt ∧ (x7 i).toInt < 10000) (b : Fin 4) (e : Fin 160000) (d : Fin 16) (h : Fin 8) :
    val_main_v35 (F := Ideal) x0 x3 x4 x7 (ix4 b e d h)
      = AttnSpec.proj (fun b n f => x0 (ix3 b n f)) (fun a f => x3 (ix2 a f)) (fun a => x4 (ix1 a)) b
          (AttnSpec.node (x7 (ix2 (1 : Fin 2) e))) (AttnSpec.feat h d) := by
  unfold val_main_v35
  rw [gather_read, dst_read x7 e (hr _).1, v11_eq_v5, heads_read]

theorem score_read (hr : ∀ i, 0 ≤ (x7 i).toInt ∧ (x7 i).toInt < 10000) (b : Fin 4) (e : Fin 160000) (h : Fin 8) :
    val_main_v39 (F := Ideal) x0 x1 x2 x3 x4 x7 (ix3 b e h) = scores x0 x1 x2 x3 x4 x7 b e h := by
  have e37 : ∀ k : Fin 16, idx_main_v37 (ix3 b e h) k = ix4 b e k h := fun k => funext fun a => by
    match a with
    | ⟨0, _⟩ => rfl
    | ⟨1, _⟩ => rfl
    | ⟨2, _⟩ => rfl
    | ⟨3, _⟩ => rfl
  rw [val_main_v39_apply, val_main_v37_apply, val_main_v38_apply, val_main_cst_3_apply, val_main_cst_apply]
  simp only [e37, val_main_v36_apply, query_read x0 x1 x2 x7 hr, key_read x0 x3 x4 x7 hr, Ideal.ofBits_def, Ideal.ofBits_zero_f32,
    ofBits_four, zero_add, Ideal.hostDivf_def, Ideal.mulf_def, Ideal.div_coe (by norm_num : (4 : ℝ) ≠ 0)]
  rfl

end Scores

theorem fold_maximumf_bot {ι : Type} (s : Finset ι) (f : ι → EReal) :
    s.fold (FloatOps.maximumf (F := Ideal) (φ := .f32)) ⊥ f = s.sup f := by
  induction s using Finset.cons_induction with
  | empty => rfl
  | cons a s ha ih =>
    rw [Finset.fold_cons, Finset.sup_cons, ih]
    rfl

section Softmax

variable (x0 : (⟨S4x10000x64, .f32⟩ : BufTy).Contents (Elt Ideal)) (x1 : (⟨S128x64, .f32⟩ : BufTy).Contents (Elt Ideal))
  (x2 : (⟨S128, .f32⟩ : BufTy).Contents (Elt Ideal)) (x3 : (⟨S128x64, .f32⟩ : BufTy).Contents (Elt Ideal))
  (x4 : (⟨S128, .f32⟩ : BufTy).Contents (Elt Ideal)) (x7 : (⟨S2x160000, .i32⟩ : BufTy).Contents (Elt Ideal))

theorem top_read (hr : ∀ i, 0 ≤ (x7 i).toInt ∧ (x7 i).toInt < 10000) (b : Fin 4) (h : Fin 8) :
    val_main_v42 (F := Ideal) x0 x1 x2 x3 x4 x7 (ix2 b h) = AttnSpec.top (scores x0 x1 x2 x3 x4 x7) b h := by
  have hR : S4x160000x8.Reduces [1] S4x8 := by decide
  have hl : ∀ e : Fin 160000, hR.lift (ix2 b h) e = ix3 b e h := fun e => funext fun a => Fin.ext (by
    match a with
    | ⟨0, _⟩ => rfl
    | ⟨1, _⟩ => rfl
    | ⟨2, _⟩ => rfl)
  rw [val_main_v42_apply, val_main_v41_apply, val_main_cst_5_apply]
  unfold val_main_v40
  rw [Host.reduce_eq_fold_single FloatOps.maximumf _ _ reducesTo_S4x160000x8_S4x8_d1 hR h_S_, val_main_cst_4_apply,
    Ideal.ofBits_def, ofBits_neg_inf, fold_maximumf_bot, Ideal.maximumf_def, max_bot_left]
  show (Finset.univ : Finset (Fin 160000)).sup (fun e => val_main_v39 (F := Ideal) x0 x1 x2 x3 x4 x7 (hR.lift (ix2 b h) e)) = _
  simp only [hl, score_read x0 x1 x2 x3 x4 x7 hr]
  rfl

theorem exp_read (hr : ∀ i, 0 ≤ (x7 i).toInt ∧ (x7 i).toInt < 10000) (b : Fin 4) (e : Fin 160000) (h : Fin 8) :
    val_main_v46 (F := Ideal) x0 x1 x2 x3 x4 x7 (ix3 b e h)
      = Ideal.exp (scores x0 x1 x2 x3 x4 x7 b e h - AttnSpec.top (scores x0 x1 x2 x3 x4 x7) b h) := by
  have e44 : idx_main_v43 (idx_main_v44 (ix3 b e h)) = ix2 b h := funext fun a => by
    match a with
    | ⟨0, _⟩ => rfl
    | ⟨1, _⟩ => rfl
  rw [val_main_v46_apply, val_main_v45_apply, val_main_v44_apply, val_main_v43_apply, e44, top_read x0 x1 x2 x3 x4 x7 hr,
    score_read x0 x1 x2 x3 x4 x7 hr, Ideal.hostUnary_exp_def, Ideal.subf_def]

theorem mass_read (hr : ∀ i, 0 ≤ (x7 i).toInt ∧ (x7 i).toInt < 10000) (b : Fin 4) (h : Fin 8) :
    val_main_v47 (F := Ideal) x0 x1 x2 x3 x4 x7 (ix2 b h) = AttnSpec.mass (scores x0 x1 x2 x3 x4 x7) b h := by
  have e47 : ∀ k : Fin 160000, idx_main_v47 (ix2 b h) k = ix3 b k h := fun k => funext fun a => by
    match a with
    | ⟨0, _⟩ => rfl
    | ⟨1, _⟩ => rfl
    | ⟨2, _⟩ => rfl
  rw [val_main_v47_apply, val_main_cst_6_apply, Ideal.ofBits_def, Ideal.ofBits_zero_f32, zero_add]
  simp only [e47, exp_read x0 x1 x2 x3 x4 x7 hr]
  rfl

theorem weights_eq (hr : ∀ i, 0 ≤ (x7 i).toInt ∧ (x7 i).toInt < 10000) :
    val_main_v50 (F := Ideal) x0 x1 x2 x3 x4 x7 = AttnSpec.weights x0 x1 x2 x3 x4 x7 := by
  funext i
  obtain ⟨b, e, h, rfl⟩ : ∃ (b : Fin 4) (e : Fin 160000) (h : Fin 8), i = ix3 b e h := ⟨i 0, i 1, i 2, eq_ix3 i⟩
  have e49 : idx_main_v48 (idx_main_v49 (ix3 b e h)) = ix2 b h := funext fun a => by
    match a with
    | ⟨0, _⟩ => rfl
    | ⟨1, _⟩ => rfl
  rw [val_main_v50_apply, val_main_v49_apply, val_main_v48_apply, e49, mass_read x0 x1 x2 x3 x4 x7 hr,
    exp_read x0 x1 x2 x3 x4 x7 hr, Ideal.hostDivf_def]
  rfl

end Softmax

theorem res_weights (m : (ℓ : Loc nD τ sig) → Buf (Elt Ideal) ℓ) (c : Dev nD)
    (hr : ∀ i : S2x160000.Idx, 0 ≤ ((m ((c.tc : Thread nD τ).loc main_arg7)) i).toInt
      ∧ ((m ((c.tc : Thread nD τ).loc main_arg7)) i).toInt < 10000) :
    Cert.ReferenceIdeal.Value.res_out0 m c
      = AttnSpec.weights (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg7)) :=
  (val_main_v50_eq m c).trans (weights_eq _ _ _ _ _ _ hr)

theorem res_values (x0 : (⟨S4x10000x64, .f32⟩ : BufTy).Contents (Elt Ideal)) (x5 : (⟨S128x64, .f32⟩ : BufTy).Contents (Elt Ideal))
    (x6 : (⟨S128, .f32⟩ : BufTy).Contents (Elt Ideal)) :
    transpose S4x10000x16x8 [0, 1, 3, 2] (shapeCast _ (addf (F := Ideal) (Host.dotGeneral (F := Ideal) (φ₁ := .f32) (φ₂ := .f32) dot_S4x10000x64_S128x64_S4x10000x128_2_1_01_0_n_n none x0 x5)
        (broadcastInDim S4x10000x128 ![0, 1, 2] bcast_S1x1x128_S4x10000x128_0_1_2 (broadcastInDim S1x1x128 ![2] bcast_S128_S1x1x128_2 x6)))
        shapeCasts_S4x10000x128_S4x10000x8x16) transposes_S4x10000x8x16_S4x10000x16x8_0_1_3_2
      = AttnSpec.values x0 x5 x6 :=
  (val_main_v17_eq x0 x5 x6).trans (values_eq x0 x5 x6)

theorem run_spec (m' : (ℓ : Loc nD τ sig) → Buf (Elt Ideal) ℓ) (ρ' : Dev nD → PrngReg)
    (hr : ∀ (c : Dev nD) (i : S2x160000.Idx), 0 ≤ ((m' ((c.tc : Thread nD τ).loc main_arg7)) i).toInt
      ∧ ((m' ((c.tc : Thread nD τ).loc main_arg7)) i).toInt < 10000) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v50)
          = AttnSpec.weights (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg7))
        ∧ r.2.mem ((c.tc : Thread nD τ).loc main_v17)
          = AttnSpec.values (m' ((c.tc : Thread nD τ).loc main_arg0)) (m' ((c.tc : Thread nD τ).loc main_arg5))
              (m' ((c.tc : Thread nD τ).loc main_arg6))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)
        ∧ r.2.mem ((c.tc : Thread nD τ).loc main_arg7) = m' ((c.tc : Thread nD τ).loc main_arg7)) :=
  (θ_run Cert.ReferenceIdeal.defs _ _).mono
    (fun _ h c => ⟨(h c).1.trans (res_weights m' c (hr c)), (h c).2.1.trans (res_values _ _ _), (h c).2.2⟩)
    (Cert.ReferenceIdeal.Value.run (F := Ideal) m' ρ')

end Cert.ReferenceIdeal.RefValue

end
-- ==== Proof.KB.Rgn0.lean ====
import proofs.«412990_j12266426597865_3_alg».proof.Proof.Gen.Kernel.Launch
import proofs.«412990_j12266426597865_3_alg».proof.Proof.Gen.Kernel.Skeleton
import proofs.«412990_j12266426597865_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rowsRect : Rect S1x1000x64 := Rect.unit (s := S1x1000x64) ![0, 0, 0] S1x1000x64.size inb_S1x1000x64_S1x1000x64_0_0_0
abbrev weightRect : Rect S64x384 := Rect.unit (s := S64x384) ![0, 0] S64x384.size inb_S64x384_S64x384_0_0
abbrev biasRect : Rect S384 := Rect.unit (s := S384) ![0] S384.size inb_S384_S384_0
abbrev sliceRect : Rect S1x1000x128 := Rect.unit (s := S1x1000x128) ![0, 0, 0] S1x1000x128.size inb_S1x1000x128_S1x1000x128_0_0_0

section
variable (x : Vec F S1x1000x64 .f32) (wt : Vec F S64x384 .f32) (bs : Vec F S384 .f32)

def sliceLo : Vec F S1x1000x128 .bf16 :=
  View.canon [⟨sliceRect, k0_pay2 (View.ld x rowsRect) (View.ld wt weightRect) (View.ld bs biasRect)⟩]

def sliceMid : Vec F S1x1000x128 .bf16 :=
  View.canon [⟨sliceRect, k0_pay3 (View.ld x rowsRect) (View.ld wt weightRect) (View.ld bs biasRect)⟩]

def sliceHi : Vec F S1x1000x128 .f32 :=
  View.canon [⟨sliceRect, k0_pay4 (View.ld x rowsRect) (View.ld wt weightRect) (View.ld bs biasRect)⟩]

-- One store through the whole-block rectangle reaches every index of the block.
theorem slice_cover {e : EltTy} (p : sliceRect.shape.Idx → Elt F e) :
    ∀ y, ∃ pc ∈ ([⟨sliceRect, p⟩] : List (View.Piece (Elt F) S1x1000x128 e)), y ∈ pc.1.set :=
  View.cover_of_tiled _ S1x1000x128.size (by rfl)

end

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => sliceLo (iblk V c 0 t) (iblk V c 1 t) (iblk V c 2 t)
    | ⟨4, _⟩ => sliceMid (iblk V c 0 t) (iblk V c 1 t) (iblk V c 2 t)
    | ⟨5, _⟩ => sliceHi (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := rfl

theorem after_sliceLo (c : Dev nD) (t : Fin cfg0.N) :
    (dat V c).after 3 t = sliceLo (iblk V c 0 t) (iblk V c 1 t) (iblk V c 2 t) := by dsimp only [dat]
theorem after_sliceMid (c : Dev nD) (t : Fin cfg0.N) :
    (dat V c).after 4 t = sliceMid (iblk V c 0 t) (iblk V c 1 t) (iblk V c 2 t) := by dsimp only [dat]
theorem after_sliceHi (c : Dev nD) (t : Fin cfg0.N) :
    (dat V c).after 5 t = sliceHi (iblk V c 0 t) (iblk V c 1 t) (iblk V c 2 t) := by dsimp only [dat]

-- The body leaves each input block as it found it, so at every point it finds that point's block.
theorem before_in (c : Dev nD) (t : Fin cfg0.N) :
    (∀ d, (dat V c).before 0 t d = iblk V c 0 t) ∧ (∀ d, (dat V c).before 1 t d = iblk V c 1 t)
      ∧ ∀ d, (dat V c).before 2 t d = iblk V c 2 t := by
  refine ⟨fun d => ?_, fun d => ?_, fun d => ?_⟩ <;>
    exact Eq.trans ((dat V c).before_in_eq_fetched _ rfl (fun _ => rfl) (fun _ _ _ => rfl) (fun _ => rfl) t d) rfl

set_option maxHeartbeats 1000000 in
-- The inputs are their blocks and each output block is written whole, so the run ends at the stated contents; the invariant and the debts are untouched.
theorem body_obligation (c : Dev nD) : BodyObligation (dat (F := F) V c) (defs₀ (F := F)) Variants.none () Set.univ := fun t => by
  obtain ⟨b0, b1, b2⟩ := before_in V c t
  rw [bigSep_W0, bigSep_W0]
  sl_whnfR [defs₀, Defs.onTc]
  simp only [b0, b1, b2, cc0__project_kernel_eq_skeleton]; unfold cc0__project_kernel_skel
  dsimp only [dat]
  unfold owns
  iintro ⟨HΦ, Ho, ⟨%d0, %f0, %h0, H0⟩, ⟨%d1, %f1, %h1, H1⟩, ⟨%d2, %f2, %h2, H2⟩, ⟨%d3, %f3, -, H3⟩, ⟨%d4, %f4, -, H4⟩, ⟨%d5, %f5, -, H5⟩⟩
  sl_exec
  sl_step
  isplitl [HΦ]; · iexact HΦ
  isplitl [Ho]; · iexact Ho
  isplitl [H0]; rotate_left; isplitl [H1]; rotate_left; isplitl [H2]; rotate_left; isplitl [H3]; rotate_left; isplitl [H4]; rotate_left
  all_goals
    iexists _; isplitr
    swap; · iassumption
    ipureintro
    first | assumption | (rw [← h0, ← h1, ← h2]; exact View.read_writes_eq_canon _ _ _ (slice_cover _))

theorem hin (c : Dev nD) : (Pipeline.ΦA spec0 c : sProp 𝕄) ⊢ (dat V c).Φ 0 := .rfl

theorem hout (c : Dev nD) : (dat V c).Φ (Fin.last cfg0.N) ⊢ (Pipeline.ΦA spec0 c : sProp 𝕄) := .rfl

end Cert.Kernel.Rgn0

end
-- ==== Proof.KB.Rgn1.Setting.lean ====
import proofs.«412990_j12266426597865_3_alg».proof.Proof.Gen.Kernel.Launch
import proofs.«412990_j12266426597865_3_alg».proof.Proof.Gen.Kernel.Skeleton
import proofs.«412990_j12266426597865_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev firstNodeTile (i : grid1.Coords) : Prop :=
  (Scalar.cmpi .ne (Scalar.extui (Scalar.cmpi .eq (BitVec.ofNat 32 (i 1).val) 0#32)) 0#32) = 1#1

theorem firstNodeTile_iff : ∀ t : Fin cfg1.N, firstNodeTile (grid1.coords t) ↔ t.val % 20 = 0 :=
  (by decide +kernel : ∀ t : Fin grid1.N, firstNodeTile (grid1.coords t) ↔ t.val % 20 = 0)

abbrev lastNodeTile (i : grid1.Coords) : Prop := k1_cond2 i = 1#1

theorem lastNodeTile_iff : ∀ t : Fin cfg1.N, lastNodeTile (grid1.coords t) ↔ t.val % 20 = 19 :=
  (by decide +kernel : ∀ t : Fin grid1.N, lastNodeTile (grid1.coords t) ↔ t.val % 20 = 19)

theorem score_idle : ∀ t : Fin cfg1.N, ¬lastNodeTile (grid1.coords t) → cfg1.idle 4 (grid1.coords t) = true := by decide +kernel

theorem score_live : ∀ t : Fin cfg1.N, lastNodeTile (grid1.coords t) → cfg1.idle 4 (grid1.coords t) = false := by decide +kernel

theorem score_noFlush (t : Fin cfg1.N) (h : ¬lastNodeTile (grid1.coords t)) : (cfg1.win 4).flush t = false :=
  Bool.eq_false_iff.mpr fun hf => h ((lastNodeTile_iff t).mpr ((flush1_4 t).mp hf))

abbrev qStage (t : Fin cfg1.N) : Memref sig .tc .vmem S512x512 .bf16 := win1_0.stage (cfg1.slots t 0)
abbrev qStage_whole (t : Fin cfg1.N) : (qStage t).IsWhole := hstage1_0 ((cfg1.slots t 0).cast nbuf1_0)
abbrev kStage (t : Fin cfg1.N) : Memref sig .tc .vmem S512x512 .bf16 := win1_1.stage (cfg1.slots t 1)
abbrev kStage_whole (t : Fin cfg1.N) : (kStage t).IsWhole := hstage1_1 ((cfg1.slots t 1).cast nbuf1_1)
abbrev srcStage (t : Fin cfg1.N) : Memref sig .tc .vmem S2048 .i32 := win1_2.stage (cfg1.slots t 2)
abbrev srcStage_whole (t : Fin cfg1.N) : (srcStage t).IsWhole := hstage1_2 ((cfg1.slots t 2).cast nbuf1_2)
abbrev dstStage (t : Fin cfg1.N) : Memref sig .tc .vmem S2048 .i32 := win1_3.stage (cfg1.slots t 3)
abbrev dstStage_whole (t : Fin cfg1.N) : (dstStage t).IsWhole := hstage1_3 ((cfg1.slots t 3).cast nbuf1_3)
abbrev scoreStage (t : Fin cfg1.N) : Memref sig .tc .vmem S4x8x2048 .f32 := win1_4.stage (cfg1.slots t 4)
abbrev scoreStage_whole (t : Fin cfg1.N) : (scoreStage t).IsWhole := hstage1_4 ((cfg1.slots t 4).cast nbuf1_4)

abbrev gqAcc : Memref sig .tc .vmem S2048x512 .f32 := Memref.whole cc1_scratch0
abbrev gkAcc : Memref sig .tc .vmem S2048x512 .f32 := Memref.whole cc1_scratch1
abbrev gqView : View sig .tc .vmem S2048x512 .f32 := gqAcc.view
abbrev gkView : View sig .tc .vmem S2048x512 .f32 := gkAcc.view
abbrev scoreView : View sig .tc .vmem S4x8x2048 .f32 := (Memref.whole cc1_stg4_0 : Memref sig .tc .vmem S4x8x2048 .f32).view

theorem owns_unread (c : Dev nD) {S : Shape} {e : EltTy} {m : Memref sig .tc .vmem S e} (h : m.IsWhole) (X : Vec F S e) :
    (owns c.tc m fullShare X : sProp 𝕄) = (m.view.loc c.tc ↦[m.view.set]{fullShare} h.unread X) := by
  have h₁ : (owns c.tc m fullShare X : sProp 𝕄) ⊢ (m.view.loc c.tc ↦[m.view.set]{fullShare} h.unread X) := by
    unfold owns; iintro ⟨%f, %hf, H⟩; obtain rfl := h.eq_unread hf; iexact H
  have h₂ : (m.view.loc c.tc ↦[m.view.set]{fullShare} h.unread X : sProp 𝕄) ⊢ owns c.tc m fullShare X := by
    unfold owns; iintro H; iexists _; isplitr
    · ipureintro; exact h.read_unread X
    · iexact H
  exact BI.equiv_iff.mp ⟨h₁, h₂⟩

-- The region's invariant around its accumulator part `P`: the rest of the region's own state, at anything.
abbrev withAccs (c : Dev nD) (P : sProp 𝕄) : sProp 𝕄 :=
  iprop((P ∗ Pipeline.scopedRestBut (Ix := Unit) (Name := ℕ) (U := UR sig nD τ) (Lvl := ℕ) (Val := Elt F) spec1 c [cc1_scratch0, cc1_scratch1]) ∗ (∃ r, prngReg c r))

theorem entry_eq (c : Dev nD) :
    (Pipeline.ΦA spec1 c : sProp 𝕄) = withAccs c iprop((∃ d, owns c.tc gqAcc fullShare d) ∗ (∃ d, owns c.tc gkAcc fullShare d)) := by
  unfold Pipeline.ΦA; rw [scopedRest1_split]; simp only [gqAcc, gkAcc, owns_whole]; try rfl

end Cert.Kernel.Rgn1

end
-- ==== Proof.KB.Rgn1.RunFirst.lean ====
import proofs.«412990_j12266426597865_3_alg».proof.Proof.KB.Rgn1.Setting

set_option maxRecDepth 16384

noncomputable section

namespace Cert.Kernel.Rgn1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 4000000 in
-- At the first node tile of an edge tile the body zeroes the two accumulators before it reads them, so it takes them at anything; the pieces it stores are the witness the run finds.
noncomputable def runFirst (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S2048 .i32) (harg4 : arg4.IsWhole) (arg5 : Memref sig .tc .vmem S2048 .i32) (harg5 : arg5.IsWhole) (arg6 : Memref sig .tc .vmem S4x8x2048 .f32) (harg6 : arg6.IsWhole) (arg7 : Memref sig .tc .vmem S2048x512 .f32) (harg7 : arg7.IsWhole) (arg8 : Memref sig .tc .vmem S2048x512 .f32) (harg8 : arg8.IsWhole)
    (hfirst : firstNodeTile i) (hlast : ¬lastNodeTile i)
    (q : Vec F S512x512 .bf16) (k : Vec F S512x512 .bf16) (src : Vec F S2048 .i32) (dst : Vec F S2048 .i32) :
    Σ' (Lq : List (View.Piece (Elt F) S2048x512 .f32)), { Lk : List (View.Piece (Elt F) S2048x512 .f32) //
      ∀ (score : Vec F S4x8x2048 .f32) (E : Set ℕ) (K : PUnit → sProp 𝕄),
        iprop(owns c.tc arg2 fullShare q ∗ owns c.tc arg3 fullShare k ∗ owns c.tc arg4 fullShare src ∗ owns c.tc arg5 fullShare dst ∗ owns c.tc arg6 fullShare score
            ∗ (∃ d, owns c.tc arg7 fullShare d) ∗ (∃ d, owns c.tc arg8 fullShare d)
            ∗ (iprop(owns c.tc arg2 fullShare q ∗ owns c.tc arg3 fullShare k ∗ owns c.tc arg4 fullShare src ∗ owns c.tc arg5 fullShare dst ∗ owns c.tc arg6 fullShare score
                ∗ (∃ f, arg7.view.loc c.tc ↦[arg7.view.set]{fullShare} arg7.view.writes (Elt F) f Lq)
                ∗ (∃ f, arg8.view.loc c.tc ↦[arg8.view.set]{fullShare} arg8.view.writes (Elt F) f Lk)) -∗ K ⟨⟩))
          ⊢ wp frame (wpE (defs₀ (F := F)) Variants.none c none) E (cc1__gather_score_kernel i arg2 harg2 arg3 harg3 arg4 harg4 arg5 harg5 arg6 harg6 arg7 harg7 arg8 harg8) K } := by
  refine ⟨?_, ?_, fun score E K => ?run⟩
  case run =>
    simp only [cc1__gather_score_kernel_eq_skeleton]; unfold cc1__gather_score_kernel_skel
    simp only [k1_part1_eq_skeleton, k1_part2_eq_skeleton]
    rw [owns_unread c harg2, owns_unread c harg3, owns_unread c harg4, owns_unread c harg5, owns_unread c harg6]; unfold owns
    iintro ⟨H0, H1, H2, H3, H4, ⟨%dq, %fq, -, HQ⟩, ⟨%dk, %fk, -, HK⟩, Hk⟩
    sl_exec (disch := first | exact hfirst | exact hlast)
    sl_step
    iapply Hk
    iframe H0 H1 H2 H3 H4
    isplitl [HQ]; · iexists _; iexact HQ
    iexists _; iexact HK

end Cert.Kernel.Rgn1

end
-- ==== Proof.KB.Rgn1.RunMiddle.lean ====
import proofs.«412990_j12266426597865_3_alg».proof.Proof.KB.Rgn1.RunFirst

set_option maxRecDepth 16384

noncomputable section

namespace Cert.Kernel.Rgn1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 4000000 in
-- At a middle node tile the body adds onto what the point before left in the two accumulators and leaves the score buffer alone.
noncomputable def runMiddle (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S2048 .i32) (harg4 : arg4.IsWhole) (arg5 : Memref sig .tc .vmem S2048 .i32) (harg5 : arg5.IsWhole) (arg6 : Memref sig .tc .vmem S4x8x2048 .f32) (harg6 : arg6.IsWhole) (arg7 : Memref sig .tc .vmem S2048x512 .f32) (harg7 : arg7.IsWhole) (arg8 : Memref sig .tc .vmem S2048x512 .f32) (harg8 : arg8.IsWhole)
    (hfirst : ¬firstNodeTile i) (hlast : ¬lastNodeTile i)
    (q : Vec F S512x512 .bf16) (k : Vec F S512x512 .bf16) (src : Vec F S2048 .i32) (dst : Vec F S2048 .i32)
    (gq : Vec F S2048x512 .f32) (gk : Vec F S2048x512 .f32) :
    Σ' (Lq : List (View.Piece (Elt F) S2048x512 .f32)), { Lk : List (View.Piece (Elt F) S2048x512 .f32) //
      ∀ (score : Vec F S4x8x2048 .f32) (E : Set ℕ) (K : PUnit → sProp 𝕄),
        iprop(owns c.tc arg2 fullShare q ∗ owns c.tc arg3 fullShare k ∗ owns c.tc arg4 fullShare src ∗ owns c.tc arg5 fullShare dst ∗ owns c.tc arg6 fullShare score
            ∗ owns c.tc arg7 fullShare gq ∗ owns c.tc arg8 fullShare gk
            ∗ (iprop(owns c.tc arg2 fullShare q ∗ owns c.tc arg3 fullShare k ∗ owns c.tc arg4 fullShare src ∗ owns c.tc arg5 fullShare dst ∗ owns c.tc arg6 fullShare score
                ∗ (∃ f, arg7.view.loc c.tc ↦[arg7.view.set]{fullShare} arg7.view.writes (Elt F) f Lq)
                ∗ (∃ f, arg8.view.loc c.tc ↦[arg8.view.set]{fullShare} arg8.view.writes (Elt F) f Lk)) -∗ K ⟨⟩))
          ⊢ wp frame (wpE (defs₀ (F := F)) Variants.none c none) E (cc1__gather_score_kernel i arg2 harg2 arg3 harg3 arg4 harg4 arg5 harg5 arg6 harg6 arg7 harg7 arg8 harg8) K } := by
  refine ⟨?_, ?_, fun score E K => ?run⟩
  case run =>
    simp only [cc1__gather_score_kernel_eq_skeleton]; unfold cc1__gather_score_kernel_skel
    simp only [k1_part1_eq_skeleton, k1_part2_eq_skeleton]
    rw [owns_unread c harg2, owns_unread c harg3, owns_unread c harg4, owns_unread c harg5, owns_unread c harg6, owns_unread c harg7, owns_unread c harg8]
    iintro ⟨H0, H1, H2, H3, H4, HQ, HK, Hk⟩
    sl_exec (disch := first | exact hfirst | exact hlast)
    sl_step
    iapply Hk
    iframe H0 H1 H2 H3 H4
    isplitl [HQ]; · iexists _; iexact HQ
    iexists _; iexact HK

end Cert.Kernel.Rgn1

end
-- ==== Proof.KB.Rgn1.RunLast.lean ====
import proofs.«412990_j12266426597865_3_alg».proof.Proof.KB.Rgn1.RunMiddle

set_option maxRecDepth 16384

noncomputable section

namespace Cert.Kernel.Rgn1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 4000000 in
-- At the last node tile the body adds onto the accumulators as before and stores the edge tile's four score slices, so it takes the score buffer at anything.
noncomputable def runLast (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S2048 .i32) (harg4 : arg4.IsWhole) (arg5 : Memref sig .tc .vmem S2048 .i32) (harg5 : arg5.IsWhole) (arg6 : Memref sig .tc .vmem S4x8x2048 .f32) (harg6 : arg6.IsWhole) (arg7 : Memref sig .tc .vmem S2048x512 .f32) (harg7 : arg7.IsWhole) (arg8 : Memref sig .tc .vmem S2048x512 .f32) (harg8 : arg8.IsWhole)
    (hfirst : ¬firstNodeTile i) (hlast : lastNodeTile i)
    (q : Vec F S512x512 .bf16) (k : Vec F S512x512 .bf16) (src : Vec F S2048 .i32) (dst : Vec F S2048 .i32)
    (gq : Vec F S2048x512 .f32) (gk : Vec F S2048x512 .f32) :
    Σ' (Ls : List (View.Piece (Elt F) S4x8x2048 .f32)) (Lq : List (View.Piece (Elt F) S2048x512 .f32)), { Lk : List (View.Piece (Elt F) S2048x512 .f32) //
      ∀ (E : Set ℕ) (K : PUnit → sProp 𝕄),
        iprop(owns c.tc arg2 fullShare q ∗ owns c.tc arg3 fullShare k ∗ owns c.tc arg4 fullShare src ∗ owns c.tc arg5 fullShare dst ∗ (∃ d, owns c.tc arg6 fullShare d)
            ∗ owns c.tc arg7 fullShare gq ∗ owns c.tc arg8 fullShare gk
            ∗ (iprop(owns c.tc arg2 fullShare q ∗ owns c.tc arg3 fullShare k ∗ owns c.tc arg4 fullShare src ∗ owns c.tc arg5 fullShare dst
                ∗ (∃ f, arg6.view.loc c.tc ↦[arg6.view.set]{fullShare} arg6.view.writes (Elt F) f Ls)
                ∗ (∃ f, arg7.view.loc c.tc ↦[arg7.view.set]{fullShare} arg7.view.writes (Elt F) f Lq)
                ∗ (∃ f, arg8.view.loc c.tc ↦[arg8.view.set]{fullShare} arg8.view.writes (Elt F) f Lk)) -∗ K ⟨⟩))
          ⊢ wp frame (wpE (defs₀ (F := F)) Variants.none c none) E (cc1__gather_score_kernel i arg2 harg2 arg3 harg3 arg4 harg4 arg5 harg5 arg6 harg6 arg7 harg7 arg8 harg8) K } := by
  refine ⟨?_, ?_, ?_, fun E K => ?run⟩
  case run =>
    simp only [cc1__gather_score_kernel_eq_skeleton]; unfold cc1__gather_score_kernel_skel
    simp only [k1_part1_eq_skeleton, k1_part2_eq_skeleton]
    rw [owns_unread c harg2, owns_unread c harg3, owns_unread c harg4, owns_unread c harg5, owns_unread c harg7, owns_unread c harg8]; unfold owns
    iintro ⟨H0, H1, H2, H3, ⟨%d4, %f4, -, H4⟩, HQ, HK, Hk⟩
    sl_exec (disch := first | exact hfirst | exact hlast)
    sl_step
    iapply Hk
    iframe H0 H1 H2 H3
    isplitl [H4]; · iexists _; iexact H4
    isplitl [HQ]; · iexists _; iexact HQ
    iexists _; iexact HK

end Cert.Kernel.Rgn1

end
-- ==== Proof.KB.Rgn1.lean ====
import proofs.«412990_j12266426597865_3_alg».proof.Proof.KB.Rgn1.RunLast

set_option maxRecDepth 16384

noncomputable section

namespace Cert.Kernel.Rgn1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev qBlk (c : Dev nD) (t : Fin cfg1.N) : Vec F S512x512 .bf16 := iblk V c 0 t
abbrev kBlk (c : Dev nD) (t : Fin cfg1.N) : Vec F S512x512 .bf16 := iblk V c 1 t
abbrev srcBlk (c : Dev nD) (t : Fin cfg1.N) : Vec F S2048 .i32 := iblk V c 2 t
abbrev dstBlk (c : Dev nD) (t : Fin cfg1.N) : Vec F S2048 .i32 := iblk V c 3 t

theorem notLast_of_first (t : Fin cfg1.N) (h0 : t.val % 20 = 0) : ¬lastNodeTile (grid1.coords t) :=
  fun h => by have := (lastNodeTile_iff t).mp h; omega

theorem first_of_mod (t : Fin cfg1.N) (h0 : t.val % 20 = 0) : firstNodeTile (grid1.coords t) := (firstNodeTile_iff t).mpr h0
theorem notFirst_of_mod (t : Fin cfg1.N) (h0 : ¬t.val % 20 = 0) : ¬firstNodeTile (grid1.coords t) := fun h => h0 ((firstNodeTile_iff t).mp h)
theorem last_of_mod (t : Fin cfg1.N) (h19 : t.val % 20 = 19) : lastNodeTile (grid1.coords t) := (lastNodeTile_iff t).mpr h19
theorem notLast_of_mod (t : Fin cfg1.N) (h19 : ¬t.val % 20 = 19) : ¬lastNodeTile (grid1.coords t) := fun h => h19 ((lastNodeTile_iff t).mp h)

def scoreUnwritten : Vec F S4x8x2048 .f32 := scoreView.read (Elt F) scoreView.junk

section Points

variable (c : Dev nD) (t : Fin cfg1.N)

section First

variable (h0 : t.val % 20 = 0) (q k : Vec F S512x512 .bf16) (src dst : Vec F S2048 .i32)

abbrev firstAt :=
  runFirst (F := F) c (grid1.coords t) (qStage t) (qStage_whole t) (kStage t) (kStage_whole t) (srcStage t) (srcStage_whole t) (dstStage t) (dstStage_whole t) (scoreStage t) (scoreStage_whole t) gqAcc (Memref.isWhole_whole _) gkAcc (Memref.isWhole_whole _) (first_of_mod t h0) (notLast_of_first t h0) q k src dst

def gqFirst : Vec F S2048x512 .f32 :=
  gqView.read (Elt F) (gqView.writes (Elt F) gqView.junk (firstAt c t h0 q k src dst).1)

def gkFirst : Vec F S2048x512 .f32 :=
  gkView.read (Elt F) (gkView.writes (Elt F) gkView.junk (firstAt c t h0 q k src dst).2.1)

def afterFirst : Vec F S4x8x2048 .f32 × Vec F S2048x512 .f32 × Vec F S2048x512 .f32 :=
  (scoreUnwritten, gqFirst c t h0 (qBlk V c t) (kBlk V c t) (srcBlk V c t) (dstBlk V c t), gkFirst c t h0 (qBlk V c t) (kBlk V c t) (srcBlk V c t) (dstBlk V c t))

end First

variable (h0 : ¬t.val % 20 = 0)

section Middle

variable (h19 : ¬t.val % 20 = 19) (q k : Vec F S512x512 .bf16) (src dst : Vec F S2048 .i32) (gq gk : Vec F S2048x512 .f32)

abbrev middleAt :=
  runMiddle (F := F) c (grid1.coords t) (qStage t) (qStage_whole t) (kStage t) (kStage_whole t) (srcStage t) (srcStage_whole t) (dstStage t) (dstStage_whole t) (scoreStage t) (scoreStage_whole t) gqAcc (Memref.isWhole_whole _) gkAcc (Memref.isWhole_whole _) (notFirst_of_mod t h0) (notLast_of_mod t h19) q k src dst gq gk

def gqMiddle : Vec F S2048x512 .f32 :=
  gqView.read (Elt F) (gqView.writes (Elt F) gqView.junk (middleAt c t h0 h19 q k src dst gq gk).1)

def gkMiddle : Vec F S2048x512 .f32 :=
  gkView.read (Elt F) (gkView.writes (Elt F) gkView.junk (middleAt c t h0 h19 q k src dst gq gk).2.1)

def afterMiddle (acc : Vec F S2048x512 .f32 × Vec F S2048x512 .f32) : Vec F S4x8x2048 .f32 × Vec F S2048x512 .f32 × Vec F S2048x512 .f32 :=
  (scoreUnwritten, gqMiddle c t h0 h19 (qBlk V c t) (kBlk V c t) (srcBlk V c t) (dstBlk V c t) acc.1 acc.2, gkMiddle c t h0 h19 (qBlk V c t) (kBlk V c t) (srcBlk V c t) (dstBlk V c t) acc.1 acc.2)

end Middle

section Last

variable (h19 : t.val % 20 = 19) (q k : Vec F S512x512 .bf16) (src dst : Vec F S2048 .i32) (gq gk : Vec F S2048x512 .f32)

abbrev lastAt :=
  runLast (F := F) c (grid1.coords t) (qStage t) (qStage_whole t) (kStage t) (kStage_whole t) (srcStage t) (srcStage_whole t) (dstStage t) (dstStage_whole t) (scoreStage t) (scoreStage_whole t) gqAcc (Memref.isWhole_whole _) gkAcc (Memref.isWhole_whole _) (notFirst_of_mod t h0) (last_of_mod t h19) q k src dst gq gk

def scoreLast : Vec F S4x8x2048 .f32 :=
  scoreView.read (Elt F) (scoreView.writes (Elt F) scoreView.junk (lastAt c t h0 h19 q k src dst gq gk).1)

def gqLast : Vec F S2048x512 .f32 :=
  gqView.read (Elt F) (gqView.writes (Elt F) gqView.junk (lastAt c t h0 h19 q k src dst gq gk).2.1)

def gkLast : Vec F S2048x512 .f32 :=
  gkView.read (Elt F) (gkView.writes (Elt F) gkView.junk (lastAt c t h0 h19 q k src dst gq gk).2.2.1)

def afterLast (acc : Vec F S2048x512 .f32 × Vec F S2048x512 .f32) : Vec F S4x8x2048 .f32 × Vec F S2048x512 .f32 × Vec F S2048x512 .f32 :=
  (scoreLast c t h0 h19 (qBlk V c t) (kBlk V c t) (srcBlk V c t) (dstBlk V c t) acc.1 acc.2, gqLast c t h0 h19 (qBlk V c t) (kBlk V c t) (srcBlk V c t) (dstBlk V c t) acc.1 acc.2, gkLast c t h0 h19 (qBlk V c t) (kBlk V c t) (srcBlk V c t) (dstBlk V c t) acc.1 acc.2)

end Last

end Points

def carried (c : Dev nD) : (n : ℕ) → n < cfg1.N → Vec F S4x8x2048 .f32 × Vec F S2048x512 .f32 × Vec F S2048x512 .f32
  | 0, hn => afterFirst V c ⟨0, hn⟩ (Nat.zero_mod _)
  | n + 1, hn =>
    if h0 : (n + 1) % 20 = 0 then afterFirst V c ⟨n + 1, hn⟩ h0
    else if h19 : (n + 1) % 20 = 19 then afterLast V c ⟨n + 1, hn⟩ h0 h19 (carried c n (Nat.lt_of_succ_lt hn)).2
    else afterMiddle V c ⟨n + 1, hn⟩ h0 h19 (carried c n (Nat.lt_of_succ_lt hn)).2

theorem pred_lt (t : Fin cfg1.N) : t.val - 1 < cfg1.N := Nat.lt_of_le_of_lt (Nat.sub_le _ _) t.isLt

theorem carried_first (c : Dev nD) (t : Fin cfg1.N) (h0 : t.val % 20 = 0) :
    carried V c t.val t.isLt = afterFirst V c t h0 := by
  obtain ⟨n, hn⟩ := t
  cases n with
  | zero => exact rfl
  | succ n => exact (dif_pos h0).trans rfl

theorem carried_middle (c : Dev nD) (t : Fin cfg1.N) (h0 : ¬t.val % 20 = 0) (h19 : ¬t.val % 20 = 19) :
    carried V c t.val t.isLt = afterMiddle V c t h0 h19 (carried V c (t.val - 1) (pred_lt t)).2 := by
  obtain ⟨n, hn⟩ := t
  cases n with
  | zero => exact absurd (Nat.zero_mod _) h0
  | succ n => exact (dif_neg h0).trans ((dif_neg h19).trans rfl)

theorem carried_last (c : Dev nD) (t : Fin cfg1.N) (h0 : ¬t.val % 20 = 0) (h19 : t.val % 20 = 19) :
    carried V c t.val t.isLt = afterLast V c t h0 h19 (carried V c (t.val - 1) (pred_lt t)).2 := by
  obtain ⟨n, hn⟩ := t
  cases n with
  | zero => exact absurd (Nat.zero_mod _) h0
  | succ n => exact (dif_neg h0).trans ((dif_pos h19).trans rfl)

-- Before position `n`: the entry state at `n = 0`, afterwards the same with the two accumulators at what position `n - 1` left in them.
def inv (c : Dev nD) : (n : ℕ) → n ≤ cfg1.N → sProp 𝕄
  | 0, _ => Pipeline.ΦA spec1 c
  | n + 1, hn => withAccs c iprop(owns c.tc gqAcc fullShare (carried V c n hn).2.1 ∗ owns c.tc gkAcc fullShare (carried V c n hn).2.2)

theorem inv_pos (c : Dev nD) (t : Fin cfg1.N) (hz : t.val ≠ 0) :
    inv V c t.val (Nat.le_of_lt t.isLt) = withAccs c iprop(owns c.tc gqAcc fullShare (carried V c (t.val - 1) (pred_lt t)).2.1 ∗ owns c.tc gkAcc fullShare (carried V c (t.val - 1) (pred_lt t)).2.2) := by
  obtain ⟨n, hn⟩ := t
  cases n with
  | zero => exact absurd rfl hz
  | succ n => rfl

-- The invariant before any position gives the entry invariant back: the accumulators' named contents are forgotten.
theorem inv_entry (c : Dev nD) (n : ℕ) (h : n ≤ cfg1.N) :
    inv V c n h ⊢ withAccs c iprop((∃ d, owns c.tc gqAcc fullShare d) ∗ (∃ d, owns c.tc gkAcc fullShare d)) := by
  cases n with
  | zero => rw [inv, entry_eq]
  | succ n =>
    rw [inv]; unfold withAccs
    iintro ⟨⟨⟨HQ, HK⟩, Hrest⟩, Hg⟩
    iframe Hrest Hg
    isplitl [HQ]
    · iexists _; iexact HQ
    · iexists _; iexact HK

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (carried V c t.val t.isLt).1
  Φ t := inv V c t.val (Nat.le_of_lt_succ t.isLt)
  q _ := fullShare
  owed _ := 0

theorem A_eq (c : Dev nD) (w : Fin cfg1.W) : (dat V c).A w = V c (Pipeline.arrRef spec1 w) := by dsimp only [dat]

theorem after_score (c : Dev nD) (t : Fin cfg1.N) : (dat V c).after 4 t = (carried V c t.val t.isLt).1 := by dsimp only [dat]

-- What the body is handed for an input at any point is that input's block there: the body never writes an input.
theorem before_q (c : Dev nD) (t : Fin cfg1.N) (d) : (dat V c).before 0 t d = iblk V c 0 t :=
  (dat V c).before_in_eq_fetched 0 rfl (fun _ => rfl) (fun _ _ _ => rfl) (fun _ => rfl) t d
theorem before_k (c : Dev nD) (t : Fin cfg1.N) (d) : (dat V c).before 1 t d = iblk V c 1 t :=
  (dat V c).before_in_eq_fetched 1 rfl (fun _ => rfl) (fun _ _ _ => rfl) (fun _ => rfl) t d
theorem before_src (c : Dev nD) (t : Fin cfg1.N) (d) : (dat V c).before 2 t d = iblk V c 2 t :=
  (dat V c).before_in_eq_fetched 2 rfl (fun _ => rfl) (fun _ _ _ => rfl) (fun _ => rfl) t d
theorem before_dst (c : Dev nD) (t : Fin cfg1.N) (d) : (dat V c).before 3 t d = iblk V c 3 t :=
  (dat V c).before_in_eq_fetched 3 rfl (fun _ => rfl) (fun _ _ _ => rfl) (fun _ => rfl) t d

set_option maxHeartbeats 4800000 in
-- The body at any point: `t % 20` says which of the three runs applies; the pieces each run stored tile their buffers, so what is read back does not depend on what the buffers held.
theorem sound_body (c : Dev nD) (t : Fin cfg1.N) :
    iprop(inv V c t.val (Nat.le_of_lt t.isLt) ∗ (dat V c).owesAt () t.castSucc
      ∗ (∃ d, owns c.tc (qStage t) fullShare ((dat V c).before 0 t d))
      ∗ (∃ d, owns c.tc (kStage t) fullShare ((dat V c).before 1 t d))
      ∗ (∃ d, owns c.tc (srcStage t) fullShare ((dat V c).before 2 t d))
      ∗ (∃ d, owns c.tc (dstStage t) fullShare ((dat V c).before 3 t d))
      ∗ (∃ d, owns c.tc (scoreStage t) fullShare ((dat V c).before 4 t d)))
      ⊢ wp frame (wpE (defs₀ (F := F)) Variants.none c none) Set.univ (bodyAt1 t) fun _ =>
        iprop(withAccs c iprop(owns c.tc gqAcc fullShare (carried V c t.val t.isLt).2.1 ∗ owns c.tc gkAcc fullShare (carried V c t.val t.isLt).2.2)
          ∗ (dat V c).owesAt () t.castSucc
          ∗ owns c.tc (qStage t) fullShare (qBlk V c t) ∗ owns c.tc (kStage t) fullShare (kBlk V c t)
          ∗ owns c.tc (srcStage t) fullShare (srcBlk V c t) ∗ owns c.tc (dstStage t) fullShare (dstBlk V c t)
          ∗ (dat V c).leavesExact 4 t) := by
  unfold bodyAt1 withAccs
  simp only [before_q, before_k, before_src, before_dst]
  by_cases h0 : t.val % 20 = 0
  · have hl := notLast_of_first t h0
    iintro ⟨Hinv, Ho, ⟨%d0, H0⟩, ⟨%d1, H1⟩, ⟨%d2, H2⟩, ⟨%d3, H3⟩, ⟨%d4, H4⟩⟩
    rw [Dat.leavesExact_idle (dat V c) 4 t (score_idle t hl) (score_noFlush t hl), carried_first V c t h0]
    unfold afterFirst gqFirst gkFirst; dsimp only
    ihave ⟨⟨⟨HQ, HK⟩, Hrest⟩, Hg⟩ := (inv_entry V c t.val (Nat.le_of_lt t.isLt)) $$ Hinv
    iapply ((firstAt c t h0 (qBlk V c t) (kBlk V c t) (srcBlk V c t) (dstBlk V c t)).2.2 ((dat V c).before 4 t d4) Set.univ _)
    iframe H0 H1 H2 H3 H4 HQ HK
    iintro ⟨H0, H1, H2, H3, H4, ⟨%fq, HQ⟩, ⟨%fk, HK⟩⟩
    iframe Ho H0 H1 H2 H3 Hrest Hg
    isplitr [H4]
    · isplitl [HQ]
      · ihave H := (Ring.owns_of_writes_tiledL gqView S2048x512.size) $$ HQ; iapply H; ipureintro; sl_kernel_rfl
      · ihave H := (Ring.owns_of_writes_tiledL gkView S2048x512.size) $$ HK; iapply H; ipureintro; sl_kernel_rfl
    · iexists _; iexact H4
  · rw [inv_pos V c t fun e => h0 (by rw [e])]
    iintro ⟨⟨⟨⟨HQ, HK⟩, Hrest⟩, Hg⟩, Ho, ⟨%d0, H0⟩, ⟨%d1, H1⟩, ⟨%d2, H2⟩, ⟨%d3, H3⟩, ⟨%d4, H4⟩⟩
    by_cases h19 : t.val % 20 = 19
    · rw [show (dat V c).leavesExact 4 t = owns c.tc (scoreStage t) fullShare ((dat V c).after 4 t) from by
        unfold Dat.leavesExact; rw [score_live t (last_of_mod t h19)], after_score, carried_last V c t h0 h19]
      unfold afterLast scoreLast gqLast gkLast; dsimp only
      iapply ((lastAt c t h0 h19 (qBlk V c t) (kBlk V c t) (srcBlk V c t) (dstBlk V c t) (carried V c (t.val - 1) (pred_lt t)).2.1 (carried V c (t.val - 1) (pred_lt t)).2.2).2.2.2 Set.univ _)
      iframe H0 H1 H2 H3 HQ HK
      isplitl [H4]; · iexists _; iexact H4
      iintro ⟨H0, H1, H2, H3, ⟨%fs, H4⟩, ⟨%fq, HQ⟩, ⟨%fk, HK⟩⟩
      iframe Ho H0 H1 H2 H3 Hrest Hg
      isplitr [H4]
      · isplitl [HQ]
        · ihave H := (Ring.owns_of_writes_tiledL gqView S2048x512.size) $$ HQ; iapply H; ipureintro; sl_kernel_rfl
        · ihave H := (Ring.owns_of_writes_tiledL gkView S2048x512.size) $$ HK; iapply H; ipureintro; sl_kernel_rfl
      · ihave H := (Ring.owns_of_writes_tiledL scoreView S1x8x2048.size) $$ H4; iapply H; ipureintro; sl_kernel_rfl
    · have hl := notLast_of_mod t h19
      rw [Dat.leavesExact_idle (dat V c) 4 t (score_idle t hl) (score_noFlush t hl), carried_middle V c t h0 h19]
      unfold afterMiddle gqMiddle gkMiddle; dsimp only
      iapply ((middleAt c t h0 h19 (qBlk V c t) (kBlk V c t) (srcBlk V c t) (dstBlk V c t) (carried V c (t.val - 1) (pred_lt t)).2.1 (carried V c (t.val - 1) (pred_lt t)).2.2).2.2 ((dat V c).before 4 t d4) Set.univ _)
      iframe H0 H1 H2 H3 H4 HQ HK
      iintro ⟨H0, H1, H2, H3, H4, ⟨%fq, HQ⟩, ⟨%fk, HK⟩⟩
      iframe Ho H0 H1 H2 H3 Hrest Hg
      isplitr [H4]
      · isplitl [HQ]
        · ihave H := (Ring.owns_of_writes_tiledL gqView S2048x512.size) $$ HQ; iapply H; ipureintro; sl_kernel_rfl
        · ihave H := (Ring.owns_of_writes_tiledL gkView S2048x512.size) $$ HK; iapply H; ipureintro; sl_kernel_rfl
      · iexists _; iexact H4

theorem body_obligation (c : Dev nD) : BodyObligation (dat (F := F) V c) (defs₀ (F := F)) Variants.none () Set.univ := fun t => by
  rw [bigSep_W1, bigSep_W1]
  exact sound_body V c t

theorem hin (c : Dev nD) : (Pipeline.ΦA spec1 c : sProp 𝕄) ⊢ (dat V c).Φ 0 := Entails.of_eq rfl

theorem hout (c : Dev nD) : (dat V c).Φ (Fin.last cfg1.N) ⊢ (Pipeline.ΦA spec1 c : sProp 𝕄) := by
  rw [entry_eq]; exact inv_entry V c cfg1.N (Nat.le_refl _)

end Cert.Kernel.Rgn1

end
-- ==== Proof.KB.Rgn2.lean ====
import proofs.«412990_j12266426597865_3_alg».proof.Proof.Gen.Kernel.Launch
import proofs.«412990_j12266426597865_3_alg».proof.Proof.Gen.Kernel.Skeleton
import proofs.«412990_j12266426597865_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirstTile (i : grid2.Coords) : Prop :=
  (Scalar.cmpi .ne (Scalar.extui (Scalar.cmpi .eq (BitVec.ofNat 32 (i 1).val) 0#32)) 0#32) = 1#1
theorem isFirstTile_iff : ∀ t : Fin cfg2.N, isFirstTile (grid2.coords t) ↔ t.val % 10 = 0 :=
  (by decide +kernel : ∀ t : Fin grid2.N, isFirstTile (grid2.coords t) ↔ t.val % 10 = 0)
abbrev isLastTile (i : grid2.Coords) : Prop := k2_cond2 i = 1#1
theorem isLastTile_iff : ∀ t : Fin cfg2.N, isLastTile (grid2.coords t) ↔ t.val % 10 = 9 :=
  (by decide +kernel : ∀ t : Fin grid2.N, isLastTile (grid2.coords t) ↔ t.val % 10 = 9)
theorem live_scores : ∀ i : grid2.Coords, cfg2.idle 0 i = false := fun _ => rfl
theorem out_idle : ∀ t : Fin cfg2.N, ¬t.val % 10 = 9 →
    (cfg2.idle 1 (grid2.coords t) = true ∧ (cfg2.win 1).flush t = false) ∧ cfg2.idle 2 (grid2.coords t) = true ∧ (cfg2.win 2).flush t = false := by
  decide +kernel
theorem out_live : ∀ t : Fin cfg2.N, t.val % 10 = 9 → cfg2.idle 1 (grid2.coords t) = false ∧ cfg2.idle 2 (grid2.coords t) = false := by
  decide +kernel
theorem scores_uncut : ∀ (t : Fin cfg2.N) (a : Fin 3), (cfg2.win 0).clip (grid2.coords t) a = none := by decide +kernel
abbrev scoresM (t : Fin cfg2.N) : Memref sig .tc .vmem S1x8x16000 .f32 := win2_0.stage (cfg2.slots t 0)
abbrev scoresM_whole (t : Fin cfg2.N) : (scoresM t).IsWhole := hstage2_0 ((cfg2.slots t 0).cast nbuf2_0)
abbrev maxOutM (t : Fin cfg2.N) : Memref sig .tc .vmem S1x8x1 .f32 := win2_1.stage (cfg2.slots t 1)
abbrev maxOutM_whole (t : Fin cfg2.N) : (maxOutM t).IsWhole := hstage2_1 ((cfg2.slots t 1).cast nbuf2_1)
abbrev sumOutM (t : Fin cfg2.N) : Memref sig .tc .vmem S1x8x1 .f32 := win2_2.stage (cfg2.slots t 2)
abbrev sumOutM_whole (t : Fin cfg2.N) : (sumOutM t).IsWhole := hstage2_2 ((cfg2.slots t 2).cast nbuf2_2)
abbrev runMaxM : Memref sig .tc .vmem S8x1 .f32 := Memref.whole cc2_scratch0
abbrev runSumM : Memref sig .tc .vmem S8x1 .f32 := Memref.whole cc2_scratch1
abbrev runMaxV : View sig .tc .vmem S8x1 .f32 := runMaxM.view
abbrev runSumV : View sig .tc .vmem S8x1 .f32 := runSumM.view
abbrev maxOutV : View sig .tc .vmem S1x8x1 .f32 := (Memref.whole cc2_stg1_0 : Memref sig .tc .vmem S1x8x1 .f32).view
abbrev sumOutV : View sig .tc .vmem S1x8x1 .f32 := (Memref.whole cc2_stg2_0 : Memref sig .tc .vmem S1x8x1 .f32).view

abbrev PhiWith (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0, cc2_scratch1])
    ∗ (∃ r, prngReg c r))
abbrev scratchAny (c : Dev nD) : sProp 𝕄 :=
  iprop((∃ d, owns (c : Thread nD τ) runMaxM fullShare d) ∗ (∃ d, owns (c : Thread nD τ) runSumM fullShare d))
abbrev scratchAt (c : Dev nD) (p : Vec F S8x1 .f32 × Vec F S8x1 .f32) : sProp 𝕄 :=
  iprop(owns (c : Thread nD τ) runMaxM fullShare p.1 ∗ owns (c : Thread nD τ) runSumM fullShare p.2)
abbrev Pieces (F : FTy → Type) [FloatOps F] (s : Shape) := List (View.Piece (Elt F) s .f32)
abbrev wrote {s : Shape} (c : Dev nD) (m : Memref sig .tc .vmem s .f32) (L : Pieces F s) : sProp 𝕄 :=
  iprop(∃ f, m.view.loc (c : Thread nD τ) ↦[m.view.set]{fullShare} m.view.writes (Elt F) f L)

theorem PhiA_eq (c : Dev nD) : (Pipeline.ΦA spec2 c : sProp 𝕄) = PhiWith c (scratchAny c) := by
  unfold Pipeline.ΦA; rw [scopedRest2_split]; simp only [PhiWith, scratchAny, runMaxM, runSumM, owns_whole]; try rfl

-- Forgetting the carried values only weakens the invariant.
theorem forget (c : Dev nD) (p : Vec F S8x1 .f32 × Vec F S8x1 .f32) : PhiWith c (scratchAt c p) ⊢ PhiWith c (scratchAny c) :=
  sep_mono_left (sep_mono_left (sep_mono (BIClass.exists_intro _) (BIClass.exists_intro _)))

-- Pieces that tile a buffer determine what it reads, whatever it held before and through whichever view.
theorem back {s : Shape} (c : Dev nD) {M : Memref sig .tc .vmem s .f32} (v : View sig .tc .vmem s .f32)
    {L : Pieces F s} (h : View.Piece.tiledL L s.size = true) :
    wrote c M L ⊢ owns (c : Thread nD τ) M fullShare (v.read (Elt F) (v.writes (Elt F) v.junk L)) := by
  unfold wrote; iintro ⟨%f, H⟩
  ihave H' := (Ring.owns_of_writes_tiledL v s.size) $$ H
  iapply H'; ipureintro; exact h

section Runs

variable (c : Dev nD) (i : grid2.Coords)
  (arg2 : Memref sig .tc .vmem S1x8x16000 .f32) (harg2 : arg2.IsWhole)
  (arg3 : Memref sig .tc .vmem S1x8x1 .f32) (harg3 : arg3.IsWhole)
  (arg4 : Memref sig .tc .vmem S1x8x1 .f32) (harg4 : arg4.IsWhole)
  (arg5 : Memref sig .tc .vmem S8x1 .f32) (harg5 : arg5.IsWhole)
  (arg6 : Memref sig .tc .vmem S8x1 .f32) (harg6 : arg6.IsWhole)

set_option maxHeartbeats 1000000 in
-- At the first edge tile the running maximum and sum restart from −∞ and 0, so nothing carried over is read.
noncomputable def runFirstTile (hfirst : isFirstTile i) (hlast : ¬isLastTile i) (x : Vec F S1x8x16000 .f32) :
    Σ' (Lmax : Pieces F S8x1), { Lsum : Pieces F S8x1 //
      ∀ (o1 o2 : Vec F S1x8x1 .f32) (E : Set ℕ) (K : PUnit → sProp 𝕄),
        iprop(owns (c : Thread nD τ) arg2 fullShare x ∗ owns (c : Thread nD τ) arg3 fullShare o1 ∗ owns (c : Thread nD τ) arg4 fullShare o2
            ∗ (∃ d, owns (c : Thread nD τ) arg5 fullShare d) ∗ (∃ d, owns (c : Thread nD τ) arg6 fullShare d)
            ∗ (iprop(owns (c : Thread nD τ) arg2 fullShare x ∗ owns (c : Thread nD τ) arg3 fullShare o1 ∗ owns (c : Thread nD τ) arg4 fullShare o2
                ∗ wrote c arg5 Lmax ∗ wrote c arg6 Lsum) -∗ K ⟨⟩))
          ⊢ wp frame (wpE (defs₀ (F := F)) Variants.none c none) E (cc2__softmax_stats_kernel i arg2 harg2 arg3 harg3 arg4 harg4 arg5 harg5 arg6 harg6) K } := by
  refine ⟨?_, ?_, fun o1 o2 E K => ?run⟩
  case run =>
    simp only [cc2__softmax_stats_kernel_eq_skeleton]; unfold cc2__softmax_stats_kernel_skel
    unfold owns wrote
    iintro ⟨⟨%f0, %hf0, H0⟩, H1, H2, ⟨%ds0, %fs0, -, HS0⟩, ⟨%ds1, %fs1, -, HS1⟩, Hk⟩
    obtain rfl := harg2.eq_unread hf0
    sl_exec (disch := first | exact hfirst | exact hlast)
    sl_step
    iapply Hk
    isplitl [H0]
    · iexists _; isplitr; · ipureintro; exact harg2.read_unread _
      iexact H0
    isplitl [H1]; · iexact H1
    isplitl [H2]; · iexact H2
    isplitl [HS0]; · iexists _; iexact HS0
    iexists _; iexact HS1

set_option maxHeartbeats 1000000 in
-- At a middle edge tile the running maximum and sum are updated once from the block and the carried values.
noncomputable def runMiddleTile (hfirst : ¬isFirstTile i) (hlast : ¬isLastTile i) (x : Vec F S1x8x16000 .f32) (mx sm : Vec F S8x1 .f32) :
    Σ' (Lmax : Pieces F S8x1), { Lsum : Pieces F S8x1 //
      ∀ (o1 o2 : Vec F S1x8x1 .f32) (E : Set ℕ) (K : PUnit → sProp 𝕄),
        iprop(owns (c : Thread nD τ) arg2 fullShare x ∗ owns (c : Thread nD τ) arg3 fullShare o1 ∗ owns (c : Thread nD τ) arg4 fullShare o2
            ∗ owns (c : Thread nD τ) arg5 fullShare mx ∗ owns (c : Thread nD τ) arg6 fullShare sm
            ∗ (iprop(owns (c : Thread nD τ) arg2 fullShare x ∗ owns (c : Thread nD τ) arg3 fullShare o1 ∗ owns (c : Thread nD τ) arg4 fullShare o2
                ∗ wrote c arg5 Lmax ∗ wrote c arg6 Lsum) -∗ K ⟨⟩))
          ⊢ wp frame (wpE (defs₀ (F := F)) Variants.none c none) E (cc2__softmax_stats_kernel i arg2 harg2 arg3 harg3 arg4 harg4 arg5 harg5 arg6 harg6) K } := by
  refine ⟨?_, ?_, fun o1 o2 E K => ?run⟩
  case run =>
    simp only [cc2__softmax_stats_kernel_eq_skeleton]; unfold cc2__softmax_stats_kernel_skel
    unfold owns wrote
    iintro ⟨⟨%f0, %hf0, H0⟩, H1, H2, ⟨%fs0, %hfs0, HS0⟩, ⟨%fs1, %hfs1, HS1⟩, Hk⟩
    obtain rfl := harg2.eq_unread hf0; obtain rfl := harg5.eq_unread hfs0; obtain rfl := harg6.eq_unread hfs1
    sl_exec (disch := first | exact hfirst | exact hlast)
    sl_step
    iapply Hk
    isplitl [H0]
    · iexists _; isplitr; · ipureintro; exact harg2.read_unread _
      iexact H0
    isplitl [H1]; · iexact H1
    isplitl [H2]; · iexact H2
    isplitl [HS0]; · iexists _; iexact HS0
    iexists _; iexact HS1

set_option maxHeartbeats 1000000 in
-- At the last edge tile the same update is made, and the updated maximum and sum are also the two results.
noncomputable def runLastTile (hfirst : ¬isFirstTile i) (hlast : isLastTile i) (x : Vec F S1x8x16000 .f32) (mx sm : Vec F S8x1 .f32) :
    Σ' (LmaxOut : Pieces F S1x8x1) (LsumOut : Pieces F S1x8x1)
       (Lmax : Pieces F S8x1), { Lsum : Pieces F S8x1 //
      ∀ (E : Set ℕ) (K : PUnit → sProp 𝕄),
        iprop(owns (c : Thread nD τ) arg2 fullShare x ∗ (∃ d, owns (c : Thread nD τ) arg3 fullShare d) ∗ (∃ d, owns (c : Thread nD τ) arg4 fullShare d)
            ∗ owns (c : Thread nD τ) arg5 fullShare mx ∗ owns (c : Thread nD τ) arg6 fullShare sm
            ∗ (iprop(owns (c : Thread nD τ) arg2 fullShare x ∗ wrote c arg3 LmaxOut ∗ wrote c arg4 LsumOut ∗ wrote c arg5 Lmax ∗ wrote c arg6 Lsum) -∗ K ⟨⟩))
          ⊢ wp frame (wpE (defs₀ (F := F)) Variants.none c none) E (cc2__softmax_stats_kernel i arg2 harg2 arg3 harg3 arg4 harg4 arg5 harg5 arg6 harg6) K } := by
  refine ⟨?_, ?_, ?_, ?_, fun E K => ?run⟩
  case run =>
    simp only [cc2__softmax_stats_kernel_eq_skeleton]; unfold cc2__softmax_stats_kernel_skel
    unfold owns wrote
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0
    obtain rfl := harg5.eq_unread hfs0; obtain rfl := harg6.eq_unread hfs1
    sl_exec (disch := first | exact hfirst | exact hlast)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Runs

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

variable (c : Dev nD) (t : Fin cfg2.N)

abbrev scoresFiller : (cfg2.win 0).block.Idx → Elt F (cfg2.win 0).elt := fun _ => @Classical.arbitrary _ (Elt.nonempty F _)

def scoresAt : Vec F S1x8x16000 .f32 :=
  (cfg2.win 0).fill (grid2.coords t) scoresFiller (iblk V c 0 t)

abbrev runMaxOf (L : List (View.Piece (Elt F) S8x1 .f32)) : Vec F S8x1 .f32 := runMaxV.read (Elt F) (runMaxV.writes (Elt F) runMaxV.junk L)
abbrev runSumOf (L : List (View.Piece (Elt F) S8x1 .f32)) : Vec F S8x1 .f32 := runSumV.read (Elt F) (runSumV.writes (Elt F) runSumV.junk L)
abbrev maxOutOf (L : List (View.Piece (Elt F) S1x8x1 .f32)) : Vec F S1x8x1 .f32 := maxOutV.read (Elt F) (maxOutV.writes (Elt F) maxOutV.junk L)
abbrev sumOutOf (L : List (View.Piece (Elt F) S1x8x1 .f32)) : Vec F S1x8x1 .f32 := sumOutV.read (Elt F) (sumOutV.writes (Elt F) sumOutV.junk L)

theorem not_last_of_first (h0 : t.val % 10 = 0) : ¬isLastTile (grid2.coords t) :=
  fun h => by have := (isLastTile_iff t).mp h; omega
theorem not_first_of_last (h9 : t.val % 10 = 9) : ¬isFirstTile (grid2.coords t) :=
  fun h => by have := (isFirstTile_iff t).mp h; omega

abbrev firstAt (h0 : t.val % 10 = 0) (x : Vec F S1x8x16000 .f32) :=
  runFirstTile c (grid2.coords t) (scoresM t) (scoresM_whole t) (maxOutM t) (maxOutM_whole t) (sumOutM t) (sumOutM_whole t) runMaxM (Memref.isWhole_whole _) runSumM (Memref.isWhole_whole _) ((isFirstTile_iff t).mpr h0) (not_last_of_first t h0) x
abbrev middleAt (h0 : ¬t.val % 10 = 0) (h9 : ¬t.val % 10 = 9) (x : Vec F S1x8x16000 .f32) (mx sm : Vec F S8x1 .f32) :=
  runMiddleTile c (grid2.coords t) (scoresM t) (scoresM_whole t) (maxOutM t) (maxOutM_whole t) (sumOutM t) (sumOutM_whole t) runMaxM (Memref.isWhole_whole _) runSumM (Memref.isWhole_whole _) (fun h => h0 ((isFirstTile_iff t).mp h)) (fun h => h9 ((isLastTile_iff t).mp h)) x mx sm
abbrev lastAt (h9 : t.val % 10 = 9) (x : Vec F S1x8x16000 .f32) (mx sm : Vec F S8x1 .f32) :=
  runLastTile c (grid2.coords t) (scoresM t) (scoresM_whole t) (maxOutM t) (maxOutM_whole t) (sumOutM t) (sumOutM_whole t) runMaxM (Memref.isWhole_whole _) runSumM (Memref.isWhole_whole _) (not_first_of_last t h9) ((isLastTile_iff t).mpr h9) x mx sm

def carriedAt (c : Dev nD) : (n : ℕ) → n < cfg2.N → Vec F S8x1 .f32 × Vec F S8x1 .f32
  | 0, hn =>
    (runMaxOf (firstAt c ⟨0, hn⟩ (Nat.zero_mod _) (scoresAt V c ⟨0, hn⟩)).1,
     runSumOf (firstAt c ⟨0, hn⟩ (Nat.zero_mod _) (scoresAt V c ⟨0, hn⟩)).2.1)
  | n + 1, hn =>
    if h0 : (n + 1) % 10 = 0 then
      (runMaxOf (firstAt c ⟨n + 1, hn⟩ h0 (scoresAt V c ⟨n + 1, hn⟩)).1,
       runSumOf (firstAt c ⟨n + 1, hn⟩ h0 (scoresAt V c ⟨n + 1, hn⟩)).2.1)
    else
      if h9 : (n + 1) % 10 = 9 then
        (runMaxOf (lastAt c ⟨n + 1, hn⟩ h9 (scoresAt V c ⟨n + 1, hn⟩) (carriedAt c n (Nat.lt_of_succ_lt hn)).1 (carriedAt c n (Nat.lt_of_succ_lt hn)).2).2.2.1,
         runSumOf (lastAt c ⟨n + 1, hn⟩ h9 (scoresAt V c ⟨n + 1, hn⟩) (carriedAt c n (Nat.lt_of_succ_lt hn)).1 (carriedAt c n (Nat.lt_of_succ_lt hn)).2).2.2.2.1)
      else
        (runMaxOf (middleAt c ⟨n + 1, hn⟩ h0 h9 (scoresAt V c ⟨n + 1, hn⟩) (carriedAt c n (Nat.lt_of_succ_lt hn)).1 (carriedAt c n (Nat.lt_of_succ_lt hn)).2).1,
         runSumOf (middleAt c ⟨n + 1, hn⟩ h0 h9 (scoresAt V c ⟨n + 1, hn⟩) (carriedAt c n (Nat.lt_of_succ_lt hn)).1 (carriedAt c n (Nat.lt_of_succ_lt hn)).2).2.1)

abbrev carriedBefore : Vec F S8x1 .f32 × Vec F S8x1 .f32 :=
  carriedAt V c (t.val - 1) (Nat.lt_of_le_of_lt (Nat.sub_le _ _) t.isLt)

theorem carriedAt_first (h0 : t.val % 10 = 0) :
    carriedAt V c t.val t.isLt
      = (runMaxOf (firstAt c t h0 (scoresAt V c t)).1, runSumOf (firstAt c t h0 (scoresAt V c t)).2.1) := by
  obtain ⟨n, hn⟩ := t
  cases n with
  | zero => exact rfl
  | succ n => exact (dif_pos h0).trans rfl

theorem carriedAt_middle (h0 : ¬t.val % 10 = 0) (h9 : ¬t.val % 10 = 9) :
    carriedAt V c t.val t.isLt
      = (runMaxOf (middleAt c t h0 h9 (scoresAt V c t) (carriedBefore V c t).1 (carriedBefore V c t).2).1,
         runSumOf (middleAt c t h0 h9 (scoresAt V c t) (carriedBefore V c t).1 (carriedBefore V c t).2).2.1) := by
  obtain ⟨n, hn⟩ := t
  cases n with
  | zero => exact absurd (Nat.zero_mod _) h0
  | succ n => exact (dif_neg h0).trans ((dif_neg h9).trans rfl)

theorem carriedAt_last (h9 : t.val % 10 = 9) :
    carriedAt V c t.val t.isLt
      = (runMaxOf (lastAt c t h9 (scoresAt V c t) (carriedBefore V c t).1 (carriedBefore V c t).2).2.2.1,
         runSumOf (lastAt c t h9 (scoresAt V c t) (carriedBefore V c t).1 (carriedBefore V c t).2).2.2.2.1) := by
  have h0 : ¬t.val % 10 = 0 := by omega
  obtain ⟨n, hn⟩ := t
  cases n with
  | zero => exact absurd (Nat.zero_mod _) h0
  | succ n => exact (dif_neg h0).trans ((dif_pos h9).trans rfl)

def maxOutAt : Vec F S1x8x1 .f32 :=
  if h9 : t.val % 10 = 9 then maxOutOf (lastAt c t h9 (scoresAt V c t) (carriedBefore V c t).1 (carriedBefore V c t).2).1
  else maxOutOf []
def sumOutAt : Vec F S1x8x1 .f32 :=
  if h9 : t.val % 10 = 9 then sumOutOf (lastAt c t h9 (scoresAt V c t) (carriedBefore V c t).1 (carriedBefore V c t).2).2.1
  else sumOutOf []

theorem maxOutAt_last (h9 : t.val % 10 = 9) :
    maxOutAt V c t = maxOutOf (lastAt c t h9 (scoresAt V c t) (carriedBefore V c t).1 (carriedBefore V c t).2).1 := dif_pos h9
theorem sumOutAt_last (h9 : t.val % 10 = 9) :
    sumOutAt V c t = sumOutOf (lastAt c t h9 (scoresAt V c t) (carriedBefore V c t).1 (carriedBefore V c t).2).2.1 := dif_pos h9

def PhiS : (n : ℕ) → n ≤ cfg2.N → sProp 𝕄
  | 0, _ => Pipeline.ΦA spec2 c
  | n + 1, hn => PhiWith c (scratchAt c (carriedAt V c n hn))

theorem PhiS_zero (n : ℕ) (h : n ≤ cfg2.N) (hz : n = 0) : PhiS V c n h = Pipeline.ΦA spec2 c := by
  subst hz; rfl

theorem PhiS_pos (n : ℕ) (h : n ≤ cfg2.N) (hz : n ≠ 0) :
    PhiS V c n h = PhiWith c (scratchAt c (carriedAt V c (n - 1) (by omega))) := by
  cases n with
  | zero => exact absurd rfl hz
  | succ n => rfl

-- At every position the invariant entails its form with the carried values forgotten.
theorem PhiS_any (n : ℕ) (h : n ≤ cfg2.N) : PhiS V c n h ⊢ PhiWith c (scratchAny c) := by
  by_cases hz : n = 0
  · rw [PhiS_zero V c _ _ hz, PhiA_eq]
  · rw [PhiS_pos V c _ _ hz]; exact forget c _

def dat : Dat τ (Elt F) Unit ℕ (UR sig nD τ) ℕ cfg2 c where
  A w := V c (Pipeline.arrRef spec2 w)
  after w t := match w with
    | ⟨0, _⟩ => scoresAt V c t
    | ⟨1, _⟩ => maxOutAt V c t
    | ⟨2, _⟩ => sumOutAt V c t
  Φ t := PhiS V c t.val (Nat.le_of_lt_succ t.isLt)
  q _ := fullShare
  owed _ := 0

theorem A_eq (w : Fin cfg2.W) : (dat V c).A w = V c (Pipeline.arrRef spec2 w) := by dsimp only [dat]

theorem after_scores : (dat V c).after 0 t = scoresAt V c t := by dsimp only [dat]
theorem after_maxOut : (dat V c).after 1 t = maxOutAt V c t := by dsimp only [dat]
theorem after_sumOut : (dat V c).after 2 t = sumOutAt V c t := by dsimp only [dat]

theorem PhiS_castSucc :
    (dat V c).Φ t.castSucc = PhiS V c t.val (Nat.le_of_lt t.isLt) := by
  dsimp only [dat]; simp only [Fin.coe_castSucc]

theorem before_scores (d) : (dat V c).before 0 t d = scoresAt V c t := by
  rw [(dat V c).before_in_eq_fetched 0 rfl live_scores
    (fun t t' _ => funext fun a => (scores_uncut t a).trans (scores_uncut t' a).symm)
    (fun t => by rw [after_scores]; unfold scoresAt; rw [Window.cut_fill]; unfold Dat.blockOf iblk; rw [A_eq]) t d]
  rw [(dat V c).fetched_of_clip_none 0 t (scores_uncut t) d scoresFiller]
  unfold Dat.fetched Dat.blockOf scoresAt iblk; rw [A_eq]

theorem leaves_scores : (dat V c).leavesExact 0 t = owns (c : Thread nD τ) (scoresM t) fullShare (scoresAt V c t) := by
  unfold Dat.leavesExact; rw [live_scores (grid2.coords t), after_scores]

-- Where a result block is not due, the obligation asks for it back unchanged.
theorem idle_back (w : Fin cfg2.W) (h : cfg2.idle w (grid2.coords t) = true ∧ (cfg2.win w).flush t = false) (d) :
    owns (c : Thread nD τ) ((cfg2.win w).stage (cfg2.slots t w)) fullShare ((dat V c).before w t d) ⊢ (dat V c).leavesExact w t := by
  rw [Dat.leavesExact_idle (dat V c) w t h.1 h.2]; iintro H; iexists _; iexact H

-- At the last edge tile each result block is owed at exactly what the stored pieces read.
theorem last_back_max (h9 : t.val % 10 = 9) :
    wrote c (maxOutM t) (lastAt c t h9 (scoresAt V c t) (carriedBefore V c t).1 (carriedBefore V c t).2).1 ⊢ (dat V c).leavesExact 1 t := by
  unfold Dat.leavesExact; rw [(out_live t h9).1, after_maxOut, maxOutAt_last V c t h9]; exact back c maxOutV (by sl_kernel_rfl)
theorem last_back_sum (h9 : t.val % 10 = 9) :
    wrote c (sumOutM t) (lastAt c t h9 (scoresAt V c t) (carriedBefore V c t).1 (carriedBefore V c t).2).2.1 ⊢ (dat V c).leavesExact 2 t := by
  unfold Dat.leavesExact; rw [(out_live t h9).2, after_sumOut, sumOutAt_last V c t h9]; exact back c sumOutV (by sl_kernel_rfl)

def bodyPre : sProp 𝕄 :=
  iprop((dat V c).Φ t.castSucc ∗ (dat V c).owesAt () t.castSucc
    ∗ (∃ d, owns (c : Thread nD τ) (scoresM t) fullShare ((dat V c).before 0 t d))
    ∗ (∃ d, owns (c : Thread nD τ) (maxOutM t) fullShare ((dat V c).before 1 t d))
    ∗ (∃ d, owns (c : Thread nD τ) (sumOutM t) fullShare ((dat V c).before 2 t d)))

def bodyPost : sProp 𝕄 :=
  iprop((dat V c).Φ t.succ ∗ (dat V c).owesAt () t.succ
    ∗ (dat V c).leavesExact 0 t
    ∗ (dat V c).leavesExact 1 t
    ∗ (dat V c).leavesExact 2 t)

-- All three cases prove the obligation alike: frame the invariant around the run, then read each stored value back from its pieces.
theorem sound_of (B1 B2 : Vec F S1x8x1 .f32 → sProp 𝕄)
    (h1 : ∀ d, B1 ((dat V c).before 1 t d) ⊢ (dat V c).leavesExact 1 t) (h2 : ∀ d, B2 ((dat V c).before 2 t d) ⊢ (dat V c).leavesExact 2 t)
    (P5 P6 : sProp 𝕄) (Lmax Lsum : Pieces F S8x1)
    (hmax : View.Piece.tiledL Lmax S8x1.size = true) (hsum : View.Piece.tiledL Lsum S8x1.size = true)
    (hΦ : PhiS V c t.val (Nat.le_of_lt t.isLt) ⊢ PhiWith c iprop(P5 ∗ P6))
    (hc : carriedAt V c t.val t.isLt = (runMaxOf Lmax, runSumOf Lsum))
    (hrun : ∀ (o1 o2 : Vec F S1x8x1 .f32) (K : PUnit → sProp 𝕄),
      iprop(owns (c : Thread nD τ) (scoresM t) fullShare (scoresAt V c t) ∗ owns (c : Thread nD τ) (maxOutM t) fullShare o1
          ∗ owns (c : Thread nD τ) (sumOutM t) fullShare o2 ∗ P5 ∗ P6
          ∗ (iprop(owns (c : Thread nD τ) (scoresM t) fullShare (scoresAt V c t) ∗ B1 o1 ∗ B2 o2 ∗ wrote c runMaxM Lmax ∗ wrote c runSumM Lsum) -∗ K ⟨⟩))
        ⊢ wp frame (wpE (defs₀ (F := F)) Variants.none c none) Set.univ (bodyAt2 t) K) :
    bodyPre V c t ⊢ wp frame (wpE (defs₀ (F := F)) Variants.none c none) Set.univ (bodyAt2 t) (fun _ => bodyPost V c t) := by
  unfold bodyPre bodyPost
  simp only [before_scores]
  rw [show (dat V c).owesAt () t.succ = (dat V c).owesAt () t.castSucc from rfl,
    show (dat V c).Φ t.succ = PhiWith c (scratchAt c (carriedAt V c t.val t.isLt)) from rfl,
    leaves_scores V c t, hc, PhiS_castSucc V c t]
  dsimp only [PhiWith, scratchAt] at hΦ ⊢
  iintro ⟨HΦ, Ho, ⟨%d0, H0⟩, ⟨%d1, H1⟩, ⟨%d2, H2⟩⟩
  ihave HΦ' := hΦ $$ HΦ
  icases HΦ' with ⟨⟨⟨HS0, HS1⟩, Hrest⟩, Hg⟩
  iapply (hrun _ _ _)
  isplitl [H0]; · iexact H0
  isplitl [H1]; · iexact H1
  isplitl [H2]; · iexact H2
  isplitl [HS0]; · iexact HS0
  isplitl [HS1]; · iexact HS1
  iintro ⟨H0, H1, H2, HS0, HS1⟩
  ihave HS0' := (back c runMaxV hmax) $$ HS0
  ihave HS1' := (back c runSumV hsum) $$ HS1
  ihave H1' := (h1 _) $$ H1
  ihave H2' := (h2 _) $$ H2
  isplitl [HS0' HS1' Hrest Hg]
  · isplitl [HS0' HS1' Hrest]
    · isplitl [HS0' HS1']
      · isplitl [HS0']; · iexact HS0'
        iexact HS1'
      · iexact Hrest
    · iexact Hg
  isplitl [Ho]; · iexact Ho
  isplitl [H0]; · iexact H0
  isplitl [H1']; · iexact H1'
  iexact H2'

-- The edge tile decides the case: reset and update at tile 0, update at tiles 1 to 8, update and copy out at tile 9.
theorem body_obligation : BodyObligation (dat (F := F) V c) (defs₀ (F := F)) Variants.none () Set.univ := fun t => by
  rw [bigSep_W2, bigSep_W2]
  have idle := fun h9 : ¬t.val % 10 = 9 =>
    sound_of V c t (owns (c : Thread nD τ) (maxOutM t) fullShare) (owns (c : Thread nD τ) (sumOutM t) fullShare)
      (idle_back V c t 1 (out_idle t h9).1) (idle_back V c t 2 (out_idle t h9).2)
  by_cases h0 : t.val % 10 = 0
  · exact idle (by omega) _ _ _ _ (by sl_kernel_rfl) (by sl_kernel_rfl) (PhiS_any V c _ _) (carriedAt_first V c t h0)
      fun o1 o2 K => (firstAt c t h0 (scoresAt V c t)).2.2 o1 o2 Set.univ K
  have hΦ : PhiS V c t.val (Nat.le_of_lt t.isLt) ⊢ PhiWith c (scratchAt c (carriedBefore V c t)) := by
    rw [PhiS_pos V c _ _ fun h => h0 (by rw [h])] <;> rfl
  by_cases h9 : t.val % 10 = 9
  · refine sound_of V c t (fun _ => wrote c (maxOutM t) _) (fun _ => wrote c (sumOutM t) _)
      (fun _ => last_back_max V c t h9) (fun _ => last_back_sum V c t h9)
      _ _ _ _ (by sl_kernel_rfl) (by sl_kernel_rfl) hΦ (carriedAt_last V c t h9) fun o1 o2 K => ?_
    iintro ⟨H0, H1, H2, H⟩
    iapply ((lastAt c t h9 (scoresAt V c t) (carriedBefore V c t).1 (carriedBefore V c t).2).2.2.2.2 Set.univ K)
    isplitl [H0]; · iexact H0
    isplitl [H1]; · iexists _; iexact H1
    isplitl [H2]; · iexists _; iexact H2
    iexact H
  · exact idle h9 _ _ _ _ (by sl_kernel_rfl) (by sl_kernel_rfl) hΦ (carriedAt_middle V c t h0 h9)
      fun o1 o2 K => (middleAt c t h0 h9 (scoresAt V c t) (carriedBefore V c t).1 (carriedBefore V c t).2).2.2 o1 o2 Set.univ K

theorem hin : (Pipeline.ΦA spec2 c : sProp 𝕄) ⊢ (dat V c).Φ 0 := by
  rw [show (dat V c).Φ 0 = PhiS V c 0 (Nat.zero_le _) from rfl, PhiS_zero V c 0 _ rfl]

theorem hout : (dat V c).Φ (Fin.last cfg2.N) ⊢ (Pipeline.ΦA spec2 c : sProp 𝕄) := by
  rw [PhiA_eq]; exact PhiS_any V c (Fin.last cfg2.N).val (Nat.le_of_lt_succ (Fin.last cfg2.N).isLt)

end Cert.Kernel.Rgn2

end
-- ==== Proof.KB.Rgn3.lean ====
import proofs.«412990_j12266426597865_3_alg».proof.Proof.Gen.Kernel.Launch
import proofs.«412990_j12266426597865_3_alg».proof.Proof.Gen.Kernel.Skeleton
import proofs.«412990_j12266426597865_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- Ten column blocks of 16000 end at column 160000 of 161792: no block of the scores overhangs its array.
theorem scores_uncut : ∀ (t : Fin cfg3.N) (a : Fin (cfg3.win 0).shape.rank), (cfg3.win 0).clip (cfg3.grid.coords t) a = none :=
  (by decide +kernel : ∀ (t : Fin grid3.N) (a : Fin win3_0.shape.rank), win3_0.clip (grid3.coords t) a = none)

theorem scores_moved (t : Fin cfg3.N) (j : (cfg3.win 0).block.Idx) : (cfg3.win 0).moved (cfg3.grid.coords t) j = true :=
  ((cfg3.win 0).moved_iff _ j).mpr fun a => by
    show (j a).val < ((cfg3.win 0).clip (cfg3.grid.coords t) a).extent ((cfg3.win 0).size a)
    rw [scores_uncut t a]; exact (j a).isLt

def sblk (c : Dev nD) (t : Fin cfg3.N) : Vec F S1x8x16000 .f32 :=
  fun j => iblk V c 0 t fun a => ⟨(j a).val, ((cfg3.win 0).moved_iff _ j).mp (scores_moved t j) a⟩

abbrev rS : Rect S1x8x16000 := Rect.unit (s := S1x8x16000) ![0, 0, 0] S1x8x16000.size inb_S1x8x16000_S1x8x16000_0_0_0
abbrev rM : Rect S1x8x1 := Rect.unit (s := S1x8x1) ![0, 0, 0] S1x8x1.size inb_S1x8x1_S1x8x1_0_0_0
abbrev rO : Rect S1x16000x8 := Rect.unit (s := S1x16000x8) ![0, 0, 0] S1x16000x8.size inb_S1x16000x8_S1x16000x8_0_0_0

section
variable (s : Vec F S1x8x16000 .f32) (m l : Vec F S1x8x1 .f32)

def normed : Vec F S1x16000x8 .f32 :=
  View.canon [⟨rO, k3_pay1 (View.ld s rS) (View.ld m rM) (View.ld l rM)⟩]

end

def dat (c : Dev nD) : Dat τ (Elt F) Unit ℕ (UR sig nD τ) ℕ cfg3 c where
  A w := V c (Pipeline.arrRef spec3 w)
  after w t := match w with
    | ⟨0, _⟩ => sblk V c t
    | ⟨1, _⟩ => iblk V c 1 t
    | ⟨2, _⟩ => iblk V c 2 t
    | ⟨3, _⟩ => normed (sblk V c t) (iblk V c 1 t) (iblk V c 2 t)
  Φ _ := Pipeline.ΦA spec3 c
  q _ := fullShare
  owed _ := 0

theorem after_3 (c : Dev nD) (t : Fin cfg3.N) :
    (dat V c).after 3 t = normed (sblk V c t) (iblk V c 1 t) (iblk V c 2 t) := by dsimp only [dat]

-- The body leaves each input block as it found it and no block of the scores is cut, so at every point it finds that point's whole block.
theorem before_in (c : Dev nD) (t : Fin cfg3.N) :
    (∀ d, (dat V c).before 0 t d = sblk V c t) ∧ (∀ d, (dat V c).before 1 t d = iblk V c 1 t)
      ∧ ∀ d, (dat V c).before 2 t d = iblk V c 2 t := by
  refine ⟨fun d => ?_, fun d => ?_, fun d => ?_⟩
  · refine ((dat V c).before_in_eq_fetched 0 rfl (fun _ => rfl)
      (fun t t' _ => funext fun a => (scores_uncut t a).trans (scores_uncut t' a).symm) (fun _ => rfl) t d).trans (funext fun j => ?_)
    unfold Dat.fetched Window.fill sblk; rw [dif_pos (scores_moved t j)]; rfl
  all_goals exact Eq.trans ((dat V c).before_in_eq_fetched _ rfl (fun _ => rfl) (fun _ _ _ => rfl) (fun _ => rfl) t d) rfl

set_option maxHeartbeats 1000000 in
-- The inputs are their blocks and the result block is written whole, so the run ends at the stated contents; the invariant and the debts are untouched.
theorem body_obligation (c : Dev nD) : BodyObligation (dat (F := F) V c) (defs₀ (F := F)) Variants.none () Set.univ := fun t => by
  obtain ⟨b0, b1, b2⟩ := before_in V c t
  rw [bigSep_W3, bigSep_W3]
  sl_whnfR [defs₀, Defs.onTc]
  simp only [b0, b1, b2, cc3__softmax_norm_kernel_eq_skeleton]; unfold cc3__softmax_norm_kernel_skel
  dsimp only [dat]
  unfold owns
  iintro ⟨HΦ, Ho, ⟨%d0, %f0, %h0, H0⟩, ⟨%d1, %f1, %h1, H1⟩, ⟨%d2, %f2, %h2, H2⟩, ⟨%d3, %f3, -, H3⟩⟩
  sl_exec
  sl_step
  isplitl [HΦ]; · iexact HΦ
  isplitl [Ho]; · iexact Ho
  isplitl [H0]; rotate_left; isplitl [H1]; rotate_left; isplitl [H2]; rotate_left
  all_goals
    iexists _; isplitr
    swap; · iassumption
    ipureintro
    first | assumption | (rw [← h0, ← h1, ← h2]; exact View.read_writes_eq_canon _ _ _ (View.cover_of_tiled _ S1x16000x8.size (by rfl)))

theorem hin (c : Dev nD) : (Pipeline.ΦA spec3 c : sProp 𝕄) ⊢ (dat V c).Φ 0 := .rfl

theorem hout (c : Dev nD) : (dat V c).Φ (Fin.last cfg3.N) ⊢ (Pipeline.ΦA spec3 c : sProp 𝕄) := .rfl

end Cert.Kernel.Rgn3

end
-- ==== Proof.KB.Whole.lean ====
import proofs.«412990_j12266426597865_3_alg».proof.Proof.KB.Rgn0
import proofs.«412990_j12266426597865_3_alg».proof.Proof.KB.Rgn1
import proofs.«412990_j12266426597865_3_alg».proof.Proof.KB.Rgn2
import proofs.«412990_j12266426597865_3_alg».proof.Proof.KB.Rgn3
import proofs.«412990_j12266426597865_3_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (Rgn0.dat (V1 m ρ) c).arrAt w cfg0.N
theorem W2_arr (c : Dev nD) (w : Fin cfg0.W) :
    W2 m ρ c (Proc.devRef .tc (Pipeline.arrRef spec0 w)) = (Rgn0.dat (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev W8 : Dev nD → Valuation τ sig (Elt F) := fun c => StableHlo.after hostOps1_5 (W7 m ρ c)
abbrev W9 : Dev nD → Valuation τ sig (Elt F) := fun c => StableHlo.after hostOps1_6 (W8 m ρ c)
abbrev W10 : Dev nD → Valuation τ sig (Elt F) := fun c => StableHlo.after hostOps1_7 (W9 m ρ c)
abbrev V10 : (c : Dev nD) → (b : Ref sig .tc) → Buf (Elt F) ((c : Thread nD τ).loc b) := fun c b => W10 m ρ c b
def W11 (c : Dev nD) : Valuation τ sig (Elt F) :=
  Pipeline.withArrays spec1 c (W10 m ρ c) fun w => (Rgn1.dat (V10 m ρ) c).arrAt w cfg1.N
theorem W11_arr (c : Dev nD) (w : Fin cfg1.W) :
    W11 m ρ c (Proc.devRef .tc (Pipeline.arrRef spec1 w)) = (Rgn1.dat (V10 m ρ) c).arrAt w cfg1.N :=
  Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) :=
  Pipeline.withArrays_of_ne spec1 c _ _ b hb
abbrev V11 : (c : Dev nD) → (b : Ref sig .tc) → Buf (Elt F) ((c : Thread nD τ).loc b) := fun c b => W11 m ρ c b

def W12 (c : Dev nD) : Valuation τ sig (Elt F) :=
  Pipeline.withArrays spec2 c (W11 m ρ c) fun w => (Rgn2.dat (V11 m ρ) c).arrAt w cfg2.N
theorem W12_arr (c : Dev nD) (w : Fin cfg2.W) :
    W12 m ρ c (Proc.devRef .tc (Pipeline.arrRef spec2 w)) = (Rgn2.dat (V11 m ρ) c).arrAt w cfg2.N :=
  Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) :=
  Pipeline.withArrays_of_ne spec2 c _ _ b hb
abbrev V12 : (c : Dev nD) → (b : Ref sig .tc) → Buf (Elt F) ((c : Thread nD τ).loc b) := fun c b => W12 m ρ c b

def W13 (c : Dev nD) : Valuation τ sig (Elt F) :=
  Pipeline.withArrays spec3 c (W12 m ρ c) fun w => (Rgn3.dat (V12 m ρ) c).arrAt w cfg3.N
theorem W13_arr (c : Dev nD) (w : Fin cfg3.W) :
    W13 m ρ c (Proc.devRef .tc (Pipeline.arrRef spec3 w)) = (Rgn3.dat (V12 m ρ) c).arrAt w cfg3.N :=
  Pipeline.withArrays_arr spec3 launch3.win.arr_inj c _ _ w
theorem W13_of_ne (c : Dev nD) (b : Ref sig .tc) (hb : ∀ w, Pipeline.arrRef spec3 w ≠ b) :
    W13 m ρ c (Proc.devRef .tc b) = W12 m ρ c (Proc.devRef .tc b) :=
  Pipeline.withArrays_of_ne spec3 c _ _ b hb
abbrev W14 : Dev nD → Valuation τ sig (Elt F) := fun c => StableHlo.after hostOps4 (W13 m ρ c)

def pdats : (p : Fin 4) → (c : Dev nD) → Dat τ (Elt F) Unit ℕ (UR sig nD τ) ℕ (Pipeline.pin (pcfgs (F := F)) adm p) c
  | ⟨0, _⟩ => fun c => Rgn0.dat (V1 m ρ) c
  | ⟨1, _⟩ => fun c => Rgn1.dat (V10 m ρ) c
  | ⟨2, _⟩ => fun c => Rgn2.dat (V11 m ρ) c
  | ⟨3, _⟩ => fun c => Rgn3.dat (V12 m ρ) c
abbrev 𝒱₀ : Variants := Variants.none
abbrev L : GSem nD τ sig → Finset Unit := fun _ => ∅
abbrev lv : GSem nD τ sig → Unit → ℕ := fun _ _ => 0
/-- The part of the thread state that no item changes. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A region changes the valuation only at its windows' arrays, which end at their final contents. -/
def reg {p : Fin 4} (lf : Pipeline.LaunchFacts (nD := nD) (τ := τ) cfgs p) (Wa : Dev nD → Valuation τ sig (Elt F))
    (hb : ∀ c, BodyObligation (pdats m ρ p c) defs₀ 𝒱₀ () Set.univ)
    (hi : ∀ c, (Pipeline.ΦA (cfgs p).spec c : sProp 𝕄) ⊢ (pdats m ρ p c).Φ 0)
    (hl : ∀ c, (pdats m ρ p c).Φ (Fin.last (cfgs p).N) ⊢ (Pipeline.ΦA (cfgs p).spec c : sProp 𝕄))
    (hA : ∀ c w, (pdats m ρ p c).A w = Wa c (Proc.devRef .tc (Pipeline.arrRef (cfgs p).spec w)))
    (hq : ∀ c w, (pdats m ρ p c).q w = fullShare) (h0 : ∀ c t, (pdats m ρ p c).owed t = 0)
    (hr : ∀ c x, x ∈ (pdats m ρ p c).recorded 0) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wa c) ∗ R c)
  post c := iprop(StableHlo.held (c : Thread nD τ) (Pipeline.ucRefs τ sig)
    (Pipeline.withArrays (cfgs p).spec c (Wa c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wa c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wa c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0 c]
      icases HO with ⟨%W, HO⟩; iexists W; isplitr; · ipureintro; exact fun x _ => Or.inl (hr c x)
      iexact HO
    isplitl [Hp]; · iexact Hp
    iexact Hrest
  hin c := by
    refine .trans ?_ (hi c)
    unfold Pipeline.ΦA
    iintro ⟨Hp, -, Hr⟩
    isplitl [Hr] <;> iassumption
  hout c := by
    rw [Pipeline.ownSems0_none]
    refine (hl c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Wa c b)
      (fun b => Pipeline.withArrays (cfgs p).spec c (Wa c) (fun w => (pdats m ρ p c).arrAt w (cfgs p).N) b)
      ((pdats m ρ p c).arrAt · (cfgs p).N)
      (fun w => (Pipeline.withArrays_arr _ lf.win.arr_inj c _ ((pdats m ρ p c).arrAt · (cfgs p).N) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0 c]
    icases HO with ⟨%W, -, HO⟩; iexists W; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (reg m ρ launch0 (W1 m ρ) (Rgn0.body_obligation (V1 m ρ)) (Rgn0.hin (V1 m ρ)) (Rgn0.hout (V1 m ρ))
      (fun _ _ => rfl) (fun _ _ => rfl) (fun _ _ => rfl) fun _ _ => trivial),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .region (reg m ρ launch1 (W10 m ρ) (Rgn1.body_obligation (V10 m ρ)) (Rgn1.hin (V10 m ρ)) (Rgn1.hout (V10 m ρ))
      (fun _ _ => rfl) (fun _ _ => rfl) (fun _ _ => rfl) fun _ _ => trivial),
    .region (reg m ρ launch2 (W11 m ρ) (Rgn2.body_obligation (V11 m ρ)) (Rgn2.hin (V11 m ρ)) (Rgn2.hout (V11 m ρ))
      (fun _ _ => rfl) (fun _ _ => rfl) (fun _ _ => rfl) fun _ _ => trivial),
    .region (reg m ρ launch3 (W12 m ρ) (Rgn3.body_obligation (V12 m ρ)) (Rgn3.hin (V12 m ρ)) (Rgn3.hout (V12 m ρ))
      (fun _ _ => rfl) (fun _ _ => rfl) (fun _ _ => rfl) fun _ _ => trivial),
    .host (hseg hostOps4 hostOps4_sub hostOps4_fresh (W13 m ρ)) ]

theorem main_run (c : Dev nD) : main (F := F) c = Pipeline.Seg.run (segs m ρ) := (main_chain c).trans (by chain_rfl)

set_option backward.isDefEq.respectTransparency.types false in
/-- Every weakly fair run of @main from zero counters terminates without fault, each unscoped buffer ending at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W14 m ρ c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

end Cert.Kernel.Whole

end
-- ==== Proof.KB.Frame.lean ====
import proofs.«412990_j12266426597865_3_alg».proof.Proof.KB.Whole

set_option maxRecDepth 16384

noncomputable section

namespace Cert.Kernel.Whole

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg) (c : Dev nD) (r : Ref sig .tc)

/-- Nothing after the projection region touches `r`: no later host stretch writes it and it is no window's array of a later region. -/
abbrev Past : Prop :=
  r ∉ hostOps1_W ∧ r ∉ hostOps1_1_W ∧ r ∉ hostOps1_2_W ∧ r ∉ hostOps1_3_W ∧ r ∉ hostOps1_4_W ∧ r ∉ hostOps1_5_W ∧ r ∉ hostOps1_6_W
    ∧ r ∉ hostOps1_7_W ∧ r ∉ hostOps4_W ∧ (∀ w, Pipeline.arrRef spec1 w ≠ r) ∧ (∀ w, Pipeline.arrRef spec2 w ≠ r) ∧ ∀ w, Pipeline.arrRef spec3 w ≠ r

/-- Such a buffer ends as the projection region left it: walk the valuations back, each step leaving it alone. -/
theorem W14_of_W2 (h : Past r) : W14 m ρ c (Proc.devRef .tc r) = W2 m ρ c (Proc.devRef .tc r) := by
  obtain ⟨h1, h11, h12, h13, h14, h15, h16, h17, h4, a1, a2, a3⟩ := h
  exact (StableHlo.after_of_writes_sub _ _ hostOps4_writes h4).trans <|
    (W13_of_ne m ρ c r a3).trans <| (W12_of_ne m ρ c r a2).trans <| (W11_of_ne m ρ c r a1).trans <|
    (StableHlo.after_of_writes_sub _ _ hostOps1_7_writes h17).trans <|
    (StableHlo.after_of_writes_sub _ _ hostOps1_6_writes h16).trans <|
    (StableHlo.after_of_writes_sub _ _ hostOps1_5_writes h15).trans <|
    (StableHlo.after_of_writes_sub _ _ hostOps1_4_writes h14).trans <|
    (StableHlo.after_of_writes_sub _ _ hostOps1_3_writes h13).trans <|
    (StableHlo.after_of_writes_sub _ _ hostOps1_2_writes h12).trans <|
    (StableHlo.after_of_writes_sub _ _ hostOps1_1_writes h11).trans <|
    StableHlo.after_of_writes_sub _ _ hostOps1_writes h1

/-- A buffer that the first stretch and the projection region leave alone as well ends as launched. -/
theorem W14_of_first (h : (r ∉ hostOps0_W ∧ ∀ w, Pipeline.arrRef spec0 w ≠ r) ∧ Past r) :
    W14 m ρ c (Proc.devRef .tc r) = m ((c : Thread nD τ).loc r) :=
  (W14_of_W2 m ρ c r h.2).trans <| (W2_of_ne m ρ c r h.1.2).trans <|
    (StableHlo.after_of_writes_sub _ _ hostOps0_writes h.1.1).trans rfl

theorem W14_of_bypass
    (h0 : r ∉ hostOps0_W) (h1 : r ∉ hostOps1_W) (h11 : r ∉ hostOps1_1_W) (h12 : r ∉ hostOps1_2_W) (h13 : r ∉ hostOps1_3_W)
    (h14 : r ∉ hostOps1_4_W) (h15 : r ∉ hostOps1_5_W) (h16 : r ∉ hostOps1_6_W) (h17 : r ∉ hostOps1_7_W) (h4 : r ∉ hostOps4_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) :
    W14 m ρ c (Proc.devRef .tc r) = m ((c : Thread nD τ).loc r) :=
  W14_of_first m ρ c r ⟨⟨h0, a0⟩, h1, h11, h12, h13, h14, h15, h16, h17, h4, a1, a2, a3⟩

/-- The node features are only read by the projection region, so their array is unchanged across it. -/
theorem W14_main_arg0 : W14 m ρ c (Proc.devRef .tc main_arg0) = m ((c : Thread nD τ).loc main_arg0) :=
  (W14_of_W2 m ρ c main_arg0 (by decide)).trans <|
  (W2_arr m ρ c 0).trans <| ((Rgn0.dat (V1 m ρ) c).arrAt_in 0 rfl _).trans <| (Rgn0.A_eq (V1 m ρ) c 0).trans <|
  (StableHlo.after_of_writes_sub _ _ hostOps0_writes (by decide)).trans rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
    have k : ∀ a : Ref sig .tc, ¬ (Proc.devRef .tc a : DevRef τ sig).isScoped → (a ∉ hostOps0_W ∧ ∀ w, Pipeline.arrRef spec0 w ≠ a) ∧ Past a →
        s.2.mem ((c.tc : Thread nD τ).loc a) = m ((c.tc : Thread nD τ).loc a) :=
      fun a hu ha => (h c _ (mem_uc a hu)).trans (W14_of_first m ρ c a ha)
    ⟨(h c _ (mem_uc main_arg0 (by decide))).trans (W14_main_arg0 m ρ c), k main_arg1 (by decide) (by decide),
     k main_arg2 (by decide) (by decide), k main_arg3 (by decide) (by decide), k main_arg4 (by decide) (by decide),
     k main_arg5 (by decide) (by decide), k main_arg6 (by decide) (by decide), k main_arg7 (by decide) (by decide)⟩)
    (run_all m ρ)

end Cert.Kernel.Whole

end
-- ==== Proof.KI.Rgn0.lean ====
import proofs.«412990_j12266426597865_3_alg».proof.Proof.Gen.KernelIdeal.Launch
import proofs.«412990_j12266426597865_3_alg».proof.Proof.Gen.KernelIdeal.Skeleton
import proofs.«412990_j12266426597865_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rowsRect : Rect S1x1000x64 := Rect.unit (s := S1x1000x64) ![0, 0, 0] S1x1000x64.size inb_S1x1000x64_S1x1000x64_0_0_0
abbrev weightRect : Rect S64x384 := Rect.unit (s := S64x384) ![0, 0] S64x384.size inb_S64x384_S64x384_0_0
abbrev biasRect : Rect S384 := Rect.unit (s := S384) ![0] S384.size inb_S384_S384_0
abbrev sliceRect : Rect S1x1000x128 := Rect.unit (s := S1x1000x128) ![0, 0, 0] S1x1000x128.size inb_S1x1000x128_S1x1000x128_0_0_0

section
variable (x : Vec F S1x1000x64 .f32) (wt : Vec F S64x384 .f32) (bs : Vec F S384 .f32)

def sliceLo : Vec F S1x1000x128 .bf16 :=
  View.canon [⟨sliceRect, k0_pay2 (View.ld x rowsRect) (View.ld wt weightRect) (View.ld bs biasRect)⟩]

def sliceMid : Vec F S1x1000x128 .bf16 :=
  View.canon [⟨sliceRect, k0_pay3 (View.ld x rowsRect) (View.ld wt weightRect) (View.ld bs biasRect)⟩]

def sliceHi : Vec F S1x1000x128 .f32 :=
  View.canon [⟨sliceRect, k0_pay4 (View.ld x rowsRect) (View.ld wt weightRect) (View.ld bs biasRect)⟩]

-- One store through the whole-block rectangle reaches every index of the block.
theorem slice_cover {e : EltTy} (p : sliceRect.shape.Idx → Elt F e) :
    ∀ y, ∃ pc ∈ ([⟨sliceRect, p⟩] : List (View.Piece (Elt F) S1x1000x128 e)), y ∈ pc.1.set :=
  View.cover_of_tiled _ S1x1000x128.size (by rfl)

end

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => sliceLo (iblk V c 0 t) (iblk V c 1 t) (iblk V c 2 t)
    | ⟨4, _⟩ => sliceMid (iblk V c 0 t) (iblk V c 1 t) (iblk V c 2 t)
    | ⟨5, _⟩ => sliceHi (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := rfl

theorem after_sliceLo (c : Dev nD) (t : Fin cfg0.N) :
    (dat V c).after 3 t = sliceLo (iblk V c 0 t) (iblk V c 1 t) (iblk V c 2 t) := by dsimp only [dat]
theorem after_sliceMid (c : Dev nD) (t : Fin cfg0.N) :
    (dat V c).after 4 t = sliceMid (iblk V c 0 t) (iblk V c 1 t) (iblk V c 2 t) := by dsimp only [dat]
theorem after_sliceHi (c : Dev nD) (t : Fin cfg0.N) :
    (dat V c).after 5 t = sliceHi (iblk V c 0 t) (iblk V c 1 t) (iblk V c 2 t) := by dsimp only [dat]

-- The body leaves each input block as it found it, so at every point it finds that point's block.
theorem before_in (c : Dev nD) (t : Fin cfg0.N) :
    (∀ d, (dat V c).before 0 t d = iblk V c 0 t) ∧ (∀ d, (dat V c).before 1 t d = iblk V c 1 t)
      ∧ ∀ d, (dat V c).before 2 t d = iblk V c 2 t := by
  refine ⟨fun d => ?_, fun d => ?_, fun d => ?_⟩ <;>
    exact Eq.trans ((dat V c).before_in_eq_fetched _ rfl (fun _ => rfl) (fun _ _ _ => rfl) (fun _ => rfl) t d) rfl

set_option maxHeartbeats 1000000 in
-- The inputs are their blocks and each output block is written whole, so the run ends at the stated contents; the invariant and the debts are untouched.
theorem body_obligation (c : Dev nD) : BodyObligation (dat (F := F) V c) (defs₀ (F := F)) Variants.none () Set.univ := fun t => by
  obtain ⟨b0, b1, b2⟩ := before_in V c t
  rw [bigSep_W0, bigSep_W0]
  sl_whnfR [defs₀, Defs.onTc]
  simp only [b0, b1, b2, cc0__project_kernel_eq_skeleton]; unfold cc0__project_kernel_skel
  dsimp only [dat]
  unfold owns
  iintro ⟨HΦ, Ho, ⟨%d0, %f0, %h0, H0⟩, ⟨%d1, %f1, %h1, H1⟩, ⟨%d2, %f2, %h2, H2⟩, ⟨%d3, %f3, -, H3⟩, ⟨%d4, %f4, -, H4⟩, ⟨%d5, %f5, -, H5⟩⟩
  sl_exec
  sl_step
  isplitl [HΦ]; · iexact HΦ
  isplitl [Ho]; · iexact Ho
  isplitl [H0]; rotate_left; isplitl [H1]; rotate_left; isplitl [H2]; rotate_left; isplitl [H3]; rotate_left; isplitl [H4]; rotate_left
  all_goals
    iexists _; isplitr
    swap; · iassumption
    ipureintro
    first | assumption | (rw [← h0, ← h1, ← h2]; exact View.read_writes_eq_canon _ _ _ (slice_cover _))

theorem hin (c : Dev nD) : (Pipeline.ΦA spec0 c : sProp 𝕄) ⊢ (dat V c).Φ 0 := .rfl

theorem hout (c : Dev nD) : (dat V c).Φ (Fin.last cfg0.N) ⊢ (Pipeline.ΦA spec0 c : sProp 𝕄) := .rfl

end Cert.KernelIdeal.Rgn0

end
-- ==== Proof.KI.Rgn1.Setting.lean ====
import proofs.«412990_j12266426597865_3_alg».proof.Proof.Gen.KernelIdeal.Launch
import proofs.«412990_j12266426597865_3_alg».proof.Proof.Gen.KernelIdeal.Skeleton
import proofs.«412990_j12266426597865_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev firstNodeTile (i : grid1.Coords) : Prop :=
  (Scalar.cmpi .ne (Scalar.extui (Scalar.cmpi .eq (BitVec.ofNat 32 (i 1).val) 0#32)) 0#32) = 1#1

theorem firstNodeTile_iff : ∀ t : Fin cfg1.N, firstNodeTile (grid1.coords t) ↔ t.val % 20 = 0 :=
  (by decide +kernel : ∀ t : Fin grid1.N, firstNodeTile (grid1.coords t) ↔ t.val % 20 = 0)

abbrev lastNodeTile (i : grid1.Coords) : Prop := k1_cond2 i = 1#1

theorem lastNodeTile_iff : ∀ t : Fin cfg1.N, lastNodeTile (grid1.coords t) ↔ t.val % 20 = 19 :=
  (by decide +kernel : ∀ t : Fin grid1.N, lastNodeTile (grid1.coords t) ↔ t.val % 20 = 19)

theorem score_idle : ∀ t : Fin cfg1.N, ¬lastNodeTile (grid1.coords t) → cfg1.idle 4 (grid1.coords t) = true := by decide +kernel

theorem score_live : ∀ t : Fin cfg1.N, lastNodeTile (grid1.coords t) → cfg1.idle 4 (grid1.coords t) = false := by decide +kernel

theorem score_noFlush (t : Fin cfg1.N) (h : ¬lastNodeTile (grid1.coords t)) : (cfg1.win 4).flush t = false :=
  Bool.eq_false_iff.mpr fun hf => h ((lastNodeTile_iff t).mpr ((flush1_4 t).mp hf))

abbrev qStage (t : Fin cfg1.N) : Memref sig .tc .vmem S512x512 .bf16 := win1_0.stage (cfg1.slots t 0)
abbrev qStage_whole (t : Fin cfg1.N) : (qStage t).IsWhole := hstage1_0 ((cfg1.slots t 0).cast nbuf1_0)
abbrev kStage (t : Fin cfg1.N) : Memref sig .tc .vmem S512x512 .bf16 := win1_1.stage (cfg1.slots t 1)
abbrev kStage_whole (t : Fin cfg1.N) : (kStage t).IsWhole := hstage1_1 ((cfg1.slots t 1).cast nbuf1_1)
abbrev srcStage (t : Fin cfg1.N) : Memref sig .tc .vmem S2048 .i32 := win1_2.stage (cfg1.slots t 2)
abbrev srcStage_whole (t : Fin cfg1.N) : (srcStage t).IsWhole := hstage1_2 ((cfg1.slots t 2).cast nbuf1_2)
abbrev dstStage (t : Fin cfg1.N) : Memref sig .tc .vmem S2048 .i32 := win1_3.stage (cfg1.slots t 3)
abbrev dstStage_whole (t : Fin cfg1.N) : (dstStage t).IsWhole := hstage1_3 ((cfg1.slots t 3).cast nbuf1_3)
abbrev scoreStage (t : Fin cfg1.N) : Memref sig .tc .vmem S4x8x2048 .f32 := win1_4.stage (cfg1.slots t 4)
abbrev scoreStage_whole (t : Fin cfg1.N) : (scoreStage t).IsWhole := hstage1_4 ((cfg1.slots t 4).cast nbuf1_4)

abbrev gqAcc : Memref sig .tc .vmem S2048x512 .f32 := Memref.whole cc1_scratch0
abbrev gkAcc : Memref sig .tc .vmem S2048x512 .f32 := Memref.whole cc1_scratch1
abbrev gqView : View sig .tc .vmem S2048x512 .f32 := gqAcc.view
abbrev gkView : View sig .tc .vmem S2048x512 .f32 := gkAcc.view
abbrev scoreView : View sig .tc .vmem S4x8x2048 .f32 := (Memref.whole cc1_stg4_0 : Memref sig .tc .vmem S4x8x2048 .f32).view

theorem owns_unread (c : Dev nD) {S : Shape} {e : EltTy} {m : Memref sig .tc .vmem S e} (h : m.IsWhole) (X : Vec F S e) :
    (owns c.tc m fullShare X : sProp 𝕄) = (m.view.loc c.tc ↦[m.view.set]{fullShare} h.unread X) := by
  have h₁ : (owns c.tc m fullShare X : sProp 𝕄) ⊢ (m.view.loc c.tc ↦[m.view.set]{fullShare} h.unread X) := by
    unfold owns; iintro ⟨%f, %hf, H⟩; obtain rfl := h.eq_unread hf; iexact H
  have h₂ : (m.view.loc c.tc ↦[m.view.set]{fullShare} h.unread X : sProp 𝕄) ⊢ owns c.tc m fullShare X := by
    unfold owns; iintro H; iexists _; isplitr
    · ipureintro; exact h.read_unread X
    · iexact H
  exact BI.equiv_iff.mp ⟨h₁, h₂⟩

-- The region's invariant around its accumulator part `P`: the rest of the region's own state, at anything.
abbrev withAccs (c : Dev nD) (P : sProp 𝕄) : sProp 𝕄 :=
  iprop((P ∗ Pipeline.scopedRestBut (Ix := Unit) (Name := ℕ) (U := UR sig nD τ) (Lvl := ℕ) (Val := Elt F) spec1 c [cc1_scratch0, cc1_scratch1]) ∗ (∃ r, prngReg c r))

theorem entry_eq (c : Dev nD) :
    (Pipeline.ΦA spec1 c : sProp 𝕄) = withAccs c iprop((∃ d, owns c.tc gqAcc fullShare d) ∗ (∃ d, owns c.tc gkAcc fullShare d)) := by
  unfold Pipeline.ΦA; rw [scopedRest1_split]; simp only [gqAcc, gkAcc, owns_whole]; try rfl

end Cert.KernelIdeal.Rgn1

end
-- ==== Proof.KI.Rgn1.RunFirst.lean ====
import proofs.«412990_j12266426597865_3_alg».proof.Proof.KI.Rgn1.Setting

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 4000000 in
-- At the first node tile of an edge tile the body zeroes the two accumulators before it reads them, so it takes them at anything; the pieces it stores are the witness the run finds.
noncomputable def runFirst (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S2048 .i32) (harg4 : arg4.IsWhole) (arg5 : Memref sig .tc .vmem S2048 .i32) (harg5 : arg5.IsWhole) (arg6 : Memref sig .tc .vmem S4x8x2048 .f32) (harg6 : arg6.IsWhole) (arg7 : Memref sig .tc .vmem S2048x512 .f32) (harg7 : arg7.IsWhole) (arg8 : Memref sig .tc .vmem S2048x512 .f32) (harg8 : arg8.IsWhole)
    (hfirst : firstNodeTile i) (hlast : ¬lastNodeTile i)
    (q : Vec F S512x512 .bf16) (k : Vec F S512x512 .bf16) (src : Vec F S2048 .i32) (dst : Vec F S2048 .i32) :
    Σ' (Lq : List (View.Piece (Elt F) S2048x512 .f32)), { Lk : List (View.Piece (Elt F) S2048x512 .f32) //
      ∀ (score : Vec F S4x8x2048 .f32) (E : Set ℕ) (K : PUnit → sProp 𝕄),
        iprop(owns c.tc arg2 fullShare q ∗ owns c.tc arg3 fullShare k ∗ owns c.tc arg4 fullShare src ∗ owns c.tc arg5 fullShare dst ∗ owns c.tc arg6 fullShare score
            ∗ (∃ d, owns c.tc arg7 fullShare d) ∗ (∃ d, owns c.tc arg8 fullShare d)
            ∗ (iprop(owns c.tc arg2 fullShare q ∗ owns c.tc arg3 fullShare k ∗ owns c.tc arg4 fullShare src ∗ owns c.tc arg5 fullShare dst ∗ owns c.tc arg6 fullShare score
                ∗ (∃ f, arg7.view.loc c.tc ↦[arg7.view.set]{fullShare} arg7.view.writes (Elt F) f Lq)
                ∗ (∃ f, arg8.view.loc c.tc ↦[arg8.view.set]{fullShare} arg8.view.writes (Elt F) f Lk)) -∗ K ⟨⟩))
          ⊢ wp frame (wpE (defs₀ (F := F)) Variants.none c none) E (cc1__gather_score_kernel i arg2 harg2 arg3 harg3 arg4 harg4 arg5 harg5 arg6 harg6 arg7 harg7 arg8 harg8) K } := by
  refine ⟨?_, ?_, fun score E K => ?run⟩
  case run =>
    simp only [cc1__gather_score_kernel_eq_skeleton]; unfold cc1__gather_score_kernel_skel
    simp only [k1_part1_eq_skeleton, k1_part2_eq_skeleton]
    rw [owns_unread c harg2, owns_unread c harg3, owns_unread c harg4, owns_unread c harg5, owns_unread c harg6]; unfold owns
    iintro ⟨H0, H1, H2, H3, H4, ⟨%dq, %fq, -, HQ⟩, ⟨%dk, %fk, -, HK⟩, Hk⟩
    sl_exec (disch := first | exact hfirst | exact hlast)
    sl_step
    iapply Hk
    iframe H0 H1 H2 H3 H4
    isplitl [HQ]; · iexists _; iexact HQ
    iexists _; iexact HK

end Cert.KernelIdeal.Rgn1

end
-- ==== Proof.KI.Rgn1.RunMiddle.lean ====
import proofs.«412990_j12266426597865_3_alg».proof.Proof.KI.Rgn1.RunFirst

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 4000000 in
-- At a middle node tile the body adds onto what the point before left in the two accumulators and leaves the score buffer alone.
noncomputable def runMiddle (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S2048 .i32) (harg4 : arg4.IsWhole) (arg5 : Memref sig .tc .vmem S2048 .i32) (harg5 : arg5.IsWhole) (arg6 : Memref sig .tc .vmem S4x8x2048 .f32) (harg6 : arg6.IsWhole) (arg7 : Memref sig .tc .vmem S2048x512 .f32) (harg7 : arg7.IsWhole) (arg8 : Memref sig .tc .vmem S2048x512 .f32) (harg8 : arg8.IsWhole)
    (hfirst : ¬firstNodeTile i) (hlast : ¬lastNodeTile i)
    (q : Vec F S512x512 .bf16) (k : Vec F S512x512 .bf16) (src : Vec F S2048 .i32) (dst : Vec F S2048 .i32)
    (gq : Vec F S2048x512 .f32) (gk : Vec F S2048x512 .f32) :
    Σ' (Lq : List (View.Piece (Elt F) S2048x512 .f32)), { Lk : List (View.Piece (Elt F) S2048x512 .f32) //
      ∀ (score : Vec F S4x8x2048 .f32) (E : Set ℕ) (K : PUnit → sProp 𝕄),
        iprop(owns c.tc arg2 fullShare q ∗ owns c.tc arg3 fullShare k ∗ owns c.tc arg4 fullShare src ∗ owns c.tc arg5 fullShare dst ∗ owns c.tc arg6 fullShare score
            ∗ owns c.tc arg7 fullShare gq ∗ owns c.tc arg8 fullShare gk
            ∗ (iprop(owns c.tc arg2 fullShare q ∗ owns c.tc arg3 fullShare k ∗ owns c.tc arg4 fullShare src ∗ owns c.tc arg5 fullShare dst ∗ owns c.tc arg6 fullShare score
                ∗ (∃ f, arg7.view.loc c.tc ↦[arg7.view.set]{fullShare} arg7.view.writes (Elt F) f Lq)
                ∗ (∃ f, arg8.view.loc c.tc ↦[arg8.view.set]{fullShare} arg8.view.writes (Elt F) f Lk)) -∗ K ⟨⟩))
          ⊢ wp frame (wpE (defs₀ (F := F)) Variants.none c none) E (cc1__gather_score_kernel i arg2 harg2 arg3 harg3 arg4 harg4 arg5 harg5 arg6 harg6 arg7 harg7 arg8 harg8) K } := by
  refine ⟨?_, ?_, fun score E K => ?run⟩
  case run =>
    simp only [cc1__gather_score_kernel_eq_skeleton]; unfold cc1__gather_score_kernel_skel
    simp only [k1_part1_eq_skeleton, k1_part2_eq_skeleton]
    rw [owns_unread c harg2, owns_unread c harg3, owns_unread c harg4, owns_unread c harg5, owns_unread c harg6, owns_unread c harg7, owns_unread c harg8]
    iintro ⟨H0, H1, H2, H3, H4, HQ, HK, Hk⟩
    sl_exec (disch := first | exact hfirst | exact hlast)
    sl_step
    iapply Hk
    iframe H0 H1 H2 H3 H4
    isplitl [HQ]; · iexists _; iexact HQ
    iexists _; iexact HK

end Cert.KernelIdeal.Rgn1

end
-- ==== Proof.KI.Rgn1.RunLast.lean ====
import proofs.«412990_j12266426597865_3_alg».proof.Proof.KI.Rgn1.RunMiddle

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

set_option maxHeartbeats 4000000 in
-- At the last node tile the body adds onto the accumulators as before and stores the edge tile's four score slices, so it takes the score buffer at anything.
noncomputable def runLast (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S2048 .i32) (harg4 : arg4.IsWhole) (arg5 : Memref sig .tc .vmem S2048 .i32) (harg5 : arg5.IsWhole) (arg6 : Memref sig .tc .vmem S4x8x2048 .f32) (harg6 : arg6.IsWhole) (arg7 : Memref sig .tc .vmem S2048x512 .f32) (harg7 : arg7.IsWhole) (arg8 : Memref sig .tc .vmem S2048x512 .f32) (harg8 : arg8.IsWhole)
    (hfirst : ¬firstNodeTile i) (hlast : lastNodeTile i)
    (q : Vec F S512x512 .bf16) (k : Vec F S512x512 .bf16) (src : Vec F S2048 .i32) (dst : Vec F S2048 .i32)
    (gq : Vec F S2048x512 .f32) (gk : Vec F S2048x512 .f32) :
    Σ' (Ls : List (View.Piece (Elt F) S4x8x2048 .f32)) (Lq : List (View.Piece (Elt F) S2048x512 .f32)), { Lk : List (View.Piece (Elt F) S2048x512 .f32) //
      ∀ (E : Set ℕ) (K : PUnit → sProp 𝕄),
        iprop(owns c.tc arg2 fullShare q ∗ owns c.tc arg3 fullShare k ∗ owns c.tc arg4 fullShare src ∗ owns c.tc arg5 fullShare dst ∗ (∃ d, owns c.tc arg6 fullShare d)
            ∗ owns c.tc arg7 fullShare gq ∗ owns c.tc arg8 fullShare gk
            ∗ (iprop(owns c.tc arg2 fullShare q ∗ owns c.tc arg3 fullShare k ∗ owns c.tc arg4 fullShare src ∗ owns c.tc arg5 fullShare dst
                ∗ (∃ f, arg6.view.loc c.tc ↦[arg6.view.set]{fullShare} arg6.view.writes (Elt F) f Ls)
                ∗ (∃ f, arg7.view.loc c.tc ↦[arg7.view.set]{fullShare} arg7.view.writes (Elt F) f Lq)
                ∗ (∃ f, arg8.view.loc c.tc ↦[arg8.view.set]{fullShare} arg8.view.writes (Elt F) f Lk)) -∗ K ⟨⟩))
          ⊢ wp frame (wpE (defs₀ (F := F)) Variants.none c none) E (cc1__gather_score_kernel i arg2 harg2 arg3 harg3 arg4 harg4 arg5 harg5 arg6 harg6 arg7 harg7 arg8 harg8) K } := by
  refine ⟨?_, ?_, ?_, fun E K => ?run⟩
  case run =>
    simp only [cc1__gather_score_kernel_eq_skeleton]; unfold cc1__gather_score_kernel_skel
    simp only [k1_part1_eq_skeleton, k1_part2_eq_skeleton]
    rw [owns_unread c harg2, owns_unread c harg3, owns_unread c harg4, owns_unread c harg5, owns_unread c harg7, owns_unread c harg8]; unfold owns
    iintro ⟨H0, H1, H2, H3, ⟨%d4, %f4, -, H4⟩, HQ, HK, Hk⟩
    sl_exec (disch := first | exact hfirst | exact hlast)
    sl_step
    iapply Hk
    iframe H0 H1 H2 H3
    isplitl [H4]; · iexists _; iexact H4
    isplitl [HQ]; · iexists _; iexact HQ
    iexists _; iexact HK

end Cert.KernelIdeal.Rgn1

end
-- ==== Proof.KI.Rgn1.lean ====
import proofs.«412990_j12266426597865_3_alg».proof.Proof.KI.Rgn1.RunLast

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev qBlk (c : Dev nD) (t : Fin cfg1.N) : Vec F S512x512 .bf16 := iblk V c 0 t
abbrev kBlk (c : Dev nD) (t : Fin cfg1.N) : Vec F S512x512 .bf16 := iblk V c 1 t
abbrev srcBlk (c : Dev nD) (t : Fin cfg1.N) : Vec F S2048 .i32 := iblk V c 2 t
abbrev dstBlk (c : Dev nD) (t : Fin cfg1.N) : Vec F S2048 .i32 := iblk V c 3 t

theorem notLast_of_first (t : Fin cfg1.N) (h0 : t.val % 20 = 0) : ¬lastNodeTile (grid1.coords t) :=
  fun h => by have := (lastNodeTile_iff t).mp h; omega

theorem first_of_mod (t : Fin cfg1.N) (h0 : t.val % 20 = 0) : firstNodeTile (grid1.coords t) := (firstNodeTile_iff t).mpr h0
theorem notFirst_of_mod (t : Fin cfg1.N) (h0 : ¬t.val % 20 = 0) : ¬firstNodeTile (grid1.coords t) := fun h => h0 ((firstNodeTile_iff t).mp h)
theorem last_of_mod (t : Fin cfg1.N) (h19 : t.val % 20 = 19) : lastNodeTile (grid1.coords t) := (lastNodeTile_iff t).mpr h19
theorem notLast_of_mod (t : Fin cfg1.N) (h19 : ¬t.val % 20 = 19) : ¬lastNodeTile (grid1.coords t) := fun h => h19 ((lastNodeTile_iff t).mp h)

def scoreUnwritten : Vec F S4x8x2048 .f32 := scoreView.read (Elt F) scoreView.junk

section Points

variable (c : Dev nD) (t : Fin cfg1.N)

section First

variable (h0 : t.val % 20 = 0) (q k : Vec F S512x512 .bf16) (src dst : Vec F S2048 .i32)

abbrev firstAt :=
  runFirst (F := F) c (grid1.coords t) (qStage t) (qStage_whole t) (kStage t) (kStage_whole t) (srcStage t) (srcStage_whole t) (dstStage t) (dstStage_whole t) (scoreStage t) (scoreStage_whole t) gqAcc (Memref.isWhole_whole _) gkAcc (Memref.isWhole_whole _) (first_of_mod t h0) (notLast_of_first t h0) q k src dst

def gqFirst : Vec F S2048x512 .f32 :=
  gqView.read (Elt F) (gqView.writes (Elt F) gqView.junk (firstAt c t h0 q k src dst).1)

def gkFirst : Vec F S2048x512 .f32 :=
  gkView.read (Elt F) (gkView.writes (Elt F) gkView.junk (firstAt c t h0 q k src dst).2.1)

def afterFirst : Vec F S4x8x2048 .f32 × Vec F S2048x512 .f32 × Vec F S2048x512 .f32 :=
  (scoreUnwritten, gqFirst c t h0 (qBlk V c t) (kBlk V c t) (srcBlk V c t) (dstBlk V c t), gkFirst c t h0 (qBlk V c t) (kBlk V c t) (srcBlk V c t) (dstBlk V c t))

end First

variable (h0 : ¬t.val % 20 = 0)

section Middle

variable (h19 : ¬t.val % 20 = 19) (q k : Vec F S512x512 .bf16) (src dst : Vec F S2048 .i32) (gq gk : Vec F S2048x512 .f32)

abbrev middleAt :=
  runMiddle (F := F) c (grid1.coords t) (qStage t) (qStage_whole t) (kStage t) (kStage_whole t) (srcStage t) (srcStage_whole t) (dstStage t) (dstStage_whole t) (scoreStage t) (scoreStage_whole t) gqAcc (Memref.isWhole_whole _) gkAcc (Memref.isWhole_whole _) (notFirst_of_mod t h0) (notLast_of_mod t h19) q k src dst gq gk

def gqMiddle : Vec F S2048x512 .f32 :=
  gqView.read (Elt F) (gqView.writes (Elt F) gqView.junk (middleAt c t h0 h19 q k src dst gq gk).1)

def gkMiddle : Vec F S2048x512 .f32 :=
  gkView.read (Elt F) (gkView.writes (Elt F) gkView.junk (middleAt c t h0 h19 q k src dst gq gk).2.1)

def afterMiddle (acc : Vec F S2048x512 .f32 × Vec F S2048x512 .f32) : Vec F S4x8x2048 .f32 × Vec F S2048x512 .f32 × Vec F S2048x512 .f32 :=
  (scoreUnwritten, gqMiddle c t h0 h19 (qBlk V c t) (kBlk V c t) (srcBlk V c t) (dstBlk V c t) acc.1 acc.2, gkMiddle c t h0 h19 (qBlk V c t) (kBlk V c t) (srcBlk V c t) (dstBlk V c t) acc.1 acc.2)

end Middle

section Last

variable (h19 : t.val % 20 = 19) (q k : Vec F S512x512 .bf16) (src dst : Vec F S2048 .i32) (gq gk : Vec F S2048x512 .f32)

abbrev lastAt :=
  runLast (F := F) c (grid1.coords t) (qStage t) (qStage_whole t) (kStage t) (kStage_whole t) (srcStage t) (srcStage_whole t) (dstStage t) (dstStage_whole t) (scoreStage t) (scoreStage_whole t) gqAcc (Memref.isWhole_whole _) gkAcc (Memref.isWhole_whole _) (notFirst_of_mod t h0) (last_of_mod t h19) q k src dst gq gk

def scoreLast : Vec F S4x8x2048 .f32 :=
  scoreView.read (Elt F) (scoreView.writes (Elt F) scoreView.junk (lastAt c t h0 h19 q k src dst gq gk).1)

def gqLast : Vec F S2048x512 .f32 :=
  gqView.read (Elt F) (gqView.writes (Elt F) gqView.junk (lastAt c t h0 h19 q k src dst gq gk).2.1)

def gkLast : Vec F S2048x512 .f32 :=
  gkView.read (Elt F) (gkView.writes (Elt F) gkView.junk (lastAt c t h0 h19 q k src dst gq gk).2.2.1)

def afterLast (acc : Vec F S2048x512 .f32 × Vec F S2048x512 .f32) : Vec F S4x8x2048 .f32 × Vec F S2048x512 .f32 × Vec F S2048x512 .f32 :=
  (scoreLast c t h0 h19 (qBlk V c t) (kBlk V c t) (srcBlk V c t) (dstBlk V c t) acc.1 acc.2, gqLast c t h0 h19 (qBlk V c t) (kBlk V c t) (srcBlk V c t) (dstBlk V c t) acc.1 acc.2, gkLast c t h0 h19 (qBlk V c t) (kBlk V c t) (srcBlk V c t) (dstBlk V c t) acc.1 acc.2)

end Last

end Points

def carried (c : Dev nD) : (n : ℕ) → n < cfg1.N → Vec F S4x8x2048 .f32 × Vec F S2048x512 .f32 × Vec F S2048x512 .f32
  | 0, hn => afterFirst V c ⟨0, hn⟩ (Nat.zero_mod _)
  | n + 1, hn =>
    if h0 : (n + 1) % 20 = 0 then afterFirst V c ⟨n + 1, hn⟩ h0
    else if h19 : (n + 1) % 20 = 19 then afterLast V c ⟨n + 1, hn⟩ h0 h19 (carried c n (Nat.lt_of_succ_lt hn)).2
    else afterMiddle V c ⟨n + 1, hn⟩ h0 h19 (carried c n (Nat.lt_of_succ_lt hn)).2

theorem pred_lt (t : Fin cfg1.N) : t.val - 1 < cfg1.N := Nat.lt_of_le_of_lt (Nat.sub_le _ _) t.isLt

theorem carried_first (c : Dev nD) (t : Fin cfg1.N) (h0 : t.val % 20 = 0) :
    carried V c t.val t.isLt = afterFirst V c t h0 := by
  obtain ⟨n, hn⟩ := t
  cases n with
  | zero => exact rfl
  | succ n => exact (dif_pos h0).trans rfl

theorem carried_middle (c : Dev nD) (t : Fin cfg1.N) (h0 : ¬t.val % 20 = 0) (h19 : ¬t.val % 20 = 19) :
    carried V c t.val t.isLt = afterMiddle V c t h0 h19 (carried V c (t.val - 1) (pred_lt t)).2 := by
  obtain ⟨n, hn⟩ := t
  cases n with
  | zero => exact absurd (Nat.zero_mod _) h0
  | succ n => exact (dif_neg h0).trans ((dif_neg h19).trans rfl)

theorem carried_last (c : Dev nD) (t : Fin cfg1.N) (h0 : ¬t.val % 20 = 0) (h19 : t.val % 20 = 19) :
    carried V c t.val t.isLt = afterLast V c t h0 h19 (carried V c (t.val - 1) (pred_lt t)).2 := by
  obtain ⟨n, hn⟩ := t
  cases n with
  | zero => exact absurd (Nat.zero_mod _) h0
  | succ n => exact (dif_neg h0).trans ((dif_pos h19).trans rfl)

-- Before position `n`: the entry state at `n = 0`, afterwards the same with the two accumulators at what position `n - 1` left in them.
def inv (c : Dev nD) : (n : ℕ) → n ≤ cfg1.N → sProp 𝕄
  | 0, _ => Pipeline.ΦA spec1 c
  | n + 1, hn => withAccs c iprop(owns c.tc gqAcc fullShare (carried V c n hn).2.1 ∗ owns c.tc gkAcc fullShare (carried V c n hn).2.2)

theorem inv_pos (c : Dev nD) (t : Fin cfg1.N) (hz : t.val ≠ 0) :
    inv V c t.val (Nat.le_of_lt t.isLt) = withAccs c iprop(owns c.tc gqAcc fullShare (carried V c (t.val - 1) (pred_lt t)).2.1 ∗ owns c.tc gkAcc fullShare (carried V c (t.val - 1) (pred_lt t)).2.2) := by
  obtain ⟨n, hn⟩ := t
  cases n with
  | zero => exact absurd rfl hz
  | succ n => rfl

-- The invariant before any position gives the entry invariant back: the accumulators' named contents are forgotten.
theorem inv_entry (c : Dev nD) (n : ℕ) (h : n ≤ cfg1.N) :
    inv V c n h ⊢ withAccs c iprop((∃ d, owns c.tc gqAcc fullShare d) ∗ (∃ d, owns c.tc gkAcc fullShare d)) := by
  cases n with
  | zero => rw [inv, entry_eq]
  | succ n =>
    rw [inv]; unfold withAccs
    iintro ⟨⟨⟨HQ, HK⟩, Hrest⟩, Hg⟩
    iframe Hrest Hg
    isplitl [HQ]
    · iexists _; iexact HQ
    · iexists _; iexact HK

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (carried V c t.val t.isLt).1
  Φ t := inv V c t.val (Nat.le_of_lt_succ t.isLt)
  q _ := fullShare
  owed _ := 0

theorem A_eq (c : Dev nD) (w : Fin cfg1.W) : (dat V c).A w = V c (Pipeline.arrRef spec1 w) := by dsimp only [dat]

theorem after_score (c : Dev nD) (t : Fin cfg1.N) : (dat V c).after 4 t = (carried V c t.val t.isLt).1 := by dsimp only [dat]

-- What the body is handed for an input at any point is that input's block there: the body never writes an input.
theorem before_q (c : Dev nD) (t : Fin cfg1.N) (d) : (dat V c).before 0 t d = iblk V c 0 t :=
  (dat V c).before_in_eq_fetched 0 rfl (fun _ => rfl) (fun _ _ _ => rfl) (fun _ => rfl) t d
theorem before_k (c : Dev nD) (t : Fin cfg1.N) (d) : (dat V c).before 1 t d = iblk V c 1 t :=
  (dat V c).before_in_eq_fetched 1 rfl (fun _ => rfl) (fun _ _ _ => rfl) (fun _ => rfl) t d
theorem before_src (c : Dev nD) (t : Fin cfg1.N) (d) : (dat V c).before 2 t d = iblk V c 2 t :=
  (dat V c).before_in_eq_fetched 2 rfl (fun _ => rfl) (fun _ _ _ => rfl) (fun _ => rfl) t d
theorem before_dst (c : Dev nD) (t : Fin cfg1.N) (d) : (dat V c).before 3 t d = iblk V c 3 t :=
  (dat V c).before_in_eq_fetched 3 rfl (fun _ => rfl) (fun _ _ _ => rfl) (fun _ => rfl) t d

set_option maxHeartbeats 4800000 in
-- The body at any point: `t % 20` says which of the three runs applies; the pieces each run stored tile their buffers, so what is read back does not depend on what the buffers held.
theorem sound_body (c : Dev nD) (t : Fin cfg1.N) :
    iprop(inv V c t.val (Nat.le_of_lt t.isLt) ∗ (dat V c).owesAt () t.castSucc
      ∗ (∃ d, owns c.tc (qStage t) fullShare ((dat V c).before 0 t d))
      ∗ (∃ d, owns c.tc (kStage t) fullShare ((dat V c).before 1 t d))
      ∗ (∃ d, owns c.tc (srcStage t) fullShare ((dat V c).before 2 t d))
      ∗ (∃ d, owns c.tc (dstStage t) fullShare ((dat V c).before 3 t d))
      ∗ (∃ d, owns c.tc (scoreStage t) fullShare ((dat V c).before 4 t d)))
      ⊢ wp frame (wpE (defs₀ (F := F)) Variants.none c none) Set.univ (bodyAt1 t) fun _ =>
        iprop(withAccs c iprop(owns c.tc gqAcc fullShare (carried V c t.val t.isLt).2.1 ∗ owns c.tc gkAcc fullShare (carried V c t.val t.isLt).2.2)
          ∗ (dat V c).owesAt () t.castSucc
          ∗ owns c.tc (qStage t) fullShare (qBlk V c t) ∗ owns c.tc (kStage t) fullShare (kBlk V c t)
          ∗ owns c.tc (srcStage t) fullShare (srcBlk V c t) ∗ owns c.tc (dstStage t) fullShare (dstBlk V c t)
          ∗ (dat V c).leavesExact 4 t) := by
  unfold bodyAt1 withAccs
  simp only [before_q, before_k, before_src, before_dst]
  by_cases h0 : t.val % 20 = 0
  · have hl := notLast_of_first t h0
    iintro ⟨Hinv, Ho, ⟨%d0, H0⟩, ⟨%d1, H1⟩, ⟨%d2, H2⟩, ⟨%d3, H3⟩, ⟨%d4, H4⟩⟩
    rw [Dat.leavesExact_idle (dat V c) 4 t (score_idle t hl) (score_noFlush t hl), carried_first V c t h0]
    unfold afterFirst gqFirst gkFirst; dsimp only
    ihave ⟨⟨⟨HQ, HK⟩, Hrest⟩, Hg⟩ := (inv_entry V c t.val (Nat.le_of_lt t.isLt)) $$ Hinv
    iapply ((firstAt c t h0 (qBlk V c t) (kBlk V c t) (srcBlk V c t) (dstBlk V c t)).2.2 ((dat V c).before 4 t d4) Set.univ _)
    iframe H0 H1 H2 H3 H4 HQ HK
    iintro ⟨H0, H1, H2, H3, H4, ⟨%fq, HQ⟩, ⟨%fk, HK⟩⟩
    iframe Ho H0 H1 H2 H3 Hrest Hg
    isplitr [H4]
    · isplitl [HQ]
      · ihave H := (Ring.owns_of_writes_tiledL gqView S2048x512.size) $$ HQ; iapply H; ipureintro; sl_kernel_rfl
      · ihave H := (Ring.owns_of_writes_tiledL gkView S2048x512.size) $$ HK; iapply H; ipureintro; sl_kernel_rfl
    · iexists _; iexact H4
  · rw [inv_pos V c t fun e => h0 (by rw [e])]
    iintro ⟨⟨⟨⟨HQ, HK⟩, Hrest⟩, Hg⟩, Ho, ⟨%d0, H0⟩, ⟨%d1, H1⟩, ⟨%d2, H2⟩, ⟨%d3, H3⟩, ⟨%d4, H4⟩⟩
    by_cases h19 : t.val % 20 = 19
    · rw [show (dat V c).leavesExact 4 t = owns c.tc (scoreStage t) fullShare ((dat V c).after 4 t) from by
        unfold Dat.leavesExact; rw [score_live t (last_of_mod t h19)], after_score, carried_last V c t h0 h19]
      unfold afterLast scoreLast gqLast gkLast; dsimp only
      iapply ((lastAt c t h0 h19 (qBlk V c t) (kBlk V c t) (srcBlk V c t) (dstBlk V c t) (carried V c (t.val - 1) (pred_lt t)).2.1 (carried V c (t.val - 1) (pred_lt t)).2.2).2.2.2 Set.univ _)
      iframe H0 H1 H2 H3 HQ HK
      isplitl [H4]; · iexists _; iexact H4
      iintro ⟨H0, H1, H2, H3, ⟨%fs, H4⟩, ⟨%fq, HQ⟩, ⟨%fk, HK⟩⟩
      iframe Ho H0 H1 H2 H3 Hrest Hg
      isplitr [H4]
      · isplitl [HQ]
        · ihave H := (Ring.owns_of_writes_tiledL gqView S2048x512.size) $$ HQ; iapply H; ipureintro; sl_kernel_rfl
        · ihave H := (Ring.owns_of_writes_tiledL gkView S2048x512.size) $$ HK; iapply H; ipureintro; sl_kernel_rfl
      · ihave H := (Ring.owns_of_writes_tiledL scoreView S1x8x2048.size) $$ H4; iapply H; ipureintro; sl_kernel_rfl
    · have hl := notLast_of_mod t h19
      rw [Dat.leavesExact_idle (dat V c) 4 t (score_idle t hl) (score_noFlush t hl), carried_middle V c t h0 h19]
      unfold afterMiddle gqMiddle gkMiddle; dsimp only
      iapply ((middleAt c t h0 h19 (qBlk V c t) (kBlk V c t) (srcBlk V c t) (dstBlk V c t) (carried V c (t.val - 1) (pred_lt t)).2.1 (carried V c (t.val - 1) (pred_lt t)).2.2).2.2 ((dat V c).before 4 t d4) Set.univ _)
      iframe H0 H1 H2 H3 H4 HQ HK
      iintro ⟨H0, H1, H2, H3, H4, ⟨%fq, HQ⟩, ⟨%fk, HK⟩⟩
      iframe Ho H0 H1 H2 H3 Hrest Hg
      isplitr [H4]
      · isplitl [HQ]
        · ihave H := (Ring.owns_of_writes_tiledL gqView S2048x512.size) $$ HQ; iapply H; ipureintro; sl_kernel_rfl
        · ihave H := (Ring.owns_of_writes_tiledL gkView S2048x512.size) $$ HK; iapply H; ipureintro; sl_kernel_rfl
      · iexists _; iexact H4

theorem body_obligation (c : Dev nD) : BodyObligation (dat (F := F) V c) (defs₀ (F := F)) Variants.none () Set.univ := fun t => by
  rw [bigSep_W1, bigSep_W1]
  exact sound_body V c t

theorem hin (c : Dev nD) : (Pipeline.ΦA spec1 c : sProp 𝕄) ⊢ (dat V c).Φ 0 := Entails.of_eq rfl

theorem hout (c : Dev nD) : (dat V c).Φ (Fin.last cfg1.N) ⊢ (Pipeline.ΦA spec1 c : sProp 𝕄) := by
  rw [entry_eq]; exact inv_entry V c cfg1.N (Nat.le_refl _)

end Cert.KernelIdeal.Rgn1

end
-- ==== Proof.KI.Rgn2.lean ====
import proofs.«412990_j12266426597865_3_alg».proof.Proof.Gen.KernelIdeal.Launch
import proofs.«412990_j12266426597865_3_alg».proof.Proof.Gen.KernelIdeal.Skeleton
import proofs.«412990_j12266426597865_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirstTile (i : grid2.Coords) : Prop :=
  (Scalar.cmpi .ne (Scalar.extui (Scalar.cmpi .eq (BitVec.ofNat 32 (i 1).val) 0#32)) 0#32) = 1#1
theorem isFirstTile_iff : ∀ t : Fin cfg2.N, isFirstTile (grid2.coords t) ↔ t.val % 10 = 0 :=
  (by decide +kernel : ∀ t : Fin grid2.N, isFirstTile (grid2.coords t) ↔ t.val % 10 = 0)
abbrev isLastTile (i : grid2.Coords) : Prop := k2_cond2 i = 1#1
theorem isLastTile_iff : ∀ t : Fin cfg2.N, isLastTile (grid2.coords t) ↔ t.val % 10 = 9 :=
  (by decide +kernel : ∀ t : Fin grid2.N, isLastTile (grid2.coords t) ↔ t.val % 10 = 9)
theorem live_scores : ∀ i : grid2.Coords, cfg2.idle 0 i = false := fun _ => rfl
theorem out_idle : ∀ t : Fin cfg2.N, ¬t.val % 10 = 9 →
    (cfg2.idle 1 (grid2.coords t) = true ∧ (cfg2.win 1).flush t = false) ∧ cfg2.idle 2 (grid2.coords t) = true ∧ (cfg2.win 2).flush t = false := by
  decide +kernel
theorem out_live : ∀ t : Fin cfg2.N, t.val % 10 = 9 → cfg2.idle 1 (grid2.coords t) = false ∧ cfg2.idle 2 (grid2.coords t) = false := by
  decide +kernel
theorem scores_uncut : ∀ (t : Fin cfg2.N) (a : Fin 3), (cfg2.win 0).clip (grid2.coords t) a = none := by decide +kernel
abbrev scoresM (t : Fin cfg2.N) : Memref sig .tc .vmem S1x8x16000 .f32 := win2_0.stage (cfg2.slots t 0)
abbrev scoresM_whole (t : Fin cfg2.N) : (scoresM t).IsWhole := hstage2_0 ((cfg2.slots t 0).cast nbuf2_0)
abbrev maxOutM (t : Fin cfg2.N) : Memref sig .tc .vmem S1x8x1 .f32 := win2_1.stage (cfg2.slots t 1)
abbrev maxOutM_whole (t : Fin cfg2.N) : (maxOutM t).IsWhole := hstage2_1 ((cfg2.slots t 1).cast nbuf2_1)
abbrev sumOutM (t : Fin cfg2.N) : Memref sig .tc .vmem S1x8x1 .f32 := win2_2.stage (cfg2.slots t 2)
abbrev sumOutM_whole (t : Fin cfg2.N) : (sumOutM t).IsWhole := hstage2_2 ((cfg2.slots t 2).cast nbuf2_2)
abbrev runMaxM : Memref sig .tc .vmem S8x1 .f32 := Memref.whole cc2_scratch0
abbrev runSumM : Memref sig .tc .vmem S8x1 .f32 := Memref.whole cc2_scratch1
abbrev runMaxV : View sig .tc .vmem S8x1 .f32 := runMaxM.view
abbrev runSumV : View sig .tc .vmem S8x1 .f32 := runSumM.view
abbrev maxOutV : View sig .tc .vmem S1x8x1 .f32 := (Memref.whole cc2_stg1_0 : Memref sig .tc .vmem S1x8x1 .f32).view
abbrev sumOutV : View sig .tc .vmem S1x8x1 .f32 := (Memref.whole cc2_stg2_0 : Memref sig .tc .vmem S1x8x1 .f32).view

abbrev PhiWith (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0, cc2_scratch1])
    ∗ (∃ r, prngReg c r))
abbrev scratchAny (c : Dev nD) : sProp 𝕄 :=
  iprop((∃ d, owns (c : Thread nD τ) runMaxM fullShare d) ∗ (∃ d, owns (c : Thread nD τ) runSumM fullShare d))
abbrev scratchAt (c : Dev nD) (p : Vec F S8x1 .f32 × Vec F S8x1 .f32) : sProp 𝕄 :=
  iprop(owns (c : Thread nD τ) runMaxM fullShare p.1 ∗ owns (c : Thread nD τ) runSumM fullShare p.2)
abbrev Pieces (F : FTy → Type) [FloatOps F] (s : Shape) := List (View.Piece (Elt F) s .f32)
abbrev wrote {s : Shape} (c : Dev nD) (m : Memref sig .tc .vmem s .f32) (L : Pieces F s) : sProp 𝕄 :=
  iprop(∃ f, m.view.loc (c : Thread nD τ) ↦[m.view.set]{fullShare} m.view.writes (Elt F) f L)

theorem PhiA_eq (c : Dev nD) : (Pipeline.ΦA spec2 c : sProp 𝕄) = PhiWith c (scratchAny c) := by
  unfold Pipeline.ΦA; rw [scopedRest2_split]; simp only [PhiWith, scratchAny, runMaxM, runSumM, owns_whole]; try rfl

-- Forgetting the carried values only weakens the invariant.
theorem forget (c : Dev nD) (p : Vec F S8x1 .f32 × Vec F S8x1 .f32) : PhiWith c (scratchAt c p) ⊢ PhiWith c (scratchAny c) :=
  sep_mono_left (sep_mono_left (sep_mono (BIClass.exists_intro _) (BIClass.exists_intro _)))

-- Pieces that tile a buffer determine what it reads, whatever it held before and through whichever view.
theorem back {s : Shape} (c : Dev nD) {M : Memref sig .tc .vmem s .f32} (v : View sig .tc .vmem s .f32)
    {L : Pieces F s} (h : View.Piece.tiledL L s.size = true) :
    wrote c M L ⊢ owns (c : Thread nD τ) M fullShare (v.read (Elt F) (v.writes (Elt F) v.junk L)) := by
  unfold wrote; iintro ⟨%f, H⟩
  ihave H' := (Ring.owns_of_writes_tiledL v s.size) $$ H
  iapply H'; ipureintro; exact h

section Runs

variable (c : Dev nD) (i : grid2.Coords)
  (arg2 : Memref sig .tc .vmem S1x8x16000 .f32) (harg2 : arg2.IsWhole)
  (arg3 : Memref sig .tc .vmem S1x8x1 .f32) (harg3 : arg3.IsWhole)
  (arg4 : Memref sig .tc .vmem S1x8x1 .f32) (harg4 : arg4.IsWhole)
  (arg5 : Memref sig .tc .vmem S8x1 .f32) (harg5 : arg5.IsWhole)
  (arg6 : Memref sig .tc .vmem S8x1 .f32) (harg6 : arg6.IsWhole)

set_option maxHeartbeats 1000000 in
-- At the first edge tile the running maximum and sum restart from −∞ and 0, so nothing carried over is read.
noncomputable def runFirstTile (hfirst : isFirstTile i) (hlast : ¬isLastTile i) (x : Vec F S1x8x16000 .f32) :
    Σ' (Lmax : Pieces F S8x1), { Lsum : Pieces F S8x1 //
      ∀ (o1 o2 : Vec F S1x8x1 .f32) (E : Set ℕ) (K : PUnit → sProp 𝕄),
        iprop(owns (c : Thread nD τ) arg2 fullShare x ∗ owns (c : Thread nD τ) arg3 fullShare o1 ∗ owns (c : Thread nD τ) arg4 fullShare o2
            ∗ (∃ d, owns (c : Thread nD τ) arg5 fullShare d) ∗ (∃ d, owns (c : Thread nD τ) arg6 fullShare d)
            ∗ (iprop(owns (c : Thread nD τ) arg2 fullShare x ∗ owns (c : Thread nD τ) arg3 fullShare o1 ∗ owns (c : Thread nD τ) arg4 fullShare o2
                ∗ wrote c arg5 Lmax ∗ wrote c arg6 Lsum) -∗ K ⟨⟩))
          ⊢ wp frame (wpE (defs₀ (F := F)) Variants.none c none) E (cc2__softmax_stats_kernel i arg2 harg2 arg3 harg3 arg4 harg4 arg5 harg5 arg6 harg6) K } := by
  refine ⟨?_, ?_, fun o1 o2 E K => ?run⟩
  case run =>
    simp only [cc2__softmax_stats_kernel_eq_skeleton]; unfold cc2__softmax_stats_kernel_skel
    unfold owns wrote
    iintro ⟨⟨%f0, %hf0, H0⟩, H1, H2, ⟨%ds0, %fs0, -, HS0⟩, ⟨%ds1, %fs1, -, HS1⟩, Hk⟩
    obtain rfl := harg2.eq_unread hf0
    sl_exec (disch := first | exact hfirst | exact hlast)
    sl_step
    iapply Hk
    isplitl [H0]
    · iexists _; isplitr; · ipureintro; exact harg2.read_unread _
      iexact H0
    isplitl [H1]; · iexact H1
    isplitl [H2]; · iexact H2
    isplitl [HS0]; · iexists _; iexact HS0
    iexists _; iexact HS1

set_option maxHeartbeats 1000000 in
-- At a middle edge tile the running maximum and sum are updated once from the block and the carried values.
noncomputable def runMiddleTile (hfirst : ¬isFirstTile i) (hlast : ¬isLastTile i) (x : Vec F S1x8x16000 .f32) (mx sm : Vec F S8x1 .f32) :
    Σ' (Lmax : Pieces F S8x1), { Lsum : Pieces F S8x1 //
      ∀ (o1 o2 : Vec F S1x8x1 .f32) (E : Set ℕ) (K : PUnit → sProp 𝕄),
        iprop(owns (c : Thread nD τ) arg2 fullShare x ∗ owns (c : Thread nD τ) arg3 fullShare o1 ∗ owns (c : Thread nD τ) arg4 fullShare o2
            ∗ owns (c : Thread nD τ) arg5 fullShare mx ∗ owns (c : Thread nD τ) arg6 fullShare sm
            ∗ (iprop(owns (c : Thread nD τ) arg2 fullShare x ∗ owns (c : Thread nD τ) arg3 fullShare o1 ∗ owns (c : Thread nD τ) arg4 fullShare o2
                ∗ wrote c arg5 Lmax ∗ wrote c arg6 Lsum) -∗ K ⟨⟩))
          ⊢ wp frame (wpE (defs₀ (F := F)) Variants.none c none) E (cc2__softmax_stats_kernel i arg2 harg2 arg3 harg3 arg4 harg4 arg5 harg5 arg6 harg6) K } := by
  refine ⟨?_, ?_, fun o1 o2 E K => ?run⟩
  case run =>
    simp only [cc2__softmax_stats_kernel_eq_skeleton]; unfold cc2__softmax_stats_kernel_skel
    unfold owns wrote
    iintro ⟨⟨%f0, %hf0, H0⟩, H1, H2, ⟨%fs0, %hfs0, HS0⟩, ⟨%fs1, %hfs1, HS1⟩, Hk⟩
    obtain rfl := harg2.eq_unread hf0; obtain rfl := harg5.eq_unread hfs0; obtain rfl := harg6.eq_unread hfs1
    sl_exec (disch := first | exact hfirst | exact hlast)
    sl_step
    iapply Hk
    isplitl [H0]
    · iexists _; isplitr; · ipureintro; exact harg2.read_unread _
      iexact H0
    isplitl [H1]; · iexact H1
    isplitl [H2]; · iexact H2
    isplitl [HS0]; · iexists _; iexact HS0
    iexists _; iexact HS1

set_option maxHeartbeats 1000000 in
-- At the last edge tile the same update is made, and the updated maximum and sum are also the two results.
noncomputable def runLastTile (hfirst : ¬isFirstTile i) (hlast : isLastTile i) (x : Vec F S1x8x16000 .f32) (mx sm : Vec F S8x1 .f32) :
    Σ' (LmaxOut : Pieces F S1x8x1) (LsumOut : Pieces F S1x8x1)
       (Lmax : Pieces F S8x1), { Lsum : Pieces F S8x1 //
      ∀ (E : Set ℕ) (K : PUnit → sProp 𝕄),
        iprop(owns (c : Thread nD τ) arg2 fullShare x ∗ (∃ d, owns (c : Thread nD τ) arg3 fullShare d) ∗ (∃ d, owns (c : Thread nD τ) arg4 fullShare d)
            ∗ owns (c : Thread nD τ) arg5 fullShare mx ∗ owns (c : Thread nD τ) arg6 fullShare sm
            ∗ (iprop(owns (c : Thread nD τ) arg2 fullShare x ∗ wrote c arg3 LmaxOut ∗ wrote c arg4 LsumOut ∗ wrote c arg5 Lmax ∗ wrote c arg6 Lsum) -∗ K ⟨⟩))
          ⊢ wp frame (wpE (defs₀ (F := F)) Variants.none c none) E (cc2__softmax_stats_kernel i arg2 harg2 arg3 harg3 arg4 harg4 arg5 harg5 arg6 harg6) K } := by
  refine ⟨?_, ?_, ?_, ?_, fun E K => ?run⟩
  case run =>
    simp only [cc2__softmax_stats_kernel_eq_skeleton]; unfold cc2__softmax_stats_kernel_skel
    unfold owns wrote
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0
    obtain rfl := harg5.eq_unread hfs0; obtain rfl := harg6.eq_unread hfs1
    sl_exec (disch := first | exact hfirst | exact hlast)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Runs

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

variable (c : Dev nD) (t : Fin cfg2.N)

abbrev scoresFiller : (cfg2.win 0).block.Idx → Elt F (cfg2.win 0).elt := fun _ => @Classical.arbitrary _ (Elt.nonempty F _)

def scoresAt : Vec F S1x8x16000 .f32 :=
  (cfg2.win 0).fill (grid2.coords t) scoresFiller (iblk V c 0 t)

abbrev runMaxOf (L : List (View.Piece (Elt F) S8x1 .f32)) : Vec F S8x1 .f32 := runMaxV.read (Elt F) (runMaxV.writes (Elt F) runMaxV.junk L)
abbrev runSumOf (L : List (View.Piece (Elt F) S8x1 .f32)) : Vec F S8x1 .f32 := runSumV.read (Elt F) (runSumV.writes (Elt F) runSumV.junk L)
abbrev maxOutOf (L : List (View.Piece (Elt F) S1x8x1 .f32)) : Vec F S1x8x1 .f32 := maxOutV.read (Elt F) (maxOutV.writes (Elt F) maxOutV.junk L)
abbrev sumOutOf (L : List (View.Piece (Elt F) S1x8x1 .f32)) : Vec F S1x8x1 .f32 := sumOutV.read (Elt F) (sumOutV.writes (Elt F) sumOutV.junk L)

theorem not_last_of_first (h0 : t.val % 10 = 0) : ¬isLastTile (grid2.coords t) :=
  fun h => by have := (isLastTile_iff t).mp h; omega
theorem not_first_of_last (h9 : t.val % 10 = 9) : ¬isFirstTile (grid2.coords t) :=
  fun h => by have := (isFirstTile_iff t).mp h; omega

abbrev firstAt (h0 : t.val % 10 = 0) (x : Vec F S1x8x16000 .f32) :=
  runFirstTile c (grid2.coords t) (scoresM t) (scoresM_whole t) (maxOutM t) (maxOutM_whole t) (sumOutM t) (sumOutM_whole t) runMaxM (Memref.isWhole_whole _) runSumM (Memref.isWhole_whole _) ((isFirstTile_iff t).mpr h0) (not_last_of_first t h0) x
abbrev middleAt (h0 : ¬t.val % 10 = 0) (h9 : ¬t.val % 10 = 9) (x : Vec F S1x8x16000 .f32) (mx sm : Vec F S8x1 .f32) :=
  runMiddleTile c (grid2.coords t) (scoresM t) (scoresM_whole t) (maxOutM t) (maxOutM_whole t) (sumOutM t) (sumOutM_whole t) runMaxM (Memref.isWhole_whole _) runSumM (Memref.isWhole_whole _) (fun h => h0 ((isFirstTile_iff t).mp h)) (fun h => h9 ((isLastTile_iff t).mp h)) x mx sm
abbrev lastAt (h9 : t.val % 10 = 9) (x : Vec F S1x8x16000 .f32) (mx sm : Vec F S8x1 .f32) :=
  runLastTile c (grid2.coords t) (scoresM t) (scoresM_whole t) (maxOutM t) (maxOutM_whole t) (sumOutM t) (sumOutM_whole t) runMaxM (Memref.isWhole_whole _) runSumM (Memref.isWhole_whole _) (not_first_of_last t h9) ((isLastTile_iff t).mpr h9) x mx sm

def carriedAt (c : Dev nD) : (n : ℕ) → n < cfg2.N → Vec F S8x1 .f32 × Vec F S8x1 .f32
  | 0, hn =>
    (runMaxOf (firstAt c ⟨0, hn⟩ (Nat.zero_mod _) (scoresAt V c ⟨0, hn⟩)).1,
     runSumOf (firstAt c ⟨0, hn⟩ (Nat.zero_mod _) (scoresAt V c ⟨0, hn⟩)).2.1)
  | n + 1, hn =>
    if h0 : (n + 1) % 10 = 0 then
      (runMaxOf (firstAt c ⟨n + 1, hn⟩ h0 (scoresAt V c ⟨n + 1, hn⟩)).1,
       runSumOf (firstAt c ⟨n + 1, hn⟩ h0 (scoresAt V c ⟨n + 1, hn⟩)).2.1)
    else
      if h9 : (n + 1) % 10 = 9 then
        (runMaxOf (lastAt c ⟨n + 1, hn⟩ h9 (scoresAt V c ⟨n + 1, hn⟩) (carriedAt c n (Nat.lt_of_succ_lt hn)).1 (carriedAt c n (Nat.lt_of_succ_lt hn)).2).2.2.1,
         runSumOf (lastAt c ⟨n + 1, hn⟩ h9 (scoresAt V c ⟨n + 1, hn⟩) (carriedAt c n (Nat.lt_of_succ_lt hn)).1 (carriedAt c n (Nat.lt_of_succ_lt hn)).2).2.2.2.1)
      else
        (runMaxOf (middleAt c ⟨n + 1, hn⟩ h0 h9 (scoresAt V c ⟨n + 1, hn⟩) (carriedAt c n (Nat.lt_of_succ_lt hn)).1 (carriedAt c n (Nat.lt_of_succ_lt hn)).2).1,
         runSumOf (middleAt c ⟨n + 1, hn⟩ h0 h9 (scoresAt V c ⟨n + 1, hn⟩) (carriedAt c n (Nat.lt_of_succ_lt hn)).1 (carriedAt c n (Nat.lt_of_succ_lt hn)).2).2.1)

abbrev carriedBefore : Vec F S8x1 .f32 × Vec F S8x1 .f32 :=
  carriedAt V c (t.val - 1) (Nat.lt_of_le_of_lt (Nat.sub_le _ _) t.isLt)

theorem carriedAt_first (h0 : t.val % 10 = 0) :
    carriedAt V c t.val t.isLt
      = (runMaxOf (firstAt c t h0 (scoresAt V c t)).1, runSumOf (firstAt c t h0 (scoresAt V c t)).2.1) := by
  obtain ⟨n, hn⟩ := t
  cases n with
  | zero => exact rfl
  | succ n => exact (dif_pos h0).trans rfl

theorem carriedAt_middle (h0 : ¬t.val % 10 = 0) (h9 : ¬t.val % 10 = 9) :
    carriedAt V c t.val t.isLt
      = (runMaxOf (middleAt c t h0 h9 (scoresAt V c t) (carriedBefore V c t).1 (carriedBefore V c t).2).1,
         runSumOf (middleAt c t h0 h9 (scoresAt V c t) (carriedBefore V c t).1 (carriedBefore V c t).2).2.1) := by
  obtain ⟨n, hn⟩ := t
  cases n with
  | zero => exact absurd (Nat.zero_mod _) h0
  | succ n => exact (dif_neg h0).trans ((dif_neg h9).trans rfl)

theorem carriedAt_last (h9 : t.val % 10 = 9) :
    carriedAt V c t.val t.isLt
      = (runMaxOf (lastAt c t h9 (scoresAt V c t) (carriedBefore V c t).1 (carriedBefore V c t).2).2.2.1,
         runSumOf (lastAt c t h9 (scoresAt V c t) (carriedBefore V c t).1 (carriedBefore V c t).2).2.2.2.1) := by
  have h0 : ¬t.val % 10 = 0 := by omega
  obtain ⟨n, hn⟩ := t
  cases n with
  | zero => exact absurd (Nat.zero_mod _) h0
  | succ n => exact (dif_neg h0).trans ((dif_pos h9).trans rfl)

def maxOutAt : Vec F S1x8x1 .f32 :=
  if h9 : t.val % 10 = 9 then maxOutOf (lastAt c t h9 (scoresAt V c t) (carriedBefore V c t).1 (carriedBefore V c t).2).1
  else maxOutOf []
def sumOutAt : Vec F S1x8x1 .f32 :=
  if h9 : t.val % 10 = 9 then sumOutOf (lastAt c t h9 (scoresAt V c t) (carriedBefore V c t).1 (carriedBefore V c t).2).2.1
  else sumOutOf []

theorem maxOutAt_last (h9 : t.val % 10 = 9) :
    maxOutAt V c t = maxOutOf (lastAt c t h9 (scoresAt V c t) (carriedBefore V c t).1 (carriedBefore V c t).2).1 := dif_pos h9
theorem sumOutAt_last (h9 : t.val % 10 = 9) :
    sumOutAt V c t = sumOutOf (lastAt c t h9 (scoresAt V c t) (carriedBefore V c t).1 (carriedBefore V c t).2).2.1 := dif_pos h9

def PhiS : (n : ℕ) → n ≤ cfg2.N → sProp 𝕄
  | 0, _ => Pipeline.ΦA spec2 c
  | n + 1, hn => PhiWith c (scratchAt c (carriedAt V c n hn))

theorem PhiS_zero (n : ℕ) (h : n ≤ cfg2.N) (hz : n = 0) : PhiS V c n h = Pipeline.ΦA spec2 c := by
  subst hz; rfl

theorem PhiS_pos (n : ℕ) (h : n ≤ cfg2.N) (hz : n ≠ 0) :
    PhiS V c n h = PhiWith c (scratchAt c (carriedAt V c (n - 1) (by omega))) := by
  cases n with
  | zero => exact absurd rfl hz
  | succ n => rfl

-- At every position the invariant entails its form with the carried values forgotten.
theorem PhiS_any (n : ℕ) (h : n ≤ cfg2.N) : PhiS V c n h ⊢ PhiWith c (scratchAny c) := by
  by_cases hz : n = 0
  · rw [PhiS_zero V c _ _ hz, PhiA_eq]
  · rw [PhiS_pos V c _ _ hz]; exact forget c _

def dat : Dat τ (Elt F) Unit ℕ (UR sig nD τ) ℕ cfg2 c where
  A w := V c (Pipeline.arrRef spec2 w)
  after w t := match w with
    | ⟨0, _⟩ => scoresAt V c t
    | ⟨1, _⟩ => maxOutAt V c t
    | ⟨2, _⟩ => sumOutAt V c t
  Φ t := PhiS V c t.val (Nat.le_of_lt_succ t.isLt)
  q _ := fullShare
  owed _ := 0

theorem A_eq (w : Fin cfg2.W) : (dat V c).A w = V c (Pipeline.arrRef spec2 w) := by dsimp only [dat]

theorem after_scores : (dat V c).after 0 t = scoresAt V c t := by dsimp only [dat]
theorem after_maxOut : (dat V c).after 1 t = maxOutAt V c t := by dsimp only [dat]
theorem after_sumOut : (dat V c).after 2 t = sumOutAt V c t := by dsimp only [dat]

theorem PhiS_castSucc :
    (dat V c).Φ t.castSucc = PhiS V c t.val (Nat.le_of_lt t.isLt) := by
  dsimp only [dat]; simp only [Fin.coe_castSucc]

theorem before_scores (d) : (dat V c).before 0 t d = scoresAt V c t := by
  rw [(dat V c).before_in_eq_fetched 0 rfl live_scores
    (fun t t' _ => funext fun a => (scores_uncut t a).trans (scores_uncut t' a).symm)
    (fun t => by rw [after_scores]; unfold scoresAt; rw [Window.cut_fill]; unfold Dat.blockOf iblk; rw [A_eq]) t d]
  rw [(dat V c).fetched_of_clip_none 0 t (scores_uncut t) d scoresFiller]
  unfold Dat.fetched Dat.blockOf scoresAt iblk; rw [A_eq]

theorem leaves_scores : (dat V c).leavesExact 0 t = owns (c : Thread nD τ) (scoresM t) fullShare (scoresAt V c t) := by
  unfold Dat.leavesExact; rw [live_scores (grid2.coords t), after_scores]

-- Where a result block is not due, the obligation asks for it back unchanged.
theorem idle_back (w : Fin cfg2.W) (h : cfg2.idle w (grid2.coords t) = true ∧ (cfg2.win w).flush t = false) (d) :
    owns (c : Thread nD τ) ((cfg2.win w).stage (cfg2.slots t w)) fullShare ((dat V c).before w t d) ⊢ (dat V c).leavesExact w t := by
  rw [Dat.leavesExact_idle (dat V c) w t h.1 h.2]; iintro H; iexists _; iexact H

-- At the last edge tile each result block is owed at exactly what the stored pieces read.
theorem last_back_max (h9 : t.val % 10 = 9) :
    wrote c (maxOutM t) (lastAt c t h9 (scoresAt V c t) (carriedBefore V c t).1 (carriedBefore V c t).2).1 ⊢ (dat V c).leavesExact 1 t := by
  unfold Dat.leavesExact; rw [(out_live t h9).1, after_maxOut, maxOutAt_last V c t h9]; exact back c maxOutV (by sl_kernel_rfl)
theorem last_back_sum (h9 : t.val % 10 = 9) :
    wrote c (sumOutM t) (lastAt c t h9 (scoresAt V c t) (carriedBefore V c t).1 (carriedBefore V c t).2).2.1 ⊢ (dat V c).leavesExact 2 t := by
  unfold Dat.leavesExact; rw [(out_live t h9).2, after_sumOut, sumOutAt_last V c t h9]; exact back c sumOutV (by sl_kernel_rfl)

def bodyPre : sProp 𝕄 :=
  iprop((dat V c).Φ t.castSucc ∗ (dat V c).owesAt () t.castSucc
    ∗ (∃ d, owns (c : Thread nD τ) (scoresM t) fullShare ((dat V c).before 0 t d))
    ∗ (∃ d, owns (c : Thread nD τ) (maxOutM t) fullShare ((dat V c).before 1 t d))
    ∗ (∃ d, owns (c : Thread nD τ) (sumOutM t) fullShare ((dat V c).before 2 t d)))

def bodyPost : sProp 𝕄 :=
  iprop((dat V c).Φ t.succ ∗ (dat V c).owesAt () t.succ
    ∗ (dat V c).leavesExact 0 t
    ∗ (dat V c).leavesExact 1 t
    ∗ (dat V c).leavesExact 2 t)

-- All three cases prove the obligation alike: frame the invariant around the run, then read each stored value back from its pieces.
theorem sound_of (B1 B2 : Vec F S1x8x1 .f32 → sProp 𝕄)
    (h1 : ∀ d, B1 ((dat V c).before 1 t d) ⊢ (dat V c).leavesExact 1 t) (h2 : ∀ d, B2 ((dat V c).before 2 t d) ⊢ (dat V c).leavesExact 2 t)
    (P5 P6 : sProp 𝕄) (Lmax Lsum : Pieces F S8x1)
    (hmax : View.Piece.tiledL Lmax S8x1.size = true) (hsum : View.Piece.tiledL Lsum S8x1.size = true)
    (hΦ : PhiS V c t.val (Nat.le_of_lt t.isLt) ⊢ PhiWith c iprop(P5 ∗ P6))
    (hc : carriedAt V c t.val t.isLt = (runMaxOf Lmax, runSumOf Lsum))
    (hrun : ∀ (o1 o2 : Vec F S1x8x1 .f32) (K : PUnit → sProp 𝕄),
      iprop(owns (c : Thread nD τ) (scoresM t) fullShare (scoresAt V c t) ∗ owns (c : Thread nD τ) (maxOutM t) fullShare o1
          ∗ owns (c : Thread nD τ) (sumOutM t) fullShare o2 ∗ P5 ∗ P6
          ∗ (iprop(owns (c : Thread nD τ) (scoresM t) fullShare (scoresAt V c t) ∗ B1 o1 ∗ B2 o2 ∗ wrote c runMaxM Lmax ∗ wrote c runSumM Lsum) -∗ K ⟨⟩))
        ⊢ wp frame (wpE (defs₀ (F := F)) Variants.none c none) Set.univ (bodyAt2 t) K) :
    bodyPre V c t ⊢ wp frame (wpE (defs₀ (F := F)) Variants.none c none) Set.univ (bodyAt2 t) (fun _ => bodyPost V c t) := by
  unfold bodyPre bodyPost
  simp only [before_scores]
  rw [show (dat V c).owesAt () t.succ = (dat V c).owesAt () t.castSucc from rfl,
    show (dat V c).Φ t.succ = PhiWith c (scratchAt c (carriedAt V c t.val t.isLt)) from rfl,
    leaves_scores V c t, hc, PhiS_castSucc V c t]
  dsimp only [PhiWith, scratchAt] at hΦ ⊢
  iintro ⟨HΦ, Ho, ⟨%d0, H0⟩, ⟨%d1, H1⟩, ⟨%d2, H2⟩⟩
  ihave HΦ' := hΦ $$ HΦ
  icases HΦ' with ⟨⟨⟨HS0, HS1⟩, Hrest⟩, Hg⟩
  iapply (hrun _ _ _)
  isplitl [H0]; · iexact H0
  isplitl [H1]; · iexact H1
  isplitl [H2]; · iexact H2
  isplitl [HS0]; · iexact HS0
  isplitl [HS1]; · iexact HS1
  iintro ⟨H0, H1, H2, HS0, HS1⟩
  ihave HS0' := (back c runMaxV hmax) $$ HS0
  ihave HS1' := (back c runSumV hsum) $$ HS1
  ihave H1' := (h1 _) $$ H1
  ihave H2' := (h2 _) $$ H2
  isplitl [HS0' HS1' Hrest Hg]
  · isplitl [HS0' HS1' Hrest]
    · isplitl [HS0' HS1']
      · isplitl [HS0']; · iexact HS0'
        iexact HS1'
      · iexact Hrest
    · iexact Hg
  isplitl [Ho]; · iexact Ho
  isplitl [H0]; · iexact H0
  isplitl [H1']; · iexact H1'
  iexact H2'

-- The edge tile decides the case: reset and update at tile 0, update at tiles 1 to 8, update and copy out at tile 9.
theorem body_obligation : BodyObligation (dat (F := F) V c) (defs₀ (F := F)) Variants.none () Set.univ := fun t => by
  rw [bigSep_W2, bigSep_W2]
  have idle := fun h9 : ¬t.val % 10 = 9 =>
    sound_of V c t (owns (c : Thread nD τ) (maxOutM t) fullShare) (owns (c : Thread nD τ) (sumOutM t) fullShare)
      (idle_back V c t 1 (out_idle t h9).1) (idle_back V c t 2 (out_idle t h9).2)
  by_cases h0 : t.val % 10 = 0
  · exact idle (by omega) _ _ _ _ (by sl_kernel_rfl) (by sl_kernel_rfl) (PhiS_any V c _ _) (carriedAt_first V c t h0)
      fun o1 o2 K => (firstAt c t h0 (scoresAt V c t)).2.2 o1 o2 Set.univ K
  have hΦ : PhiS V c t.val (Nat.le_of_lt t.isLt) ⊢ PhiWith c (scratchAt c (carriedBefore V c t)) := by
    rw [PhiS_pos V c _ _ fun h => h0 (by rw [h])] <;> rfl
  by_cases h9 : t.val % 10 = 9
  · refine sound_of V c t (fun _ => wrote c (maxOutM t) _) (fun _ => wrote c (sumOutM t) _)
      (fun _ => last_back_max V c t h9) (fun _ => last_back_sum V c t h9)
      _ _ _ _ (by sl_kernel_rfl) (by sl_kernel_rfl) hΦ (carriedAt_last V c t h9) fun o1 o2 K => ?_
    iintro ⟨H0, H1, H2, H⟩
    iapply ((lastAt c t h9 (scoresAt V c t) (carriedBefore V c t).1 (carriedBefore V c t).2).2.2.2.2 Set.univ K)
    isplitl [H0]; · iexact H0
    isplitl [H1]; · iexists _; iexact H1
    isplitl [H2]; · iexists _; iexact H2
    iexact H
  · exact idle h9 _ _ _ _ (by sl_kernel_rfl) (by sl_kernel_rfl) hΦ (carriedAt_middle V c t h0 h9)
      fun o1 o2 K => (middleAt c t h0 h9 (scoresAt V c t) (carriedBefore V c t).1 (carriedBefore V c t).2).2.2 o1 o2 Set.univ K

theorem hin : (Pipeline.ΦA spec2 c : sProp 𝕄) ⊢ (dat V c).Φ 0 := by
  rw [show (dat V c).Φ 0 = PhiS V c 0 (Nat.zero_le _) from rfl, PhiS_zero V c 0 _ rfl]

theorem hout : (dat V c).Φ (Fin.last cfg2.N) ⊢ (Pipeline.ΦA spec2 c : sProp 𝕄) := by
  rw [PhiA_eq]; exact PhiS_any V c (Fin.last cfg2.N).val (Nat.le_of_lt_succ (Fin.last cfg2.N).isLt)

end Cert.KernelIdeal.Rgn2

end
-- ==== Proof.KI.Rgn3.lean ====
import proofs.«412990_j12266426597865_3_alg».proof.Proof.Gen.KernelIdeal.Launch
import proofs.«412990_j12266426597865_3_alg».proof.Proof.Gen.KernelIdeal.Skeleton
import proofs.«412990_j12266426597865_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- Ten column blocks of 16000 end at column 160000 of 161792: no block of the scores overhangs its array.
theorem scores_uncut : ∀ (t : Fin cfg3.N) (a : Fin (cfg3.win 0).shape.rank), (cfg3.win 0).clip (cfg3.grid.coords t) a = none :=
  (by decide +kernel : ∀ (t : Fin grid3.N) (a : Fin win3_0.shape.rank), win3_0.clip (grid3.coords t) a = none)

theorem scores_moved (t : Fin cfg3.N) (j : (cfg3.win 0).block.Idx) : (cfg3.win 0).moved (cfg3.grid.coords t) j = true :=
  ((cfg3.win 0).moved_iff _ j).mpr fun a => by
    show (j a).val < ((cfg3.win 0).clip (cfg3.grid.coords t) a).extent ((cfg3.win 0).size a)
    rw [scores_uncut t a]; exact (j a).isLt

def sblk (c : Dev nD) (t : Fin cfg3.N) : Vec F S1x8x16000 .f32 :=
  fun j => iblk V c 0 t fun a => ⟨(j a).val, ((cfg3.win 0).moved_iff _ j).mp (scores_moved t j) a⟩

abbrev rS : Rect S1x8x16000 := Rect.unit (s := S1x8x16000) ![0, 0, 0] S1x8x16000.size inb_S1x8x16000_S1x8x16000_0_0_0
abbrev rM : Rect S1x8x1 := Rect.unit (s := S1x8x1) ![0, 0, 0] S1x8x1.size inb_S1x8x1_S1x8x1_0_0_0
abbrev rO : Rect S1x16000x8 := Rect.unit (s := S1x16000x8) ![0, 0, 0] S1x16000x8.size inb_S1x16000x8_S1x16000x8_0_0_0

section
variable (s : Vec F S1x8x16000 .f32) (m l : Vec F S1x8x1 .f32)

def normed : Vec F S1x16000x8 .f32 :=
  View.canon [⟨rO, k3_pay1 (View.ld s rS) (View.ld m rM) (View.ld l rM)⟩]

end

def dat (c : Dev nD) : Dat τ (Elt F) Unit ℕ (UR sig nD τ) ℕ cfg3 c where
  A w := V c (Pipeline.arrRef spec3 w)
  after w t := match w with
    | ⟨0, _⟩ => sblk V c t
    | ⟨1, _⟩ => iblk V c 1 t
    | ⟨2, _⟩ => iblk V c 2 t
    | ⟨3, _⟩ => normed (sblk V c t) (iblk V c 1 t) (iblk V c 2 t)
  Φ _ := Pipeline.ΦA spec3 c
  q _ := fullShare
  owed _ := 0

theorem after_3 (c : Dev nD) (t : Fin cfg3.N) :
    (dat V c).after 3 t = normed (sblk V c t) (iblk V c 1 t) (iblk V c 2 t) := by dsimp only [dat]

-- The body leaves each input block as it found it and no block of the scores is cut, so at every point it finds that point's whole block.
theorem before_in (c : Dev nD) (t : Fin cfg3.N) :
    (∀ d, (dat V c).before 0 t d = sblk V c t) ∧ (∀ d, (dat V c).before 1 t d = iblk V c 1 t)
      ∧ ∀ d, (dat V c).before 2 t d = iblk V c 2 t := by
  refine ⟨fun d => ?_, fun d => ?_, fun d => ?_⟩
  · refine ((dat V c).before_in_eq_fetched 0 rfl (fun _ => rfl)
      (fun t t' _ => funext fun a => (scores_uncut t a).trans (scores_uncut t' a).symm) (fun _ => rfl) t d).trans (funext fun j => ?_)
    unfold Dat.fetched Window.fill sblk; rw [dif_pos (scores_moved t j)]; rfl
  all_goals exact Eq.trans ((dat V c).before_in_eq_fetched _ rfl (fun _ => rfl) (fun _ _ _ => rfl) (fun _ => rfl) t d) rfl

set_option maxHeartbeats 1000000 in
-- The inputs are their blocks and the result block is written whole, so the run ends at the stated contents; the invariant and the debts are untouched.
theorem body_obligation (c : Dev nD) : BodyObligation (dat (F := F) V c) (defs₀ (F := F)) Variants.none () Set.univ := fun t => by
  obtain ⟨b0, b1, b2⟩ := before_in V c t
  rw [bigSep_W3, bigSep_W3]
  sl_whnfR [defs₀, Defs.onTc]
  simp only [b0, b1, b2, cc3__softmax_norm_kernel_eq_skeleton]; unfold cc3__softmax_norm_kernel_skel
  dsimp only [dat]
  unfold owns
  iintro ⟨HΦ, Ho, ⟨%d0, %f0, %h0, H0⟩, ⟨%d1, %f1, %h1, H1⟩, ⟨%d2, %f2, %h2, H2⟩, ⟨%d3, %f3, -, H3⟩⟩
  sl_exec
  sl_step
  isplitl [HΦ]; · iexact HΦ
  isplitl [Ho]; · iexact Ho
  isplitl [H0]; rotate_left; isplitl [H1]; rotate_left; isplitl [H2]; rotate_left
  all_goals
    iexists _; isplitr
    swap; · iassumption
    ipureintro
    first | assumption | (rw [← h0, ← h1, ← h2]; exact View.read_writes_eq_canon _ _ _ (View.cover_of_tiled _ S1x16000x8.size (by rfl)))

theorem hin (c : Dev nD) : (Pipeline.ΦA spec3 c : sProp 𝕄) ⊢ (dat V c).Φ 0 := .rfl

theorem hout (c : Dev nD) : (dat V c).Φ (Fin.last cfg3.N) ⊢ (Pipeline.ΦA spec3 c : sProp 𝕄) := .rfl

end Cert.KernelIdeal.Rgn3

end
-- ==== Proof.KI.Whole.lean ====
import proofs.«412990_j12266426597865_3_alg».proof.Proof.KI.Rgn0
import proofs.«412990_j12266426597865_3_alg».proof.Proof.KI.Rgn1
import proofs.«412990_j12266426597865_3_alg».proof.Proof.KI.Rgn2
import proofs.«412990_j12266426597865_3_alg».proof.Proof.KI.Rgn3
import proofs.«412990_j12266426597865_3_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (Rgn0.dat (V1 m ρ) c).arrAt w cfg0.N
theorem W2_arr (c : Dev nD) (w : Fin cfg0.W) :
    W2 m ρ c (Proc.devRef .tc (Pipeline.arrRef spec0 w)) = (Rgn0.dat (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev W8 : Dev nD → Valuation τ sig (Elt F) := fun c => StableHlo.after hostOps1_5 (W7 m ρ c)
abbrev W9 : Dev nD → Valuation τ sig (Elt F) := fun c => StableHlo.after hostOps1_6 (W8 m ρ c)
abbrev W10 : Dev nD → Valuation τ sig (Elt F) := fun c => StableHlo.after hostOps1_7 (W9 m ρ c)
abbrev V10 : (c : Dev nD) → (b : Ref sig .tc) → Buf (Elt F) ((c : Thread nD τ).loc b) := fun c b => W10 m ρ c b
def W11 (c : Dev nD) : Valuation τ sig (Elt F) :=
  Pipeline.withArrays spec1 c (W10 m ρ c) fun w => (Rgn1.dat (V10 m ρ) c).arrAt w cfg1.N
theorem W11_arr (c : Dev nD) (w : Fin cfg1.W) :
    W11 m ρ c (Proc.devRef .tc (Pipeline.arrRef spec1 w)) = (Rgn1.dat (V10 m ρ) c).arrAt w cfg1.N :=
  Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) :=
  Pipeline.withArrays_of_ne spec1 c _ _ b hb
abbrev V11 : (c : Dev nD) → (b : Ref sig .tc) → Buf (Elt F) ((c : Thread nD τ).loc b) := fun c b => W11 m ρ c b

def W12 (c : Dev nD) : Valuation τ sig (Elt F) :=
  Pipeline.withArrays spec2 c (W11 m ρ c) fun w => (Rgn2.dat (V11 m ρ) c).arrAt w cfg2.N
theorem W12_arr (c : Dev nD) (w : Fin cfg2.W) :
    W12 m ρ c (Proc.devRef .tc (Pipeline.arrRef spec2 w)) = (Rgn2.dat (V11 m ρ) c).arrAt w cfg2.N :=
  Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) :=
  Pipeline.withArrays_of_ne spec2 c _ _ b hb
abbrev V12 : (c : Dev nD) → (b : Ref sig .tc) → Buf (Elt F) ((c : Thread nD τ).loc b) := fun c b => W12 m ρ c b

def W13 (c : Dev nD) : Valuation τ sig (Elt F) :=
  Pipeline.withArrays spec3 c (W12 m ρ c) fun w => (Rgn3.dat (V12 m ρ) c).arrAt w cfg3.N
theorem W13_arr (c : Dev nD) (w : Fin cfg3.W) :
    W13 m ρ c (Proc.devRef .tc (Pipeline.arrRef spec3 w)) = (Rgn3.dat (V12 m ρ) c).arrAt w cfg3.N :=
  Pipeline.withArrays_arr spec3 launch3.win.arr_inj c _ _ w
theorem W13_of_ne (c : Dev nD) (b : Ref sig .tc) (hb : ∀ w, Pipeline.arrRef spec3 w ≠ b) :
    W13 m ρ c (Proc.devRef .tc b) = W12 m ρ c (Proc.devRef .tc b) :=
  Pipeline.withArrays_of_ne spec3 c _ _ b hb
abbrev W14 : Dev nD → Valuation τ sig (Elt F) := fun c => StableHlo.after hostOps4 (W13 m ρ c)

def pdats : (p : Fin 4) → (c : Dev nD) → Dat τ (Elt F) Unit ℕ (UR sig nD τ) ℕ (Pipeline.pin (pcfgs (F := F)) adm p) c
  | ⟨0, _⟩ => fun c => Rgn0.dat (V1 m ρ) c
  | ⟨1, _⟩ => fun c => Rgn1.dat (V10 m ρ) c
  | ⟨2, _⟩ => fun c => Rgn2.dat (V11 m ρ) c
  | ⟨3, _⟩ => fun c => Rgn3.dat (V12 m ρ) c
abbrev 𝒱₀ : Variants := Variants.none
abbrev L : GSem nD τ sig → Finset Unit := fun _ => ∅
abbrev lv : GSem nD τ sig → Unit → ℕ := fun _ _ => 0
/-- The part of the thread state that no item changes. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A region changes the valuation only at its windows' arrays, which end at their final contents. -/
def reg {p : Fin 4} (lf : Pipeline.LaunchFacts (nD := nD) (τ := τ) cfgs p) (Wa : Dev nD → Valuation τ sig (Elt F))
    (hb : ∀ c, BodyObligation (pdats m ρ p c) defs₀ 𝒱₀ () Set.univ)
    (hi : ∀ c, (Pipeline.ΦA (cfgs p).spec c : sProp 𝕄) ⊢ (pdats m ρ p c).Φ 0)
    (hl : ∀ c, (pdats m ρ p c).Φ (Fin.last (cfgs p).N) ⊢ (Pipeline.ΦA (cfgs p).spec c : sProp 𝕄))
    (hA : ∀ c w, (pdats m ρ p c).A w = Wa c (Proc.devRef .tc (Pipeline.arrRef (cfgs p).spec w)))
    (hq : ∀ c w, (pdats m ρ p c).q w = fullShare) (h0 : ∀ c t, (pdats m ρ p c).owed t = 0)
    (hr : ∀ c x, x ∈ (pdats m ρ p c).recorded 0) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wa c) ∗ R c)
  post c := iprop(StableHlo.held (c : Thread nD τ) (Pipeline.ucRefs τ sig)
    (Pipeline.withArrays (cfgs p).spec c (Wa c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wa c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wa c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0 c]
      icases HO with ⟨%W, HO⟩; iexists W; isplitr; · ipureintro; exact fun x _ => Or.inl (hr c x)
      iexact HO
    isplitl [Hp]; · iexact Hp
    iexact Hrest
  hin c := by
    refine .trans ?_ (hi c)
    unfold Pipeline.ΦA
    iintro ⟨Hp, -, Hr⟩
    isplitl [Hr] <;> iassumption
  hout c := by
    rw [Pipeline.ownSems0_none]
    refine (hl c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Wa c b)
      (fun b => Pipeline.withArrays (cfgs p).spec c (Wa c) (fun w => (pdats m ρ p c).arrAt w (cfgs p).N) b)
      ((pdats m ρ p c).arrAt · (cfgs p).N)
      (fun w => (Pipeline.withArrays_arr _ lf.win.arr_inj c _ ((pdats m ρ p c).arrAt · (cfgs p).N) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0 c]
    icases HO with ⟨%W, -, HO⟩; iexists W; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (reg m ρ launch0 (W1 m ρ) (Rgn0.body_obligation (V1 m ρ)) (Rgn0.hin (V1 m ρ)) (Rgn0.hout (V1 m ρ))
      (fun _ _ => rfl) (fun _ _ => rfl) (fun _ _ => rfl) fun _ _ => trivial),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .region (reg m ρ launch1 (W10 m ρ) (Rgn1.body_obligation (V10 m ρ)) (Rgn1.hin (V10 m ρ)) (Rgn1.hout (V10 m ρ))
      (fun _ _ => rfl) (fun _ _ => rfl) (fun _ _ => rfl) fun _ _ => trivial),
    .region (reg m ρ launch2 (W11 m ρ) (Rgn2.body_obligation (V11 m ρ)) (Rgn2.hin (V11 m ρ)) (Rgn2.hout (V11 m ρ))
      (fun _ _ => rfl) (fun _ _ => rfl) (fun _ _ => rfl) fun _ _ => trivial),
    .region (reg m ρ launch3 (W12 m ρ) (Rgn3.body_obligation (V12 m ρ)) (Rgn3.hin (V12 m ρ)) (Rgn3.hout (V12 m ρ))
      (fun _ _ => rfl) (fun _ _ => rfl) (fun _ _ => rfl) fun _ _ => trivial),
    .host (hseg hostOps4 hostOps4_sub hostOps4_fresh (W13 m ρ)) ]

theorem main_run (c : Dev nD) : main (F := F) c = Pipeline.Seg.run (segs m ρ) := (main_chain c).trans (by chain_rfl)

set_option backward.isDefEq.respectTransparency.types false in
/-- Every weakly fair run of @main from zero counters terminates without fault, each unscoped buffer ending at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W14 m ρ c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

end Cert.KernelIdeal.Whole

end
-- ==== Proof.KI.Frame.lean ====
import proofs.«412990_j12266426597865_3_alg».proof.Proof.KI.Whole

set_option maxRecDepth 16384

noncomputable section

namespace Cert.KernelIdeal.Whole

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg) (c : Dev nD) (r : Ref sig .tc)

/-- Nothing after the projection region touches `r`: no later host stretch writes it and it is no window's array of a later region. -/
abbrev Past : Prop :=
  r ∉ hostOps1_W ∧ r ∉ hostOps1_1_W ∧ r ∉ hostOps1_2_W ∧ r ∉ hostOps1_3_W ∧ r ∉ hostOps1_4_W ∧ r ∉ hostOps1_5_W ∧ r ∉ hostOps1_6_W
    ∧ r ∉ hostOps1_7_W ∧ r ∉ hostOps4_W ∧ (∀ w, Pipeline.arrRef spec1 w ≠ r) ∧ (∀ w, Pipeline.arrRef spec2 w ≠ r) ∧ ∀ w, Pipeline.arrRef spec3 w ≠ r

/-- Such a buffer ends as the projection region left it: walk the valuations back, each step leaving it alone. -/
theorem W14_of_W2 (h : Past r) : W14 m ρ c (Proc.devRef .tc r) = W2 m ρ c (Proc.devRef .tc r) := by
  obtain ⟨h1, h11, h12, h13, h14, h15, h16, h17, h4, a1, a2, a3⟩ := h
  exact (StableHlo.after_of_writes_sub _ _ hostOps4_writes h4).trans <|
    (W13_of_ne m ρ c r a3).trans <| (W12_of_ne m ρ c r a2).trans <| (W11_of_ne m ρ c r a1).trans <|
    (StableHlo.after_of_writes_sub _ _ hostOps1_7_writes h17).trans <|
    (StableHlo.after_of_writes_sub _ _ hostOps1_6_writes h16).trans <|
    (StableHlo.after_of_writes_sub _ _ hostOps1_5_writes h15).trans <|
    (StableHlo.after_of_writes_sub _ _ hostOps1_4_writes h14).trans <|
    (StableHlo.after_of_writes_sub _ _ hostOps1_3_writes h13).trans <|
    (StableHlo.after_of_writes_sub _ _ hostOps1_2_writes h12).trans <|
    (StableHlo.after_of_writes_sub _ _ hostOps1_1_writes h11).trans <|
    StableHlo.after_of_writes_sub _ _ hostOps1_writes h1

/-- A buffer that the first stretch and the projection region leave alone as well ends as launched. -/
theorem W14_of_first (h : (r ∉ hostOps0_W ∧ ∀ w, Pipeline.arrRef spec0 w ≠ r) ∧ Past r) :
    W14 m ρ c (Proc.devRef .tc r) = m ((c : Thread nD τ).loc r) :=
  (W14_of_W2 m ρ c r h.2).trans <| (W2_of_ne m ρ c r h.1.2).trans <|
    (StableHlo.after_of_writes_sub _ _ hostOps0_writes h.1.1).trans rfl

theorem W14_of_bypass
    (h0 : r ∉ hostOps0_W) (h1 : r ∉ hostOps1_W) (h11 : r ∉ hostOps1_1_W) (h12 : r ∉ hostOps1_2_W) (h13 : r ∉ hostOps1_3_W)
    (h14 : r ∉ hostOps1_4_W) (h15 : r ∉ hostOps1_5_W) (h16 : r ∉ hostOps1_6_W) (h17 : r ∉ hostOps1_7_W) (h4 : r ∉ hostOps4_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) :
    W14 m ρ c (Proc.devRef .tc r) = m ((c : Thread nD τ).loc r) :=
  W14_of_first m ρ c r ⟨⟨h0, a0⟩, h1, h11, h12, h13, h14, h15, h16, h17, h4, a1, a2, a3⟩

/-- The node features are only read by the projection region, so their array is unchanged across it. -/
theorem W14_main_arg0 : W14 m ρ c (Proc.devRef .tc main_arg0) = m ((c : Thread nD τ).loc main_arg0) :=
  (W14_of_W2 m ρ c main_arg0 (by decide)).trans <|
  (W2_arr m ρ c 0).trans <| ((Rgn0.dat (V1 m ρ) c).arrAt_in 0 rfl _).trans <| (Rgn0.A_eq (V1 m ρ) c 0).trans <|
  (StableHlo.after_of_writes_sub _ _ hostOps0_writes (by decide)).trans rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
    have k : ∀ a : Ref sig .tc, ¬ (Proc.devRef .tc a : DevRef τ sig).isScoped → (a ∉ hostOps0_W ∧ ∀ w, Pipeline.arrRef spec0 w ≠ a) ∧ Past a →
        s.2.mem ((c.tc : Thread nD τ).loc a) = m ((c.tc : Thread nD τ).loc a) :=
      fun a hu ha => (h c _ (mem_uc a hu)).trans (W14_of_first m ρ c a ha)
    ⟨(h c _ (mem_uc main_arg0 (by decide))).trans (W14_main_arg0 m ρ c), k main_arg1 (by decide) (by decide),
     k main_arg2 (by decide) (by decide), k main_arg3 (by decide) (by decide), k main_arg4 (by decide) (by decide),
     k main_arg5 (by decide) (by decide), k main_arg6 (by decide) (by decide), k main_arg7 (by decide) (by decide)⟩)
    (run_all m ρ)

end Cert.KernelIdeal.Whole

end
-- ==== Proof.KI.Args.lean ====
import proofs.«412990_j12266426597865_3_alg».proof.Proof.KI.Whole
import proofs.«412990_j12266426597865_3_alg».proof.Proof.AttnSpec
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

abbrev aX : S4x10000x64.Idx → EReal := m ((c : Thread nD τ).loc main_arg0)
abbrev aQw : S128x64.Idx → EReal := m ((c : Thread nD τ).loc main_arg1)
abbrev aQb : S128.Idx → EReal := m ((c : Thread nD τ).loc main_arg2)
abbrev aKw : S128x64.Idx → EReal := m ((c : Thread nD τ).loc main_arg3)
abbrev aKb : S128.Idx → EReal := m ((c : Thread nD τ).loc main_arg4)
abbrev aVw : S128x64.Idx → EReal := m ((c : Thread nD τ).loc main_arg5)
abbrev aVb : S128.Idx → EReal := m ((c : Thread nD τ).loc main_arg6)
abbrev aE : S2x160000.Idx → BitVec 32 := m ((c : Thread nD τ).loc main_arg7)

-- The float arguments the scores are made of are reals; every index word is a node.
abbrev RealIn : Prop :=
  (∀ i, ∃ r : ℝ, aX m c i = (r : EReal)) ∧ (∀ i, ∃ r : ℝ, aQw m c i = (r : EReal)) ∧ (∀ i, ∃ r : ℝ, aQb m c i = (r : EReal))
    ∧ (∀ i, ∃ r : ℝ, aKw m c i = (r : EReal)) ∧ (∀ i, ∃ r : ℝ, aKb m c i = (r : EReal))
abbrev NodeIn : Prop := ∀ i, 0 ≤ (aE m c i).toInt ∧ (aE m c i).toInt < 10000

-- Projection `k` of the node features: query, key, value.
def prj (k : Fin 3) : Fin 4 → Fin 10000 → Fin 128 → EReal :=
  AttnSpec.proj (fun b n f => aX m c (ix3 b n f)) (fun a f => ![aQw m c, aKw m c, aVw m c] k (ix2 a f))
    (fun a => ![aQb m c, aKb m c, aVb m c] k (ix1 a))
def srcN : Fin 160000 → Fin 10000 := fun e => AttnSpec.node (aE m c (ix2 (0 : Fin 2) e))
def dstN : Fin 160000 → Fin 10000 := fun e => AttnSpec.node (aE m c (ix2 (1 : Fin 2) e))
def pS : Fin 4 → Fin 160000 → Fin 8 → EReal := AttnSpec.score (prj m c 0) (prj m c 1) (srcN m c) (dstN m c)

-- The padded scores as the scores region leaves them.
abbrev sArr : S4x8x161792.Idx → EReal := W11 m ρ c (Proc.devRef .tc main_v16)

end Cert.KernelIdeal.Whole

end
-- ==== Proof.KI.Val0.lean ====
import proofs.«412990_j12266426597865_3_alg».proof.Proof.KI.Rgn0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev xArr (c : Dev nD) : S4x10000x64.Idx → EReal := V c main_arg0
abbrev wArr (c : Dev nD) : S64x384.Idx → EReal := V c main_v1
abbrev bArr (c : Dev nD) : S384.Idx → EReal := V c main_v2

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

theorem idx_facts : ∀ t : Fin cfg0.N, win0_0.index t (2 : Fin 3) = 0 ∧ win0_1.index t = ![0, 0] ∧ win0_2.index t = ![0]
    ∧ win0_3.index t = win0_0.index t ∧ win0_4.index t = win0_0.index t ∧ win0_5.index t = win0_0.index t :=
  (by decide +kernel : ∀ t : Fin grid0.N, _)

theorem idx_onto : ∀ q0 < 4, ∀ q1 < 10, ∃ t : Fin cfg0.N, win0_0.index t (0 : Fin 3) = q0 ∧ win0_0.index t (1 : Fin 3) = q1 :=
  (by decide +kernel : ∀ q0 < 4, ∀ q1 < 10, ∃ t : Fin grid0.N, _)

theorem idx3_ext {n : Fin 3 → ℕ} {x y : (a : Fin 3) → Fin (n a)} (h0 : (x 0 : ℕ) = y 0) (h1 : (x 1 : ℕ) = y 1)
    (h2 : (x 2 : ℕ) = y 2) : x = y :=
  funext fun a => Fin.ext (match a with | ⟨0, _⟩ => h0 | ⟨1, _⟩ => h1 | ⟨2, _⟩ => h2)

-- Rounding is the identity and a product accumulated into zero is the plain sum.
theorem project_apply (x : Vec Ideal S1x1000x64 .f32) (wt : Vec Ideal S64x384 .f32) (bs : Vec Ideal S384 .f32)
    (r : Fin 1000) (col : Fin 384) :
    (k0_pay1 x wt bs : S1000x384.Idx → EReal) (ix2 r col)
      = (∑ f : Fin 64, (x : S1x1000x64.Idx → EReal) (ix3 (0 : Fin 1) r f) * (wt : S64x384.Idx → EReal) (ix2 f col))
        + (bs : S384.Idx → EReal) (ix1 col) := by
  unfold k0_pay1
  show matmul (F := Ideal) _ none _ _ _ (ix2 r col) + (broadcastTo S1000x384 _ _ : FVec Ideal S1000x384 .f32) (ix2 r col) = _
  refine congrArg₂ (· + ·) ?_ ?_
  · refine (Ideal.matmul_constant_zero_apply _ none _ _ (ix2 r col)).trans ?_
    rw [← Equiv.sum_comp (contrEquiv1 dot_S1000x64_S64x384_S1000x384_1_0_0_1_n_n 64 rfl rfl).symm]
    refine Finset.sum_congr rfl fun f _ => ?_
    rw [show dot_S1000x64_S64x384_S1000x384_1_0_0_1_n_n.lhsIdx (ix2 r col) ((contrEquiv1 _ 64 rfl rfl).symm f) = ix2 r f from Shape.idx_ext₂ rfl rfl,
      show dot_S1000x64_S64x384_S1000x384_1_0_0_1_n_n.rhsIdx (ix2 r col) ((contrEquiv1 _ 64 rfl rfl).symm f) = ix2 f col from Shape.idx_ext₂ rfl rfl]
    show (shapeCast S1000x64 x _ : FVec Ideal S1000x64 .f32) (ix2 r f) * (shapeCast S64x384 wt _ : FVec Ideal S64x384 .f32) (ix2 f col) = _
    rw [shapeCast_1ab_ab_apply, shapeCast_self]
  · refine (broadcastTo_1b_ab_apply _ _ r col).trans ((shapeCast_a_1a_apply _ _ 0 col).trans ?_)
    rw [shapeCast_self]

-- At a point the three blocks are rows 1000 n … of batch b of x, all of the weights and all of the bias.
theorem point_apply (c : Dev nD) (t : Fin cfg0.N) (r : Fin 1000) (col : Fin 384) (b : Fin 4) (n : Fin 10000)
    (hb : b.val = win0_0.index t (0 : Fin 3)) (hn : n.val = win0_0.index t (1 : Fin 3) * 1000 + r.val) :
    k0_pay1 (Rgn0.iblk V c 0 t) (Rgn0.iblk V c 1 t) (Rgn0.iblk V c 2 t) (ix2 r col)
      = (∑ f : Fin 64, xArr V c (ix3 b n f) * wArr V c (ix2 f col)) + bArr V c (ix1 col) := by
  obtain ⟨h2, e1, e2, -⟩ := idx_facts t
  have e10 : win0_1.index t (0 : Fin 2) = 0 := congrFun e1 0
  have e11 : win0_1.index t (1 : Fin 2) = 0 := congrFun e1 1
  have e20 : win0_2.index t (0 : Fin 1) = 0 := congrFun e2 0
  refine (project_apply _ _ _ r col).trans (congrArg₂ (· + ·) (Finset.sum_congr rfl fun f _ => congrArg₂ (· * ·) ?_ ?_) ?_)
  · refine congrArg (V c main_arg0) (idx3_ext ?_ ?_ ?_)
    · show win0_0.index t (0 : Fin 3) * 1 + 1 * 0 = b.val; omega
    · show win0_0.index t (1 : Fin 3) * 1000 + 1 * r.val = n.val; omega
    · show win0_0.index t (2 : Fin 3) * 64 + 1 * f.val = f.val; omega
  · refine congrArg (V c main_v1) (Shape.idx_ext₂ ?_ ?_)
    · show win0_1.index t (0 : Fin 2) * 64 + 1 * f.val = f.val; omega
    · show win0_1.index t (1 : Fin 2) * 384 + 1 * col.val = col.val; omega
  · refine congrArg (V c main_v2) (funext fun a => Fin.ext ?_)
    match a with
    | ⟨0, _⟩ => show win0_2.index t (0 : Fin 1) * 384 + 1 * col.val = col.val; omega

-- Entry (b, n, a) of a 128-column slice of x · w + bias, k a the slice's column a.
def proj (c : Dev nD) (k : Fin 128 → Fin 384) : S4x10000x128.Idx → EReal := fun i =>
  (∑ f : Fin 64, xArr V c (ix3 (i 0) (i 1) f) * wArr V c (ix2 f (k (i 2)))) + bArr V c (ix1 (k (i 2)))

-- Each output block is a 128-column slice, from column o, of the point's product plus bias, with a unit axis in front.
theorem block_apply (c : Dev nD) (t : Fin cfg0.N) (o : Nat) (hs : S1000x384.Slices ![0, o] S1000x128) (k : Fin 128 → Fin 384)
    (hk : ∀ a, (k a).val = o + a.val)
    (pay : Vec Ideal S1x1000x64 .f32 → Vec Ideal S64x384 .f32 → Vec Ideal S384 .f32 → S1x1000x128.Idx → EReal)
    (hp : ∀ x wt bs, pay x wt bs
      = shapeCast S1x1000x128 (extractStridedSlice S1000x128 ![0, o] (k0_pay1 x wt bs) hs) shapeCasts_S1000x128_S1x1000x128)
    (idx : Fin 3 → Nat) (he : idx = win0_0.index t) (j : S1x1000x128.Idx) (i : S4x10000x128.Idx)
    (hi : ∀ a, (i a).val = idx a * S1x1000x128.size a + (j a).val) :
    pay (Rgn0.iblk V c 0 t) (Rgn0.iblk V c 1 t) (Rgn0.iblk V c 2 t) j = proj V c k i := by
  subst he
  have h0 : (i 0).val = win0_0.index t (0 : Fin 3) * 1 + (j 0).val := hi 0
  have h1 : (i 1).val = win0_0.index t (1 : Fin 3) * 1000 + (j 1).val := hi 1
  have h2 : (i 2).val = win0_0.index t (2 : Fin 3) * 128 + (j 2).val := hi 2
  have hj0 : (j 0).val < 1 := (j 0).isLt
  have z2 := (idx_facts t).1
  have hc : k (j 2) = k (i 2) := congrArg k (Fin.ext (by omega))
  refine (congrFun (hp _ _ _) j).trans ((congrArg _ (eq_ix3 j)).trans ((shapeCast_ab_1ab_apply _ _ (j 0) (j 1) (j 2)).trans
    ((slice2_axis1_apply o _ hs (j 1) (j 2) (k (j 2)) (hk _)).trans
      ((point_apply V c t (j 1) (k (j 2)) (i 0) (i 1) (by omega) (by omega)).trans ?_))))
  rw [hc]; rfl

-- Every array index is in the block of the point at (batch, row / 1000).
theorem cover (idx : Fin cfg0.N → Fin 3 → Nat) (he : ∀ t, idx t = win0_0.index t) (i : S4x10000x128.Idx) :
    ∃ t : Fin cfg0.N, ∀ a : Fin 3, idx t a * S1x1000x128.size a ≤ (i a).val
      ∧ (i a).val < idx t a * S1x1000x128.size a + S1x1000x128.size a := by
  have hi0 : (i 0).val < 4 := (i 0).isLt
  have hi1 : (i 1).val < 10000 := (i 1).isLt
  have hi2 : (i 2).val < 128 := (i 2).isLt
  obtain ⟨t, ht0, ht1⟩ := idx_onto _ hi0 ((i 1).val / 1000) (by omega)
  have z2 := (idx_facts t).1
  refine ⟨t, fun a => ?_⟩
  rw [he t]
  match a with
  | ⟨0, _⟩ => show win0_0.index t (0 : Fin 3) * 1 ≤ (i 0).val ∧ (i 0).val < win0_0.index t (0 : Fin 3) * 1 + 1; omega
  | ⟨1, _⟩ => show win0_0.index t (1 : Fin 3) * 1000 ≤ (i 1).val ∧ (i 1).val < win0_0.index t (1 : Fin 3) * 1000 + 1000; omega
  | ⟨2, _⟩ => show win0_0.index t (2 : Fin 3) * 128 ≤ (i 2).val ∧ (i 2).val < win0_0.index t (2 : Fin 3) * 128 + 128; omega

theorem final_query (c : Dev nD) (b : Fin 4) (n : Fin 10000) (a : Fin 128) :
    ((Rgn0.dat V c).arrAt 3 cfg0.N : S4x10000x128.Idx → EReal) (ix3 b n a)
      = (∑ f : Fin 64, xArr V c (ix3 b n f) * wArr V c (ix2 f ⟨a.val, by omega⟩)) + bArr V c (ix1 ⟨a.val, by omega⟩) := by
  refine congrFun ((Rgn0.dat V c).arrAt_eq_of_cover 3 (proj V c fun a => ⟨a.val, by omega⟩) (fun t _ => ?_) fun i => ?_) (ix3 b n a)
  · show (cfg0.win 3).cut (grid0.coords t) ((Rgn0.dat V c).after 3 t) = _
    rw [Rgn0.after_sliceLo]
    unfold Rgn0.sliceLo
    rw [View.canon_unit_zero hz3]
    simp only [View.ld_unit_zero (S := S1x1000x64) hz3, View.ld_unit_zero (S := S64x384) hz2, View.ld_unit_zero (S := S384) hz1]
    refine funext fun j => ?_
    rw [View.read_apply]
    refine (block_apply V c t 0 slices_S1000x384_o0_0_S1000x128 _ (fun a => (Nat.zero_add _).symm) k0_pay2 (fun _ _ _ => rfl)
      _ (idx_facts t).2.2.2.1 j _ fun a => win0_3.rect_emb_val t j a).trans (cast_eq _ _).symm
  · refine (cover win0_3.index (fun t => (idx_facts t).2.2.2.1) i).imp fun t h => ⟨flush0_3 t, ?_⟩
    show i ∈ ((View.whole main_v3_0).slice (win0_3.rect t)).set
    rw [View.set_slice_whole, Rect.mem_set_unit]
    exact h

theorem final_key (c : Dev nD) (b : Fin 4) (n : Fin 10000) (a : Fin 128) :
    ((Rgn0.dat V c).arrAt 4 cfg0.N : S4x10000x128.Idx → EReal) (ix3 b n a)
      = (∑ f : Fin 64, xArr V c (ix3 b n f) * wArr V c (ix2 f ⟨128 + a.val, by omega⟩)) + bArr V c (ix1 ⟨128 + a.val, by omega⟩) := by
  refine congrFun ((Rgn0.dat V c).arrAt_eq_of_cover 4 (proj V c fun a => ⟨128 + a.val, by omega⟩) (fun t _ => ?_) fun i => ?_) (ix3 b n a)
  · show (cfg0.win 4).cut (grid0.coords t) ((Rgn0.dat V c).after 4 t) = _
    rw [Rgn0.after_sliceMid]
    unfold Rgn0.sliceMid
    rw [View.canon_unit_zero hz3]
    simp only [View.ld_unit_zero (S := S1x1000x64) hz3, View.ld_unit_zero (S := S64x384) hz2, View.ld_unit_zero (S := S384) hz1]
    refine funext fun j => ?_
    rw [View.read_apply]
    refine (block_apply V c t 128 slices_S1000x384_o0_128_S1000x128 _ (fun a => rfl) k0_pay3 (fun _ _ _ => rfl)
      _ (idx_facts t).2.2.2.2.1 j _ fun a => win0_4.rect_emb_val t j a).trans (cast_eq _ _).symm
  · refine (cover win0_4.index (fun t => (idx_facts t).2.2.2.2.1) i).imp fun t h => ⟨flush0_4 t, ?_⟩
    show i ∈ ((View.whole main_v3_1).slice (win0_4.rect t)).set
    rw [View.set_slice_whole, Rect.mem_set_unit]
    exact h

theorem final_value (c : Dev nD) (b : Fin 4) (n : Fin 10000) (a : Fin 128) :
    ((Rgn0.dat V c).arrAt 5 cfg0.N : S4x10000x128.Idx → EReal) (ix3 b n a)
      = (∑ f : Fin 64, xArr V c (ix3 b n f) * wArr V c (ix2 f ⟨256 + a.val, by omega⟩)) + bArr V c (ix1 ⟨256 + a.val, by omega⟩) := by
  refine congrFun ((Rgn0.dat V c).arrAt_eq_of_cover 5 (proj V c fun a => ⟨256 + a.val, by omega⟩) (fun t _ => ?_) fun i => ?_) (ix3 b n a)
  · show (cfg0.win 5).cut (grid0.coords t) ((Rgn0.dat V c).after 5 t) = _
    rw [Rgn0.after_sliceHi]
    unfold Rgn0.sliceHi
    rw [View.canon_unit_zero hz3]
    simp only [View.ld_unit_zero (S := S1x1000x64) hz3, View.ld_unit_zero (S := S64x384) hz2, View.ld_unit_zero (S := S384) hz1]
    refine funext fun j => ?_
    rw [View.read_apply]
    refine (block_apply V c t 256 slices_S1000x384_o0_256_S1000x128 _ (fun a => rfl) k0_pay4 (fun _ _ _ => rfl)
      _ (idx_facts t).2.2.2.2.2 j _ fun a => win0_5.rect_emb_val t j a).trans (cast_eq _ _).symm
  · refine (cover win0_5.index (fun t => (idx_facts t).2.2.2.2.2) i).imp fun t h => ⟨flush0_5 t, ?_⟩
    show i ∈ ((View.whole main_v3_2).slice (win0_5.rect t)).set
    rw [View.set_slice_whole, Rect.mem_set_unit]
    exact h

end Cert.KernelIdeal.Val0

end
-- ==== Proof.KI.HostReads.lean ====
import proofs.«412990_j12266426597865_3_alg».proof.Proof.Gen.KernelIdeal.Launch
import proofs.«412990_j12266426597865_3_alg».proof.Proof.Gen.KernelIdeal.Regions
import proofs.«412990_j12266426597865_3_alg».proof.Proof.AttnSpec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal

set_option maxRecDepth 16384

noncomputable section

namespace Cert.KernelIdeal.HostReads

open Cert.KernelIdeal Cert.KernelIdeal.Gen
open Idealize.ShloMosaic Idealize.ShloMosaic.TcCoe Idealize.ShloMosaic.ValueIdx Idealize.ShloMosaic.StableHlo

section Reads
variable {α : Type}

-- Padding behind along the node axis moves no entry.
theorem padNodes_apply (x : S4x10000x128.Idx → α) (v : S_.Idx → α) (b : Fin 4) (n : Fin 10000) (a : Fin 128)
    (hn : n.val < 10240) :
    pad S4x10240x128 ![0, 0, 0] ![0, 240, 0] ![0, 0, 0] x v pads_S4x10000x128_S4x10240x128_000_02400_000 h_S_
      (ix3 b ⟨n.val, hn⟩ a) = x (ix3 b n a) :=
  pad_apply_of_inside _ _ _ x v _ _ _ (ix3 b n a) fun c => match c with
    | ⟨0, _⟩ => by show b.val = 0 + b.val * (0 + 1); omega
    | ⟨1, _⟩ => by show n.val = 0 + n.val * (0 + 1); omega
    | ⟨2, _⟩ => by show a.val = 0 + a.val * (0 + 1); omega

-- In node-major order with the batch axis folded into the features, (n, 128 b + a) and (n, b, a) are one row-major position.
theorem foldBatch_apply (x : S4x10240x128.Idx → α) (b : Fin 4) (n : Fin 10240) (a : Fin 128)
    (h : 128 * b.val + a.val < 512) :
    shapeCast S10240x512 (transpose S10240x4x128 [1, 0, 2] x transposes_S4x10240x128_S10240x4x128_1_0_2)
      shapeCasts_S10240x4x128_S10240x512 (ix2 n ⟨128 * b.val + a.val, h⟩) = x (ix3 b n a) := by
  refine (shapeCast_apply _ _ (ix2 n ⟨128 * b.val + a.val, h⟩) (ix3 n b a) ?_).trans
    (transpose_apply _ _ _ (ix3 n b a) (ix3 b n a) fun c => match c with | ⟨0, _⟩ => rfl | ⟨1, _⟩ => rfl | ⟨2, _⟩ => rfl)
  rw [Shape.rowMajor_val_three, Shape.rowMajor_val_two]
  show (n.val * 4 + b.val) * 128 + a.val = n.val * 512 + (128 * b.val + a.val)
  omega

-- A vector padded behind: itself below its length, the padding value from there on.
theorem padVec_apply (x : S160000.Idx → α) (v : S_.Idx → α) (e' : Fin 161792) :
    pad S161792 ![0] ![1792] ![0] x v pads_S160000_S161792_017920 h_S_ (ix1 e')
      = if h : e'.val < 160000 then x (ix1 ⟨e'.val, h⟩) else v ix0 := by
  by_cases h : e'.val < 160000
  · rw [dif_pos h]
    exact pad_apply_of_inside _ _ _ x v _ _ _ (ix1 ⟨e'.val, h⟩) fun c => match c with
      | ⟨0, _⟩ => by show e'.val = 0 + e'.val * (0 + 1); omega
  · rw [dif_neg h]
    refine (pad_apply_of_not_inside _ _ _ x v _ _ (ix1 e') (0 : Fin 1) ?_).trans (congrArg v (eq_ix0 _))
    show ¬(0 ≤ e'.val ∧ (e'.val - 0) % (0 + 1) = 0 ∧ (e'.val - 0) / (0 + 1) < 160000)
    omega

-- Row `r` of the two-row index array, cut out, flattened and padded behind with the zero word.
theorem padRow_apply (x : S2x160000.Idx → BitVec 32) (r : Fin 2) (h : S2x160000.Slices ![r.val, 0] S1x160000)
    (e' : Fin 161792) :
    pad S161792 ![0] ![1792] ![0]
        (shapeCast S160000 (extractStridedSlice S1x160000 ![r.val, 0] x h) shapeCasts_S1x160000_S160000)
        (constantI S_ 32 0#32) pads_S160000_S161792_017920 h_S_ (ix1 e')
      = if h : e'.val < 160000 then x (ix2 r ⟨e'.val, h⟩) else 0#32 :=
  (padVec_apply _ _ e').trans (dite_congr rfl
    (fun h => (shapeCast_1a_a_apply _ _ _).trans (slice2_axis0_apply r.val x _ (0 : Fin 1) ⟨e'.val, h⟩ r rfl))
    fun _ => rfl)

end Reads

variable (W : Valuation τ sig (Elt Ideal))

abbrev A : Valuation τ sig (Elt Ideal) := StableHlo.after hostOps0 W

abbrev B : Valuation τ sig (Elt Ideal) :=
  StableHlo.after hostOps1_7 (StableHlo.after hostOps1_6 (StableHlo.after hostOps1_5 (StableHlo.after hostOps1_4
    (StableHlo.after hostOps1_3 (StableHlo.after hostOps1_2 (StableHlo.after hostOps1_1 (StableHlo.after hostOps1 W)))))))

abbrev C : Valuation τ sig (Elt Ideal) := StableHlo.after hostOps4 W

-- The three weight matrices and the three biases, as families over `Fin 3` (query, key, value).
abbrev wts : Fin 3 → S128x64.Idx → EReal :=
  ![W (Proc.devRef .tc main_arg1), W (Proc.devRef .tc main_arg3), W (Proc.devRef .tc main_arg5)]
abbrev bss : Fin 3 → S128.Idx → EReal :=
  ![W (Proc.devRef .tc main_arg2), W (Proc.devRef .tc main_arg4), W (Proc.devRef .tc main_arg6)]

-- The weights are stacked by rows and the stack transposed: column `128 k + a` is row `a` of matrix `k`.
theorem A_v1_apply (k : Fin 3) (f : Fin 64) (a : Fin 128) (j : Fin 384) (hj : j.val = 128 * k.val + a.val) :
    (A W (Proc.devRef .tc main_v1) : S64x384.Idx → EReal) (ix2 f j) = wts W k (ix2 a f) := by
  after_results
  exact (transpose_ix2_apply _ _ f j).trans (concatenate_ofFn_apply (t := S384x64) (s₁ := S128x64) (0 : Fin 2) (wts W) _ rfl
    128 rfl (ix2 j f) k (by show j.val / 128 = k.val; omega) (ix2 a f) (by show a.val = j.val % 128; omega)
    fun b hb => match b with | ⟨0, _⟩ => absurd rfl hb | ⟨1, _⟩ => rfl)

-- The biases are laid end to end: entry `128 k + a` is entry `a` of bias `k`.
theorem A_v2_apply (k : Fin 3) (a : Fin 128) (j : Fin 384) (hj : j.val = 128 * k.val + a.val) :
    (A W (Proc.devRef .tc main_v2) : S384.Idx → EReal) (ix1 j) = bss W k (ix1 a) := by
  after_results
  exact concatenate_ofFn_apply (t := S384) (s₁ := S128) (0 : Fin 1) (bss W) _ rfl 128 rfl (ix1 j) k
    (by show j.val / 128 = k.val; omega) (ix1 a) (by show a.val = j.val % 128; omega)
    fun b hb => match b with | ⟨0, _⟩ => absurd rfl hb

theorem A_of_not_written (r : Ref sig .tc) (h : r ∉ hostOps0_W) :
    A W (Proc.devRef .tc r) = W (Proc.devRef .tc r) :=
  StableHlo.after_of_writes_sub hostOps0 _ hostOps0_writes h

-- Column `128 b + a` of row `n < 10000` of the padded, folded queries is the query projection at `(b, n, a)`.
theorem B_v7_apply (b : Fin 4) (n : Fin 10000) (a : Fin 128) :
    (B W (Proc.devRef .tc main_v7) : S10240x512.Idx → EReal) (ix2 ⟨n.val, by omega⟩ ⟨128 * b.val + a.val, by omega⟩)
      = (W (Proc.devRef .tc main_v3_0) : S4x10000x128.Idx → EReal) (ix3 b n a) := by
  after_results
  exact (foldBatch_apply _ b _ a _).trans (padNodes_apply _ _ b n a _)

theorem B_v9_apply (b : Fin 4) (n : Fin 10000) (a : Fin 128) :
    (B W (Proc.devRef .tc main_v9) : S10240x512.Idx → EReal) (ix2 ⟨n.val, by omega⟩ ⟨128 * b.val + a.val, by omega⟩)
      = (W (Proc.devRef .tc main_v3_1) : S4x10000x128.Idx → EReal) (ix3 b n a) := by
  after_results
  exact (foldBatch_apply _ b _ a _).trans (padNodes_apply _ _ b n a _)

-- The padded index rows: the edge's source (row 0) and destination (row 1) below 160000, the zero word from there on.
theorem B_v12_apply (e' : Fin 161792) :
    (B W (Proc.devRef .tc main_v12) : S161792.Idx → BitVec 32) (ix1 e')
      = if h : e'.val < 160000 then (W (Proc.devRef .tc main_arg7) : S2x160000.Idx → BitVec 32) (ix2 (0 : Fin 2) ⟨e'.val, h⟩)
        else 0#32 := by
  after_results
  exact padRow_apply _ 0 _ e'

theorem B_v15_apply (e' : Fin 161792) :
    (B W (Proc.devRef .tc main_v15) : S161792.Idx → BitVec 32) (ix1 e')
      = if h : e'.val < 160000 then (W (Proc.devRef .tc main_arg7) : S2x160000.Idx → BitVec 32) (ix2 (1 : Fin 2) ⟨e'.val, h⟩)
        else 0#32 := by
  after_results
  exact padRow_apply _ 1 _ e'

theorem B_main_v3_2 : B W (Proc.devRef .tc main_v3_2) = W (Proc.devRef .tc main_v3_2) := by
  after_results

-- Splitting the feature axis into heads and swapping the two new axes: `(b, n, d, h)` reads feature `16 h + d`.
theorem C_v20_apply (b : Fin 4) (n : Fin 10000) (d : Fin 16) (h : Fin 8) :
    (C W (Proc.devRef .tc main_v20) : S4x10000x16x8.Idx → EReal) (ix4 b n d h)
      = (W (Proc.devRef .tc main_v3_2) : S4x10000x128.Idx → EReal) (ix3 b n (AttnSpec.feat h d)) := by
  after_results
  refine (transpose_apply _ _ _ (ix4 b n d h) (ix4 b n h d)
    fun c => match c with | ⟨0, _⟩ => rfl | ⟨1, _⟩ => rfl | ⟨2, _⟩ => rfl | ⟨3, _⟩ => rfl).trans
    (shapeCast_apply _ _ (ix4 b n h d) (ix3 b n (AttnSpec.feat h d)) ?_)
  rw [Shape.rowMajor_val_three, Shape.rowMajor_val_four]
  show (b.val * 10000 + n.val) * 128 + (16 * h.val + d.val) = ((b.val * 10000 + n.val) * 8 + h.val) * 16 + d.val
  omega

theorem C_of_not_written (r : Ref sig .tc) (h : r ∉ hostOps4_W) :
    C W (Proc.devRef .tc r) = W (Proc.devRef .tc r) :=
  StableHlo.after_of_writes_sub hostOps4 _ hostOps4_writes h

end Cert.KernelIdeal.HostReads

end
-- ==== Proof.KI.Glue0.lean ====
import proofs.«412990_j12266426597865_3_alg».proof.Proof.KI.Args
import proofs.«412990_j12266426597865_3_alg».proof.Proof.KI.Val0
import proofs.«412990_j12266426597865_3_alg».proof.Proof.KI.HostReads

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

-- With the weights stacked and transposed and the biases joined, the product at column `128 k + a` is projection `k` at feature `a`.
theorem entry_proj (k : Fin 3) (b : Fin 4) (n : Fin 10000) (a : Fin 128) (j : Fin 384) (hj : j.val = 128 * k.val + a.val) :
    (∑ f : Fin 64, Val0.xArr (V1 m ρ) c (ix3 b n f) * (V1 m ρ c main_v1 : S64x384.Idx → EReal) (ix2 f j))
      + (V1 m ρ c main_v2 : S384.Idx → EReal) (ix1 j) = prj m c k b n a :=
  congrArg₂ (· + ·) (Finset.sum_congr rfl fun f _ => congrArg₂ (· * ·)
    (congrFun (HostReads.A_of_not_written (W0 m ρ c) main_arg0 (by decide)) _) (HostReads.A_v1_apply (W0 m ρ c) k f a j hj))
    (HostReads.A_v2_apply (W0 m ρ c) k a j hj)

theorem qArr_eq (b : Fin 4) (n : Fin 10000) (a : Fin 128) :
    (W2 m ρ c (Proc.devRef .tc main_v3_0) : S4x10000x128.Idx → EReal) (ix3 b n a) = prj m c 0 b n a :=
  (congrFun (W2_arr m ρ c 3) _).trans <| (Val0.final_query (V1 m ρ) c b n a).trans (entry_proj m ρ c 0 b n a _ (by simp))

theorem kArr_eq (b : Fin 4) (n : Fin 10000) (a : Fin 128) :
    (W2 m ρ c (Proc.devRef .tc main_v3_1) : S4x10000x128.Idx → EReal) (ix3 b n a) = prj m c 1 b n a :=
  (congrFun (W2_arr m ρ c 4) _).trans <| (Val0.final_key (V1 m ρ) c b n a).trans (entry_proj m ρ c 1 b n a _ (by simp))

theorem vArr_eq (b : Fin 4) (n : Fin 10000) (a : Fin 128) :
    (W2 m ρ c (Proc.devRef .tc main_v3_2) : S4x10000x128.Idx → EReal) (ix3 b n a) = prj m c 2 b n a :=
  (congrFun (W2_arr m ρ c 5) _).trans <| (Val0.final_value (V1 m ρ) c b n a).trans (entry_proj m ρ c 2 b n a _ (by simp))

end Cert.KernelIdeal.Whole

end
-- ==== Proof.KI.Val1.Pieces.lean ====
import proofs.«412990_j12266426597865_3_alg».proof.Proof.KI.Rgn1
import Idealize.ShloMosaic.Lib.Pipeline.Value
import Idealize.ShloMosaic.Lib.Tactic

set_option maxRecDepth 16384

noncomputable section

namespace Cert.KernelIdeal.Val1

open Cert.KernelIdeal Cert.KernelIdeal.Gen Cert.KernelIdeal.Rgn1
open Idealize.ShloMosaic Idealize.ShloMosaic.TcCoe Idealize.ShloMosaic.Tactic
open Idealize.SL.Sem
open Idealize.ShloMosaic.Pipeline (Dat)

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

theorem rdq (gq : Vec F S2048x512 .f32) : View.read (Elt F) (View.whole cc1_scratch0) ((Memref.isWhole_whole cc1_scratch0).unread gq) = gq :=
  (Memref.isWhole_whole cc1_scratch0).read_unread gq
theorem rdk (gk : Vec F S2048x512 .f32) : View.read (Elt F) (View.whole cc1_scratch1) ((Memref.isWhole_whole cc1_scratch1).unread gk) = gk :=
  (Memref.isWhole_whole cc1_scratch1).read_unread gk

/-- One point's update of the two accumulators: each adds its gather step onto what it held. -/
def step (i : grid1.Coords) (q k : Vec F S512x512 .bf16) (src dst : Vec F S2048 .i32) (gq gk : Vec F S2048x512 .f32) :
    Vec F S2048x512 .f32 × Vec F S2048x512 .f32 :=
  (k1_pay12 i src q gq, k1_pay1 (k1_pay13 i dst k gk))

/-- The four score slices of a last node tile, one per batch entry, from the accumulators' updated contents. -/
def scorePieces (G : Vec F S2048x512 .f32 × Vec F S2048x512 .f32) : List (View.Piece (Elt F) S4x8x2048 .f32) :=
  [⟨Rect.unit (s := S4x8x2048) ![3, 0, 0] S1x8x2048.size inb_S4x8x2048_S1x8x2048_3_0_0, k1_pay4 (k1_pay5 G.1 G.2) (k1_pay6 (F := F))⟩,
   ⟨Rect.unit (s := S4x8x2048) ![2, 0, 0] S1x8x2048.size inb_S4x8x2048_S1x8x2048_2_0_0, k1_pay3 (k1_pay5 G.1 G.2) (k1_pay6 (F := F))⟩,
   ⟨Rect.unit (s := S4x8x2048) ![1, 0, 0] S1x8x2048.size inb_S4x8x2048_S1x8x2048_1_0_0, k1_pay2 (k1_pay8 G.1 G.2)⟩,
   ⟨Rect.unit (s := S4x8x2048) ![0, 0, 0] S1x8x2048.size inb_S4x8x2048_S1x8x2048_0_0_0, k1_pay7 G.1 G.2⟩]

section Point
variable (c : Dev nD) (t : Fin cfg1.N) (q k : Vec F S512x512 .bf16) (src dst : Vec F S2048 .i32) (gq gk : Vec F S2048x512 .f32)

/-- A first node tile steps from zero. -/
theorem acc_first (h0 : t.val % 20 = 0) :
    (gqFirst c t h0 q k src dst, gkFirst c t h0 q k src dst) = step (grid1.coords t) q k src dst (k1_pay9 (F := F)) (k1_pay10 (F := F)) := by
  unfold gqFirst gkFirst step
  refine congrArg₂ Prod.mk ?_ ?_ <;> (
    rw [View.read_writes_junk_eq_canon]
    unfold firstAt runFirst
    dsimp only
    try sl_unfold_words
    rw [View.canon_cons_unit_zero (S := S2048x512) hz2, View.readCov_unit_zero (S := S2048x512) _ hz2]
    simp only [View.readAt_eq_ld, Memref.IsWhole.read_unread, View.ld_unit_zero (S := S2048) hz1, View.ld_unit_zero (S := S512x512) hz2, View.ld_unit_zero (S := S2048x512) hz2])

/-- A middle node tile steps from what the accumulators held. -/
theorem acc_middle (h0 : ¬t.val % 20 = 0) (h19 : ¬t.val % 20 = 19) :
    (gqMiddle c t h0 h19 q k src dst gq gk, gkMiddle c t h0 h19 q k src dst gq gk) = step (grid1.coords t) q k src dst gq gk := by
  unfold gqMiddle gkMiddle step
  refine congrArg₂ Prod.mk ?_ ?_ <;> (
    rw [View.read_writes_junk_eq_canon]
    unfold middleAt runMiddle
    dsimp only
    try sl_unfold_words
    rw [View.canon_unit_zero hz2]
    simp only [View.readAt_eq_ld, Memref.IsWhole.read_unread, View.ld_unit_zero (S := S2048) hz1, View.ld_unit_zero (S := S512x512) hz2, View.ld_unit_zero (S := S2048x512) hz2, rdq, rdk])

/-- So does a last node tile, -/
theorem acc_last (h0 : ¬t.val % 20 = 0) (h19 : t.val % 20 = 19) :
    (gqLast c t h0 h19 q k src dst gq gk, gkLast c t h0 h19 q k src dst gq gk) = step (grid1.coords t) q k src dst gq gk := by
  unfold gqLast gkLast step
  refine congrArg₂ Prod.mk ?_ ?_ <;> (
    rw [View.read_writes_junk_eq_canon]
    unfold lastAt runLast
    dsimp only
    try sl_unfold_words
    rw [View.canon_unit_zero hz2]
    simp only [View.readAt_eq_ld, Memref.IsWhole.read_unread, View.ld_unit_zero (S := S2048) hz1, View.ld_unit_zero (S := S512x512) hz2, View.ld_unit_zero (S := S2048x512) hz2, rdq, rdk])

/-- and its scores are the four slices computed from the accumulators as it has just updated them. -/
theorem score_last_eq (h0 : ¬t.val % 20 = 0) (h19 : t.val % 20 = 19) :
    scoreLast c t h0 h19 q k src dst gq gk = View.canon (scorePieces (step (grid1.coords t) q k src dst gq gk)) := by
  unfold scoreLast
  rw [View.read_writes_junk_eq_canon]
  unfold lastAt runLast
  dsimp only
  try sl_unfold_words
  simp only [View.readCov_unit_zero (S := S2048x512) _ hz2, View.readAt_eq_ld, Memref.IsWhole.read_unread, View.ld_unit_zero (S := S2048) hz1, View.ld_unit_zero (S := S512x512) hz2, View.ld_unit_zero (S := S2048x512) hz2, rdq, rdk]
  rfl

end Point

variable (V : (c : Dev nD) → (b : Ref sig .tc) → Buf (Elt F) ((c : Thread nD τ).loc b)) (c : Dev nD) (t : Fin cfg1.N)

/-- The step at point `t`, on the point's blocks. -/
def stepAt (gq gk : Vec F S2048x512 .f32) : Vec F S2048x512 .f32 × Vec F S2048x512 .f32 :=
  step (grid1.coords t) (qBlk V c t) (kBlk V c t) (srcBlk V c t) (dstBlk V c t) gq gk

theorem acc_start (h0 : t.val % 20 = 0) : (carried V c t.val t.isLt).2 = stepAt V c t (k1_pay9 (F := F)) (k1_pay10 (F := F)) :=
  (congrArg Prod.snd (carried_first V c t h0)).trans (acc_first c t _ _ _ _ h0)

theorem acc_next (h0 : ¬t.val % 20 = 0) :
    (carried V c t.val t.isLt).2 = stepAt V c t (carried V c (t.val - 1) (pred_lt t)).2.1 (carried V c (t.val - 1) (pred_lt t)).2.2 := by
  by_cases h19 : t.val % 20 = 19
  · exact (congrArg Prod.snd (carried_last V c t h0 h19)).trans (acc_last c t _ _ _ _ _ _ h0 h19)
  · exact (congrArg Prod.snd (carried_middle V c t h0 h19)).trans (acc_middle c t _ _ _ _ _ _ h0 h19)

/-- After a last node tile the scores are the slices of the accumulators as that point leaves them. -/
theorem carried_score (h19 : t.val % 20 = 19) : (carried V c t.val t.isLt).1 = View.canon (scorePieces (carried V c t.val t.isLt).2) := by
  have h0 : ¬t.val % 20 = 0 := by omega
  rw [(carried_last V c t h0 h19).trans (congrArg₂ Prod.mk (score_last_eq c t _ _ _ _ _ _ h0 h19) (acc_last c t _ _ _ _ _ _ h0 h19))]

end Cert.KernelIdeal.Val1

end
-- ==== Proof.AttnMath.lean ====
import Idealize.ShloMosaic.PureOps.Ideal
import proofs.«412990_j12266426597865_3_alg».proof.Proof.AttnSpec
import Mathlib.Logic.Equiv.Fin.Basic
import Mathlib.Algebra.BigOperators.Fin
import Mathlib.Algebra.BigOperators.Group.Finset.Basic
import Mathlib.Data.Finset.Lattice.Fold
import Mathlib.Data.EReal.Operations
import Mathlib.Analysis.SpecialFunctions.Exp

noncomputable section

namespace AttnMath

open Idealize.ShloMosaic
open scoped BigOperators

/-- Zero absorbs every extended real, so only the indicated term is left. -/
theorem onehot_sum {ι : Type*} [Fintype ι] [DecidableEq ι] (t : ι → EReal) (i : ι) :
    ∑ n, (if n = i then (1 : EReal) else 0) * t n = t i := by
  rw [Finset.sum_eq_single i]
  · rw [if_pos rfl, one_mul]
  · intro n _ hn
    rw [if_neg hn, zero_mul]
  · intro h
    exact absurd (Finset.mem_univ i) h

theorem tile_lt {T B : ℕ} (j : Fin T) (k : Fin B) : B * j.val + k.val < T * B := by
  have h1 : B * j.val + k.val < B * (j.val + 1) := by
    rw [Nat.mul_succ]; exact Nat.add_lt_add_left k.isLt _
  have h2 : B * (j.val + 1) ≤ B * T := Nat.mul_le_mul_left B j.isLt
  calc B * j.val + k.val < B * (j.val + 1) := h1
    _ ≤ B * T := h2
    _ = T * B := Nat.mul_comm B T

/-- `n = B * j + k` runs over `Fin (T * B)` exactly once. -/
theorem sum_tiles {T B : ℕ} (f : Fin (T * B) → EReal) :
    ∑ j : Fin T, ∑ k : Fin B, f ⟨B * j.val + k.val, tile_lt j k⟩ = ∑ n : Fin (T * B), f n := by
  rw [← (finProdFinEquiv (m := T) (n := B)).sum_comp f, Fintype.sum_prod_type]
  refine Finset.sum_congr rfl fun j _ => Finset.sum_congr rfl fun k _ => ?_
  congr 1
  exact Fin.ext (Nat.add_comm _ _)

/-- `(B * j + k) / B = j`, so the indicator keeps exactly tile `h`. -/
theorem sum_block (T B : ℕ) (x : Fin (T * B) → EReal) (h : Fin T) :
    ∑ a : Fin (T * B), x a * (if a.val / B = h.val then (1 : EReal) else 0)
      = ∑ d : Fin B, x ⟨B * h.val + d.val, tile_lt h d⟩ := by
  have key : ∀ (j : Fin T) (k : Fin B), (B * j.val + k.val) / B = j.val := by
    intro j k
    rw [Nat.mul_add_div k.pos, Nat.div_eq_of_lt k.isLt, Nat.add_zero]
  rw [← sum_tiles (fun a => x a * (if a.val / B = h.val then (1 : EReal) else 0))]
  rw [Finset.sum_eq_single h]
  · refine Finset.sum_congr rfl fun d _ => ?_
    show x _ * (if (B * h.val + d.val) / B = h.val then (1 : EReal) else 0) = _
    rw [if_pos (key h d), mul_one]
  · intro j _ hj
    refine Finset.sum_eq_zero fun k _ => ?_
    show x _ * (if (B * j.val + k.val) / B = h.val then (1 : EReal) else 0) = 0
    rw [key j k, if_neg (fun e => hj (Fin.ext e)), mul_zero]
  · intro h'
    exact absurd (Finset.mem_univ h) h'

theorem sum_head (x : Fin 128 → EReal) (h : Fin 8) :
    ∑ a : Fin 128, x a * (if a.val / 16 = h.val then (1 : EReal) else 0)
      = ∑ d : Fin 16, x (AttnSpec.feat h d) :=
  sum_block 8 16 x h

theorem ofBits_quarter : Ideal.ofBits .f32 0x3E800000#32 = ((1 / 4 : ℝ) : EReal) := by
  simp [Ideal.ofBits, Ideal.ieee, -EReal.coe_mul]; norm_num

theorem mul_quarter (x : EReal) :
    x * Ideal.ofBits .f32 0x3E800000#32 = x * ((1 / 4 : ℝ) : EReal) := by
  rw [ofBits_quarter]

end AttnMath

end
-- ==== Proof.KI.Val1.Payloads.lean ====
import proofs.«412990_j12266426597865_3_alg».proof.Proof.Gen.KernelIdeal.Skeleton
import proofs.«412990_j12266426597865_3_alg».proof.Proof.AttnMath
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import Idealize.ShloMosaic.Lib.Tactic

set_option maxRecDepth 16384

noncomputable section

namespace Cert.KernelIdeal.Val1

open Cert.KernelIdeal Cert.KernelIdeal.Gen
open Idealize.ShloMosaic Idealize.ShloMosaic.TcCoe Idealize.ShloMosaic.ValueIdx Idealize.SL.Sem

section Layout
variable {α : Type} {a b : ℕ}

/-- A vector cast to a column reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- A column broadcast along the rows reads, at `(p, c)`, the column at `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The node id of column `n` of node tile `i 1`, as the 32-bit word `512 · (i 1) + n`. -/
def nodeWord (i : grid1.Coords) (n : Fin 512) : BitVec 32 := BitVec.ofNat 32 (i 1).val * 512#32 + BitVec.ofNat 32 n.val

theorem nodeRow_apply (i : grid1.Coords) (u : Fin 1) (n : Fin 512) : k1_pay11 i (ix2 u n) = nodeWord i n := by
  unfold k1_pay11 nodeWord
  show IntOp.addi (IntOp.muli (BitVec.ofNat 32 (i 1).val) 512#32) (iota .tc S1x512 32 [1] iota_S1x512_d1_w32 (ix2 u n)) = _
  rw [iota_single_apply]
  rfl

/-- The one-hot entry: `1` where the index word is the column's node id, else `0`. -/
def hit (w v : BitVec 32) : EReal := if w = v then 1 else 0

/-- A truth value widened to a word and read as a signed number is `1` or `0`. -/
theorem sitofp_bit (p : Prop) [Decidable p] :
    (FloatOps.sitofp (F := Ideal) .f32 ((BitVec.ofBool (decide p)).setWidth 32) : EReal) = if p then 1 else 0 := by
  by_cases e : p
  · rw [if_pos e, decide_eq_true e]
    show (((((BitVec.ofBool true).setWidth 32).toInt : ℤ) : ℝ) : EReal) = 1
    rw [show ((BitVec.ofBool true).setWidth 32).toInt = 1 from by decide]
    simp
  · rw [if_neg e, decide_eq_false e]
    show (((((BitVec.ofBool false).setWidth 32).toInt : ℤ) : ℝ) : EReal) = 0
    rw [show ((BitVec.ofBool false).setWidth 32).toInt = 0 from by decide]
    simp

/-- A plain matrix product accumulated into zero, at `(r, c)`: the sum over the contracted coordinate. -/
theorem dot_apply {m k n : ℕ} {φ₁ φ₂ : FTy} (prec : Option ContractPrecision) (A : FVec Ideal ⟨2, ![m, k]⟩ φ₁) (B : FVec Ideal ⟨2, ![k, n]⟩ φ₂)
    (r : Fin m) (c : Fin n) :
    (matmul (F := Ideal) (DotDims.plain m k n) prec A B (constant ⟨2, ![m, n]⟩ .f32 0x00000000#32) : FVec Ideal ⟨2, ![m, n]⟩ .f32) (ix2 r c)
      = ∑ x : Fin k, A (ix2 r x) * B (ix2 x c) :=
  (congrFun (matmul_zero_eq_dotGeneral _ prec A B) _).trans (StackMember.dotGeneral_plain_apply prec A B r c)

/-- ONE GATHER STEP, either accumulator: what it held plus the table entry of the tile's row whose node id is edge `r`'s index word. -/
theorem gather_apply (i : grid1.Coords) (idx : Vec Ideal S2048 .i32) (tbl : Vec Ideal S512x512 .bf16) (acc : Vec Ideal S2048x512 .f32)
    (r : Fin 2048) (col : Fin 512) :
    (k1_pay12 i idx tbl acc : FVec Ideal S2048x512 .f32) (ix2 r col)
      = (acc : S2048x512.Idx → EReal) (ix2 r col)
        + ∑ n : Fin 512, hit (idx (ix1 r)) (nodeWord i n) * (tbl : S512x512.Idx → EReal) (ix2 n col) := by
  unfold k1_pay12
  refine (congrFun (shapeCast_self _ _) (ix2 r col)).trans (congrArg ((acc : S2048x512.Idx → EReal) (ix2 r col) + ·) ?_)
  refine (dot_apply none _ _ r col).trans (Finset.sum_congr rfl fun n _ => congrArg₂ (· * ·) ?_ (congrFun (shapeCast_self tbl _) (ix2 n col)))
  show FloatOps.sitofp (F := Ideal) .f32 ((IntOp.cmpi .eq
      ((broadcastTo S2048x512 (shapeCast S2048x1 (shapeCast S2048 idx shapeCasts_S2048_S2048) shapeCasts_S2048_S2048x1) broadcasts_S2048x1_S2048x512 : IVec S2048x512 32) (ix2 r n))
      ((broadcastTo S2048x512 (k1_pay11 i) broadcasts_S1x512_S2048x512 : IVec S2048x512 32) (ix2 r n))).setWidth 32) = _
  rw [broadcastTo_a1_ab_apply, shapeCast_a_a1_apply, shapeCast_self, broadcastTo_1b_ab_apply, nodeRow_apply]
  exact sitofp_bit _

/-- The accumulators are reset to zero. -/
theorem reset_apply (j : S2048x512.Idx) : (k1_pay9 (F := Ideal) : FVec Ideal S2048x512 .f32) j = 0 := by
  unfold k1_pay9
  exact (congrFun (shapeCast_self _ _) j).trans Ideal.ofBits_zero_f32

/-- The word at row `x`, column `y` of the head matrix: whether `x` divided by 16, rounded down, is `y`. -/
def segWord (x y : BitVec 32) : BitVec 1 :=
  IntOp.cmpi .eq
    (Scalar.select
      (IntOp.andi
        (IntOp.cmpi .ne (IntOp.subi ((IntOp.cmpi .sgt x 0#32).setWidth 32) ((IntOp.cmpi .slt x 0#32).setWidth 32))
          (Scalar.subi (Scalar.extui (Scalar.cmpi .sgt 16#32 0#32)) (Scalar.extui (Scalar.cmpi .slt 16#32 0#32))))
        (IntOp.cmpi .ne (IntOp.remsi .vector x 16#32) 0#32))
      (IntOp.subi (IntOp.divsi .vector x 16#32) 1#32) (IntOp.divsi .vector x 16#32))
    y

theorem segWord_table : ∀ (a : Fin 128) (h : Fin 8),
    segWord (BitVec.ofNat 32 a.val) (BitVec.ofNat 32 h.val) = BitVec.ofBool (decide (a.val / 16 = h.val)) := by decide +kernel

/-- Entry `(a, h)` of the head matrix: `1` where feature `a` belongs to head `h`, else `0`. -/
theorem seg_apply (a : Fin 128) (h : Fin 8) :
    (k1_pay6 (F := Ideal) : FVec Ideal S128x8 .f32) (ix2 a h) = if a.val / 16 = h.val then (1 : EReal) else 0 := by
  unfold k1_pay6
  show FloatOps.sitofp (F := Ideal) .f32 ((segWord (iota .tc S128x8 32 [0] iota_S128x8_d0_w32 (ix2 a h)) (iota .tc S128x8 32 [1] iota_S128x8_d1_w32 (ix2 a h))).setWidth 32) = _
  rw [iota_single_apply, iota_single_apply]
  show FloatOps.sitofp (F := Ideal) .f32 ((segWord (BitVec.ofNat 32 a.val) (BitVec.ofNat 32 h.val)).setWidth 32) = _
  rw [segWord_table]
  exact sitofp_bit _

/-- Column `128 b + a` of the folded tables: coordinate `a` of batch entry `b`. -/
def bcol (b : Fin 4) (a : Fin 128) : Fin 512 := ⟨128 * b.val + a.val, by omega⟩

/-- The scores of accumulator contents `GQ`, `GK` at batch entry `y 0`, head `y 1`, edge `y 2`: the head's products, summed, times a quarter. -/
def scoreOf (GQ GK : S2048x512.Idx → EReal) (y : S4x8x2048.Idx) : EReal :=
  (∑ a : Fin 128, (GQ (ix2 (y 2) (bcol (y 0) a)) * GK (ix2 (y 2) (bcol (y 0) a))) * (if a.val / 16 = (y 1).val then (1 : EReal) else 0))
    * Ideal.ofBits .f32 0x3E800000#32

/-- Batch entry `b`'s slice is `scoreOf` at the slice's place among the four. -/
theorem headScore_apply (gq gk : Vec Ideal S2048x512 .f32) (b : ℕ) (hb : b < 4) (hs : S2048x512.Slices ![0, 128 * b] S2048x128)
    (inb : ∀ a, (![b, 0, 0] : Fin 3 → Nat) a + S1x8x2048.size a ≤ S4x8x2048.size a) (x : S1x8x2048.Idx) :
    (shapeCast S1x8x2048 (transpose S8x2048 [1, 0]
        (mulf (matmul (F := Ideal) dot_S2048x128_S128x8_S2048x8_1_0_0_1_n_n (some .fp32) (extractStridedSlice S2048x128 ![0, 128 * b] (k1_pay5 gq gk) hs) (k1_pay6 (F := Ideal)) (constant S2048x8 .f32 0x00000000#32))
          (broadcast S2048x8 (Scalar.ofBits (F := Ideal) .f32 0x3E800000#32)))
        transposes_S2048x8_p1_0_S8x2048) shapeCasts_S8x2048_S1x8x2048 : FVec Ideal S1x8x2048 .f32) x
      = scoreOf gq gk ((Rect.unit (s := S4x8x2048) ![b, 0, 0] S1x8x2048.size inb).emb x) := by
  obtain ⟨u, h, r, rfl⟩ : ∃ (u : Fin 1) (h : Fin 8) (r : Fin 2048), x = ix3 u h r := ⟨x 0, x 1, x 2, eq_ix3 x⟩
  have he : (Rect.unit (s := S4x8x2048) ![b, 0, 0] S1x8x2048.size inb).emb (ix3 u h r) = ix3 (⟨b, hb⟩ : Fin 4) h r := by
    funext a
    apply Fin.ext
    rw [Rect.emb_apply]
    match a with
    | ⟨0, _⟩ => show b + 1 * u.val = b; omega
    | ⟨1, _⟩ => show 0 + 1 * h.val = h.val; omega
    | ⟨2, _⟩ => show 0 + 1 * r.val = r.val; omega
  rw [he]
  refine (shapeCast_ab_1ab_apply _ _ u h r).trans ((transpose_ix2_apply _ _ h r).trans ?_)
  refine congrArg (· * Ideal.ofBits .f32 0x3E800000#32) ((dot_apply (some .fp32) _ _ r h).trans (Finset.sum_congr rfl fun a _ => ?_))
  exact congrArg₂ (· * ·) (slice2_axis1_apply (128 * b) (k1_pay5 gq gk) hs r a (bcol ⟨b, hb⟩ a) rfl) (seg_apply a h)

end Cert.KernelIdeal.Val1

end
-- ==== Proof.KI.Val1.GatherSum.lean ====
import proofs.«412990_j12266426597865_3_alg».proof.Proof.AttnMath
import Mathlib.Algebra.BigOperators.Group.Finset.Basic

noncomputable section

namespace Cert.KernelIdeal.Val1

open scoped BigOperators

/-- A word whose signed value lies in `[0, 10240)` is the word of exactly one natural below `10240`, so over twenty tiles of 512 rows the indicator keeps that one row. -/
theorem gather_total (w : BitVec 32) (hw : 0 ≤ w.toInt ∧ w.toInt < 10240) (T : Fin 10240 → EReal) :
    ∑ j : Fin 20, ∑ n : Fin 512, (if w = BitVec.ofNat 32 (512 * j.val + n.val) then (1 : EReal) else 0) * T ⟨512 * j.val + n.val, by omega⟩ = T ⟨min w.toInt.toNat 10239, by omega⟩ := by
  have hnat : w.toInt.toNat = w.toNat := by
    have h := BitVec.toInt_eq_toNat_cond w
    have hlt : w.toNat < 2 ^ 32 := w.isLt
    split at h <;> omega
  refine (AttnMath.sum_tiles (T := 20) (B := 512) (fun a : Fin (20 * 512) => (if w = BitVec.ofNat 32 a.val then (1 : EReal) else 0) * T a)).trans
    (Eq.trans (Finset.sum_congr rfl fun a _ => ?_) (AttnMath.onehot_sum T ⟨min w.toInt.toNat 10239, by omega⟩))
  have ha : a.val < 10240 := a.isLt
  refine congrArg (· * T a) (if_congr ⟨fun h => Fin.ext ?_, fun h => BitVec.eq_of_toNat_eq ?_⟩ rfl rfl)
  · have h2 : w.toNat = a.val % 2 ^ 32 := by rw [h, BitVec.toNat_ofNat]
    show a.val = min w.toInt.toNat 10239
    omega
  · rw [BitVec.toNat_ofNat, h]
    show w.toNat = min w.toInt.toNat 10239 % 2 ^ 32
    omega

end Cert.KernelIdeal.Val1

end
-- ==== Proof.KI.Val1.lean ====
import proofs.«412990_j12266426597865_3_alg».proof.Proof.KI.Rgn1
import proofs.«412990_j12266426597865_3_alg».proof.Proof.KI.Val1.Pieces
import proofs.«412990_j12266426597865_3_alg».proof.Proof.KI.Val1.Payloads
import proofs.«412990_j12266426597865_3_alg».proof.Proof.KI.Val1.GatherSum
import proofs.«412990_j12266426597865_3_alg».proof.Proof.AttnMath
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val1

open Cert.KernelIdeal Cert.KernelIdeal.Gen Cert.KernelIdeal.Rgn1
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- An index word read as a row of the padded tables: its signed value, clamped into `[0, 10239]`. -/
def tableRow (w : BitVec 32) : Fin 10240 := ⟨min w.toInt.toNat 10239, by omega⟩

abbrev Qt (c : Dev nD) : S10240x512.Idx → EReal := V c main_v7
abbrev Kt (c : Dev nD) : S10240x512.Idx → EReal := V c main_v9
abbrev Si (c : Dev nD) : S161792.Idx → BitVec 32 := V c main_v12
abbrev Di (c : Dev nD) : S161792.Idx → BitVec 32 := V c main_v15

/-- Point `t` is node tile `t % 20` of edge tile `t / 20`: the block indices over the grid. -/
theorem idx_facts : ∀ t : Fin grid1.N,
    (win1_0.index t (0 : Fin 2) = t.val % 20 ∧ win1_0.index t (1 : Fin 2) = 0)
    ∧ (win1_1.index t (0 : Fin 2) = t.val % 20 ∧ win1_1.index t (1 : Fin 2) = 0)
    ∧ (win1_2.index t (0 : Fin 1) = t.val / 20 ∧ win1_3.index t (0 : Fin 1) = t.val / 20)
    ∧ (win1_4.index t (0 : Fin 3) = 0 ∧ win1_4.index t (1 : Fin 3) = 0 ∧ win1_4.index t (2 : Fin 3) = t.val / 20)
    ∧ ((grid1.coords t) 1).val = t.val % 20 := by decide +kernel

theorem qBlk_apply (c : Dev nD) (t : Fin cfg1.N) (n : Fin 512) (col : Fin 512) (k : Fin 10240) (hk : k.val = 512 * (t.val % 20) + n.val) :
    (qBlk V c t : S512x512.Idx → EReal) (ix2 n col) = Qt V c (ix2 k col) := by
  obtain ⟨⟨h0, h1⟩, -⟩ := idx_facts t
  refine congrArg (V c main_v7) (funext fun a => Fin.ext ?_)
  match a with
  | ⟨0, _⟩ => show win1_0.index t 0 * 512 + 1 * n.val = k.val; rw [h0, hk]; omega
  | ⟨1, _⟩ => show win1_0.index t 1 * 512 + 1 * col.val = col.val; rw [h1]; omega

theorem kBlk_apply (c : Dev nD) (t : Fin cfg1.N) (n : Fin 512) (col : Fin 512) (k : Fin 10240) (hk : k.val = 512 * (t.val % 20) + n.val) :
    (kBlk V c t : S512x512.Idx → EReal) (ix2 n col) = Kt V c (ix2 k col) := by
  obtain ⟨-, ⟨h0, h1⟩, -⟩ := idx_facts t
  refine congrArg (V c main_v9) (funext fun a => Fin.ext ?_)
  match a with
  | ⟨0, _⟩ => show win1_1.index t 0 * 512 + 1 * n.val = k.val; rw [h0, hk]; omega
  | ⟨1, _⟩ => show win1_1.index t 1 * 512 + 1 * col.val = col.val; rw [h1]; omega

theorem srcBlk_apply (c : Dev nD) (t : Fin cfg1.N) (r : Fin 2048) (k : Fin 161792) (hk : k.val = 2048 * (t.val / 20) + r.val) :
    (srcBlk V c t : S2048.Idx → BitVec 32) (ix1 r) = Si V c (ix1 k) := by
  obtain ⟨-, -, ⟨h0, -⟩, -⟩ := idx_facts t
  refine congrArg (V c main_v12) (funext fun a => Fin.ext ?_)
  match a with
  | ⟨0, _⟩ => show win1_2.index t 0 * 2048 + 1 * r.val = k.val; rw [h0, hk]; omega

theorem dstBlk_apply (c : Dev nD) (t : Fin cfg1.N) (r : Fin 2048) (k : Fin 161792) (hk : k.val = 2048 * (t.val / 20) + r.val) :
    (dstBlk V c t : S2048.Idx → BitVec 32) (ix1 r) = Di V c (ix1 k) := by
  obtain ⟨-, -, ⟨-, h0⟩, -⟩ := idx_facts t
  refine congrArg (V c main_v15) (funext fun a => Fin.ext ?_)
  match a with
  | ⟨0, _⟩ => show win1_3.index t 0 * 2048 + 1 * r.val = k.val; rw [h0, hk]; omega

theorem nodeWord_eq (t : Fin cfg1.N) (n : Fin 512) : nodeWord (grid1.coords t) n = BitVec.ofNat 32 (512 * (t.val % 20) + n.val) := by
  unfold nodeWord
  rw [(idx_facts t).2.2.2.2, show (512#32 : BitVec 32) = BitVec.ofNat 32 512 from rfl, ← BitVec.ofNat_mul, ← BitVec.ofNat_add, Nat.mul_comm]

/-- What node tile `j` adds at `(r, col)` of edge tile `e`'s accumulator: the entry of the tile's row whose id the edge's index word is. -/
def tileTerm (I : S161792.Idx → BitVec 32) (T : S10240x512.Idx → EReal) (e j : ℕ) (r : Fin 2048) (col : Fin 512) : EReal :=
  if h : e < 79 ∧ j < 20 then
    ∑ n : Fin 512, (if I (ix1 ⟨2048 * e + r.val, by omega⟩) = BitVec.ofNat 32 (512 * j + n.val) then (1 : EReal) else 0)
      * T (ix2 ⟨512 * j + n.val, by omega⟩ col)
  else 0

section Run
variable (I : S161792.Idx → BitVec 32) (T : S10240x512.Idx → EReal)
  (idx : Fin cfg1.N → Vec Ideal S2048 .i32) (tbl : Fin cfg1.N → Vec Ideal S512x512 .bf16)
  (hI : ∀ (t : Fin cfg1.N) (r : Fin 2048) (k : Fin 161792), k.val = 2048 * (t.val / 20) + r.val → (idx t : S2048.Idx → BitVec 32) (ix1 r) = I (ix1 k))
  (hT : ∀ (t : Fin cfg1.N) (n col : Fin 512) (k : Fin 10240), k.val = 512 * (t.val % 20) + n.val → (tbl t : S512x512.Idx → EReal) (ix2 n col) = T (ix2 k col))
  (g : (n : ℕ) → n < cfg1.N → Vec Ideal S2048x512 .f32)
  (h0 : ∀ t : Fin cfg1.N, t.val % 20 = 0 → g t.val t.isLt = k1_pay12 (grid1.coords t) (idx t) (tbl t) (k1_pay9 (F := Ideal)))
  (hS : ∀ t : Fin cfg1.N, ¬t.val % 20 = 0 → g t.val t.isLt = k1_pay12 (grid1.coords t) (idx t) (tbl t) (g (t.val - 1) (pred_lt t)))
include hI hT h0 hS

/-- ONE ACCUMULATOR'S RUN. Stepping over blocks that are the arrays `I`, `T` cut at the grid's tiles, after position `n` it holds the terms of node tiles `0 … n % 20` of edge tile `n / 20`. -/
theorem run_sum (r : Fin 2048) (col : Fin 512) (n : ℕ) (hn : n < cfg1.N) :
    (g n hn : S2048x512.Idx → EReal) (ix2 r col) = ∑ j ∈ Finset.range (n % 20 + 1), tileTerm I T (n / 20) j r col := by
  have hN : n < 1580 := lt_of_lt_of_eq hn N_1
  have ht : (∑ m : Fin 512, hit (idx ⟨n, hn⟩ (ix1 r)) (nodeWord (grid1.coords ⟨n, hn⟩) m) * (tbl ⟨n, hn⟩ : S512x512.Idx → EReal) (ix2 m col))
      = tileTerm I T (n / 20) (n % 20) r col := by
    unfold tileTerm hit
    rw [dif_pos ⟨by omega, by omega⟩]
    refine Finset.sum_congr rfl fun m _ => ?_
    rw [hI ⟨n, hn⟩ r ⟨2048 * (n / 20) + r.val, by omega⟩ rfl, nodeWord_eq ⟨n, hn⟩ m, hT ⟨n, hn⟩ m col ⟨512 * (n % 20) + m.val, by omega⟩ rfl]
  by_cases e : n % 20 = 0
  · rw [h0 ⟨n, hn⟩ e, gather_apply, reset_apply, zero_add, ht, e]
    simp
  · rw [hS ⟨n, hn⟩ e, gather_apply, ht, run_sum r col (n - 1) (by omega), show (n - 1) / 20 = n / 20 by omega, show (n - 1) % 20 + 1 = n % 20 by omega]
    exact (Finset.sum_range_succ _ _).symm
termination_by n
decreasing_by omega

/-- After a last node tile: the one table row the edge's index word names. -/
theorem run_done (t : Fin cfg1.N) (h19 : t.val % 20 = 19) (r : Fin 2048) (col : Fin 512) (e' : Fin 161792)
    (he' : e'.val = 2048 * (t.val / 20) + r.val) (hw : 0 ≤ (I (ix1 e')).toInt ∧ (I (ix1 e')).toInt < 10240) :
    (g t.val t.isLt : S2048x512.Idx → EReal) (ix2 r col) = T (ix2 (tableRow (I (ix1 e'))) col) := by
  have hN : t.val < 1580 := lt_of_lt_of_eq t.isLt N_1
  obtain ⟨ev, hev⟩ := e'
  dsimp only at he'
  subst he'
  rw [run_sum I T idx tbl hI hT g h0 hS r col t.val t.isLt, h19, Finset.sum_range]
  refine Eq.trans (Finset.sum_congr rfl fun j _ => ?_) (gather_total _ hw fun m => T (ix2 m col))
  unfold tileTerm
  rw [dif_pos ⟨by omega, j.isLt⟩]

end Run

theorem gq_last (c : Dev nD) (t : Fin cfg1.N) (h19 : t.val % 20 = 19) (r : Fin 2048) (col : Fin 512) (e' : Fin 161792)
    (he' : e'.val = 2048 * (t.val / 20) + r.val) (hw : 0 ≤ (Si V c (ix1 e')).toInt ∧ (Si V c (ix1 e')).toInt < 10240) :
    ((carried V c t.val t.isLt).2.1 : S2048x512.Idx → EReal) (ix2 r col) = Qt V c (ix2 (tableRow (Si V c (ix1 e'))) col) :=
  run_done (Si V c) (Qt V c) (srcBlk V c) (qBlk V c) (srcBlk_apply V c) (qBlk_apply V c) (fun n hn => (carried V c n hn).2.1)
    (fun t e => congrArg Prod.fst (acc_start V c t e)) (fun t e => congrArg Prod.fst (acc_next V c t e)) t h19 r col e' he' hw

theorem gk_last (c : Dev nD) (t : Fin cfg1.N) (h19 : t.val % 20 = 19) (r : Fin 2048) (col : Fin 512) (e' : Fin 161792)
    (he' : e'.val = 2048 * (t.val / 20) + r.val) (hw : 0 ≤ (Di V c (ix1 e')).toInt ∧ (Di V c (ix1 e')).toInt < 10240) :
    ((carried V c t.val t.isLt).2.2 : S2048x512.Idx → EReal) (ix2 r col) = Kt V c (ix2 (tableRow (Di V c (ix1 e'))) col) :=
  run_done (Di V c) (Kt V c) (dstBlk V c) (kBlk V c) (dstBlk_apply V c) (kBlk_apply V c) (fun n hn => (carried V c n hn).2.2)
    (fun t e => congrArg Prod.snd (acc_start V c t e)) (fun t e => congrArg Prod.snd (acc_next V c t e)) t h19 r col e' he' hw

/-- The four slices side by side are `scoreOf`. -/
theorem scorePieces_apply (G : Vec Ideal S2048x512 .f32 × Vec Ideal S2048x512 .f32) (y : S4x8x2048.Idx) :
    View.canon (scorePieces G) y = scoreOf G.1 G.2 y := by
  refine View.canon_apply_of_pieces (scoreOf G.1 G.2) (scorePieces G) ?_ y
    (View.cover_of_tiledL (scorePieces G) S1x8x2048.size (by sl_kernel_rfl) y)
  intro p hp
  unfold scorePieces at hp
  simp only [List.mem_cons, List.mem_singleton, List.not_mem_nil, or_false] at hp
  rcases hp with rfl | rfl | rfl | rfl
  exacts [headScore_apply G.1 G.2 3 (by decide) slices_S2048x512_o0_384_S2048x128 inb_S4x8x2048_S1x8x2048_3_0_0,
    headScore_apply G.1 G.2 2 (by decide) slices_S2048x512_o0_256_S2048x128 inb_S4x8x2048_S1x8x2048_2_0_0,
    headScore_apply G.1 G.2 1 (by decide) slices_S2048x512_o0_128_S2048x128 inb_S4x8x2048_S1x8x2048_1_0_0,
    headScore_apply G.1 G.2 0 (by decide) slices_S2048x512_o0_0_S2048x128 inb_S4x8x2048_S1x8x2048_0_0_0]

/-- The score of batch entry `b`, head `h`, edge `e'`: the head's sixteen products of the query row at the edge's source with the key row at its destination, summed, times a quarter. -/
def finalScore (c : Dev nD) (b : Fin 4) (h : Fin 8) (e' : Fin 161792) : EReal :=
  (∑ d : Fin 16, Qt V c (ix2 (tableRow (Si V c (ix1 e'))) ⟨128 * b.val + 16 * h.val + d.val, by omega⟩)
      * Kt V c (ix2 (tableRow (Di V c (ix1 e'))) ⟨128 * b.val + 16 * h.val + d.val, by omega⟩)) * ((1 / 4 : ℝ) : EReal)

/-- What a last node tile leaves at `(b, h, r)` is the score of the edge tile's edge `r`. -/
theorem score_last (c : Dev nD) (t : Fin cfg1.N) (h19 : t.val % 20 = 19) (b : Fin 4) (h : Fin 8) (r : Fin 2048) (e' : Fin 161792)
    (he' : e'.val = 2048 * (t.val / 20) + r.val)
    (hs : 0 ≤ (Si V c (ix1 e')).toInt ∧ (Si V c (ix1 e')).toInt < 10240) (hd : 0 ≤ (Di V c (ix1 e')).toInt ∧ (Di V c (ix1 e')).toInt < 10240) :
    ((carried V c t.val t.isLt).1 : S4x8x2048.Idx → EReal) (ix3 b h r) = finalScore V c b h e' := by
  rw [carried_score V c t h19, scorePieces_apply]
  refine (AttnMath.mul_quarter _).trans (congrArg (· * ((1 / 4 : ℝ) : EReal)) ?_)
  refine (Finset.sum_congr rfl fun a _ => ?_).trans ((AttnMath.sum_head
    (fun a => Qt V c (ix2 (tableRow (Si V c (ix1 e'))) (bcol b a)) * Kt V c (ix2 (tableRow (Di V c (ix1 e'))) (bcol b a))) h).trans
      (Finset.sum_congr rfl fun d _ => ?_))
  · exact congrArg (· * _) (congrArg₂ (· * ·) (gq_last V c t h19 r (bcol b a) e' he' hs) (gk_last V c t h19 r (bcol b a) e' he' hd))
  · have ec : bcol b (AttnSpec.feat h d) = (⟨128 * b.val + 16 * h.val + d.val, by omega⟩ : Fin 512) :=
      Fin.ext (by show 128 * b.val + (16 * h.val + d.val) = 128 * b.val + 16 * h.val + d.val; omega)
    show Qt V c (ix2 _ (bcol b (AttnSpec.feat h d))) * Kt V c (ix2 _ (bcol b (AttnSpec.feat h d))) = _
    rw [ec]

/-- The score array the region ends with. -/
def scoreArray (c : Dev nD) : S4x8x161792.Idx → EReal := fun i => finalScore V c (i 0) (i 1) (i 2)

/-- A last node tile's scores are its block of `scoreArray`. -/
theorem flushed_eq (c : Dev nD)
    (hS : ∀ e' : Fin 161792, 0 ≤ (Si V c (ix1 e')).toInt ∧ (Si V c (ix1 e')).toInt < 10240)
    (hD : ∀ e' : Fin 161792, 0 ≤ (Di V c (ix1 e')).toInt ∧ (Di V c (ix1 e')).toInt < 10240)
    (t : Fin cfg1.N) (hf : (cfg1.win 4).flush t = true) :
    (dat V c).flushed 4 t = ((cfg1.win 4).blk t).view.read (Elt Ideal) (scoreArray V c) := by
  have h19 : t.val % 20 = 19 := (flush1_4 t).mp hf
  have hN : t.val < 1580 := lt_of_lt_of_eq t.isLt N_1
  obtain ⟨-, -, -, ⟨i0, i1, i2⟩, -⟩ := idx_facts t
  show (cfg1.win 4).cut (grid1.coords t) ((dat V c).after 4 t) = _
  rw [after_score]
  funext j
  show ((carried V c t.val t.isLt).1 : S4x8x2048.Idx → EReal) j = scoreArray V c (((cfg1.win 4).blk t).view.emb j)
  obtain ⟨b, h, r, rfl⟩ : ∃ (b : Fin 4) (h : Fin 8) (r : Fin 2048), j = ix3 b h r := ⟨j 0, j 1, j 2, eq_ix3 j⟩
  have hemb : ((cfg1.win 4).blk t).view.emb (ix3 b h r) = ix3 b h (⟨2048 * (t.val / 20) + r.val, by omega⟩ : Fin 161792) := by
    funext a; apply Fin.ext
    match a with
    | ⟨0, _⟩ => show win1_4.index t (0 : Fin 3) * 4 + 1 * b.val = b.val; rw [i0]; omega
    | ⟨1, _⟩ => show win1_4.index t (1 : Fin 3) * 8 + 1 * h.val = h.val; rw [i1]; omega
    | ⟨2, _⟩ => show win1_4.index t (2 : Fin 3) * 2048 + 1 * r.val = 2048 * (t.val / 20) + r.val; rw [i2]; omega
  rw [hemb]
  exact score_last V c t h19 b h r _ rfl (hS _) (hD _)

/-- Every index of the score array lies in the block of its edge tile's last node tile. -/
theorem covered (i : S4x8x161792.Idx) : ∃ t : Fin cfg1.N, (cfg1.win 4).flush t = true ∧ i ∈ ((cfg1.win 4).blk t).view.set := by
  have h0 : (i 0).val < 4 := (i 0).isLt
  have h1 : (i 1).val < 8 := (i 1).isLt
  have h2 : (i 2).val < 161792 := (i 2).isLt
  have hN : cfg1.N = 1580 := N_1
  have ht : 20 * ((i 2).val / 2048) + 19 < cfg1.N := by omega
  refine ⟨⟨_, ht⟩, (flush1_4 _).mpr (by show (20 * ((i 2).val / 2048) + 19) % 20 = 19; omega), ?_⟩
  obtain ⟨-, -, -, ⟨i0, i1, i2⟩, -⟩ := idx_facts ⟨_, ht⟩
  show i ∈ ((View.whole main_v16).slice (win1_4.rect ⟨_, ht⟩)).set
  rw [View.set_slice_whole, Rect.mem_set_unit]
  intro a
  match a with
  | ⟨0, _⟩ => show win1_4.index _ (0 : Fin 3) * 4 ≤ (i 0).val ∧ (i 0).val < win1_4.index _ (0 : Fin 3) * 4 + 4; rw [i0]; omega
  | ⟨1, _⟩ => show win1_4.index _ (1 : Fin 3) * 8 ≤ (i 1).val ∧ (i 1).val < win1_4.index _ (1 : Fin 3) * 8 + 8; rw [i1]; omega
  | ⟨2, _⟩ =>
    show win1_4.index _ (2 : Fin 3) * 2048 ≤ (i 2).val ∧ (i 2).val < win1_4.index _ (2 : Fin 3) * 2048 + 2048
    rw [i2]
    show (20 * ((i 2).val / 2048) + 19) / 20 * 2048 ≤ (i 2).val ∧ (i 2).val < (20 * ((i 2).val / 2048) + 19) / 20 * 2048 + 2048
    omega

/-- THE SCORE ARRAY AFTER THE REGION: at `(b, h, e')`, the score of edge `e'` in head `h` of batch entry `b`. -/
theorem final_scores (c : Dev nD)
    (hS : ∀ e' : Fin 161792, 0 ≤ (Si V c (ix1 e')).toInt ∧ (Si V c (ix1 e')).toInt < 10240)
    (hD : ∀ e' : Fin 161792, 0 ≤ (Di V c (ix1 e')).toInt ∧ (Di V c (ix1 e')).toInt < 10240)
    (b : Fin 4) (h : Fin 8) (e' : Fin 161792) :
    ((Rgn1.dat V c).arrAt 4 cfg1.N : S4x8x161792.Idx → EReal) (ix3 b h e')
      = (∑ d : Fin 16, Qt V c (ix2 (tableRow (Si V c (ix1 e'))) ⟨128 * b.val + 16 * h.val + d.val, by omega⟩)
          * Kt V c (ix2 (tableRow (Di V c (ix1 e'))) ⟨128 * b.val + 16 * h.val + d.val, by omega⟩)) * ((1 / 4 : ℝ) : EReal) := by
  rw [(Rgn1.dat V c).arrAt_eq_of_cover 4 (scoreArray V c) (flushed_eq V c hS hD) covered]
  rfl

end Cert.KernelIdeal.Val1

end
-- ==== Proof.KI.Glue1.lean ====
import proofs.«412990_j12266426597865_3_alg».proof.Proof.KI.Glue0
import proofs.«412990_j12266426597865_3_alg».proof.Proof.KI.Val1

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

-- Neither the first host stretch nor the projection region writes the edge-index array.
theorem edges_kept : (W2 m ρ c (Proc.devRef .tc main_arg7) : S2x160000.Idx → BitVec 32) = aE m c :=
  (W2_of_ne m ρ c main_arg7 (by decide)).trans (HostReads.A_of_not_written (W0 m ρ c) main_arg7 (by decide))

theorem src_entry (e' : Fin 161792) :
    Val1.Si (V10 m ρ) c (ix1 e') = if h : e'.val < 160000 then aE m c (ix2 (0 : Fin 2) ⟨e'.val, h⟩) else 0#32 :=
  (HostReads.B_v12_apply (W2 m ρ c) e').trans (by rw [edges_kept m ρ c])

theorem dst_entry (e' : Fin 161792) :
    Val1.Di (V10 m ρ) c (ix1 e') = if h : e'.val < 160000 then aE m c (ix2 (1 : Fin 2) ⟨e'.val, h⟩) else 0#32 :=
  (HostReads.B_v15_apply (W2 m ρ c) e').trans (by rw [edges_kept m ρ c])

-- A padded index word, a node or the zero word, names a row of the padded tables.
theorem word_range (hr : NodeIn m c) (r : Fin 2) (w : BitVec 32) (e' : Fin 161792)
    (hw : w = if h : e'.val < 160000 then aE m c (ix2 r ⟨e'.val, h⟩) else 0#32) : 0 ≤ w.toInt ∧ w.toInt < 10240 := by
  subst hw
  split
  · rename_i hlt; have := hr (ix2 r ⟨e'.val, hlt⟩); omega
  · decide

-- A padded, folded table read at the row a node's word names and at column `128 b + 16 h + d`.
theorem tab_entry (T : S10240x512.Idx → EReal) (Y : Fin 4 → Fin 10000 → Fin 128 → EReal)
    (hT : ∀ b n a, T (ix2 ⟨n.val, by omega⟩ ⟨128 * b.val + a.val, by omega⟩) = Y b n a)
    (w w' : BitVec 32) (hw' : w' = w) (hw : 0 ≤ w.toInt ∧ w.toInt < 10000) (b : Fin 4) (h : Fin 8) (d : Fin 16)
    (p : 128 * b.val + 16 * h.val + d.val < 512) :
    T (ix2 (Val1.tableRow w') ⟨128 * b.val + 16 * h.val + d.val, p⟩) = Y b (AttnSpec.node w) (AttnSpec.feat h d) :=
  (congrArg T (congrArg₂ ix2 (Fin.ext (by subst hw'; show min w'.toInt.toNat 10239 = min w'.toInt.toNat 9999; omega))
    (Fin.ext (by show 128 * b.val + 16 * h.val + d.val = 128 * b.val + (16 * h.val + d.val); omega)))).trans (hT b (AttnSpec.node w) (AttnSpec.feat h d))

theorem sArr_eq (hr : NodeIn m c) (b : Fin 4) (h : Fin 8) (e : Fin 160000) :
    sArr m ρ c (ix3 b h ⟨e.val, by omega⟩) = pS m c b e h := by
  refine (congrFun (W11_arr m ρ c 4) _).trans <| (Val1.final_scores (V10 m ρ) c
    (fun e' => word_range m c hr 0 _ e' (src_entry m ρ c e')) (fun e' => word_range m c hr 1 _ e' (dst_entry m ρ c e'))
    b h ⟨e.val, by omega⟩).trans ?_
  unfold pS AttnSpec.score
  exact congrArg (· * ((1 / 4 : ℝ) : EReal)) (Finset.sum_congr rfl fun d _ => congrArg₂ (· * ·)
    (tab_entry _ _ (fun b n a => (HostReads.B_v7_apply (W2 m ρ c) b n a).trans (qArr_eq m ρ c b n a)) _ _
      ((src_entry m ρ c ⟨e.val, by omega⟩).trans (dif_pos e.isLt)) (hr _) b h d _)
    (tab_entry _ _ (fun b n a => (HostReads.B_v9_apply (W2 m ρ c) b n a).trans (kArr_eq m ρ c b n a)) _ _
      ((dst_entry m ρ c ⟨e.val, by omega⟩).trans (dif_pos e.isLt)) (hr _) b h d _))

end Cert.KernelIdeal.Whole

end
-- ==== Proof.AttnReal.lean ====
import proofs.«412990_j12266426597865_3_alg».proof.Proof.AttnSpec
import Mathlib.Algebra.BigOperators.Group.Finset.Basic
import Mathlib.Data.EReal.Basic

noncomputable section

namespace AttnMath

theorem sum_coe_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨r, hr⟩ := hf a (Finset.mem_insert_self a s)
    obtain ⟨t, ht⟩ := ih fun i hi => hf i (Finset.mem_insert_of_mem hi)
    exact ⟨r + t, by rw [Finset.sum_insert ha, hr, ht, EReal.coe_add]⟩

theorem mul_coe_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem add_coe_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem proj_real (x : Fin 4 → Fin 10000 → Fin 64 → EReal) (W : Fin 128 → Fin 64 → EReal) (β : Fin 128 → EReal)
    (hx : ∀ b n f, ∃ r : ℝ, x b n f = (r : EReal)) (hW : ∀ a f, ∃ r : ℝ, W a f = (r : EReal))
    (hβ : ∀ a, ∃ r : ℝ, β a = (r : EReal)) :
    ∀ b n a, ∃ r : ℝ, AttnSpec.proj x W β b n a = (r : EReal) := by
  intro b n a
  unfold AttnSpec.proj
  exact add_coe_real (sum_coe_real _ _ fun f _ => mul_coe_real (hx b n f) (hW a f)) (hβ a)

theorem score_real (q k : Fin 4 → Fin 10000 → Fin 128 → EReal) (src dst : Fin 160000 → Fin 10000)
    (hq : ∀ b n a, ∃ r : ℝ, q b n a = (r : EReal)) (hk : ∀ b n a, ∃ r : ℝ, k b n a = (r : EReal)) :
    ∀ b e h, ∃ r : ℝ, AttnSpec.score q k src dst b e h = (r : EReal) := by
  intro b e h
  unfold AttnSpec.score
  exact mul_coe_real (sum_coe_real _ _ fun d _ => mul_coe_real (hq b (src e) _) (hk b (dst e) _)) ⟨1 / 4, rfl⟩

end AttnMath

end
-- ==== Proof.KI.GlueR.lean ====
import proofs.«412990_j12266426597865_3_alg».proof.Proof.KI.Args
import proofs.«412990_j12266426597865_3_alg».proof.Proof.AttnReal

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

-- Sums and products of reals are real.
theorem pS_real (hfin : RealIn m c) : ∀ b e h, ∃ r : ℝ, pS m c b e h = (r : EReal) :=
  AttnMath.score_real _ _ _ _
    (AttnMath.proj_real _ _ _ (fun b n f => hfin.1 (ix3 b n f)) (fun a f => hfin.2.1 (ix2 a f)) fun a => hfin.2.2.1 (ix1 a))
    (AttnMath.proj_real _ _ _ (fun b n f => hfin.1 (ix3 b n f)) (fun a f => hfin.2.2.2.1 (ix2 a f)) fun a => hfin.2.2.2.2 (ix1 a))

end Cert.KernelIdeal.Whole

end
-- ==== Proof.AttnSoftmax.lean ====
import Idealize.ShloMosaic.PureOps.Ideal
import proofs.«412990_j12266426597865_3_alg».proof.Proof.AttnSpec
import proofs.«412990_j12266426597865_3_alg».proof.Proof.AttnMath
import Mathlib.Algebra.BigOperators.Fin
import Mathlib.Algebra.BigOperators.Group.Finset.Basic
import Mathlib.Algebra.Order.BigOperators.Group.Finset
import Mathlib.Data.Finset.Lattice.Fold
import Mathlib.Data.EReal.Operations
import Mathlib.Analysis.SpecialFunctions.Exp

noncomputable section

namespace AttnMath

open Idealize.ShloMosaic
open scoped BigOperators

/-- Coercion to the extended reals commutes with a finite sum of reals. -/
theorem coe_sum {ι : Type*} (s : Finset ι) (f : ι → ℝ) :
    ((∑ i ∈ s, f i : ℝ) : EReal) = ∑ i ∈ s, ((f i : ℝ) : EReal) := by
  classical
  refine Finset.induction_on s ?_ ?_
  · rw [Finset.sum_empty, Finset.sum_empty, EReal.coe_zero]
  · intro a s ha ih
    rw [Finset.sum_insert ha, Finset.sum_insert ha, EReal.coe_add, ih]

theorem sup_real {ι : Type*} (s : Finset ι) (hs : s.Nonempty) (f : ι → EReal)
    (hf : ∀ i ∈ s, ∃ r : ℝ, f i = (r : EReal)) : ∃ r : ℝ, s.sup f = (r : EReal) := by
  obtain ⟨i, hi, h⟩ := Finset.exists_mem_eq_sup s hs f
  obtain ⟨r, hr⟩ := hf i hi
  exact ⟨r, h.trans hr⟩

/-- `exp (a - b) * exp (x - a) = exp (x - b)`, and a real factor distributes over a finite sum of reals. -/
theorem rescale_real {ι : Type*} (s : Finset ι) (f : ι → ℝ) (a b : ℝ) :
    Ideal.exp ((a : EReal) - (b : EReal)) * ∑ i ∈ s, Ideal.exp (((f i : ℝ) : EReal) - (a : EReal))
      = ∑ i ∈ s, Ideal.exp (((f i : ℝ) : EReal) - (b : EReal)) := by
  have h1 : ∀ (c : ℝ) (i : ι),
      Ideal.exp (((f i : ℝ) : EReal) - (c : EReal)) = ((Real.exp (f i - c) : ℝ) : EReal) := by
    intro c i
    rw [← EReal.coe_sub, Ideal.exp_coe]
  rw [Finset.sum_congr rfl (fun i _ => h1 a i), Finset.sum_congr rfl (fun i _ => h1 b i),
    ← EReal.coe_sub, Ideal.exp_coe, ← coe_sum, ← coe_sum, ← EReal.coe_mul, Finset.mul_sum]
  congr 1
  refine Finset.sum_congr rfl fun i _ => ?_
  rw [← Real.exp_add]
  congr 1
  ring

def prefixMax {B : ℕ} (S : ℕ → Fin B → ℝ) (n : ℕ) : EReal :=
  (Finset.range n).sup fun j => Finset.univ.sup fun k : Fin B => ((S j k : ℝ) : EReal)

theorem prefixMax_zero {B : ℕ} (S : ℕ → Fin B → ℝ) : prefixMax S 0 = ⊥ := by
  rw [prefixMax, Finset.range_zero, Finset.sup_empty]

theorem prefixMax_succ {B : ℕ} (S : ℕ → Fin B → ℝ) (n : ℕ) :
    prefixMax S (n + 1)
      = max (prefixMax S n) (Finset.univ.sup fun k : Fin B => ((S n k : ℝ) : EReal)) := by
  rw [prefixMax, Finset.range_add_one, Finset.sup_insert]
  exact sup_comm _ _

theorem prefixMax_real {B : ℕ} (hB : 0 < B) (S : ℕ → Fin B → ℝ) {n : ℕ} (hn : 0 < n) :
    ∃ r : ℝ, prefixMax S n = (r : EReal) := by
  haveI : Nonempty (Fin B) := ⟨⟨0, hB⟩⟩
  refine sup_real _ ⟨0, Finset.mem_range.2 hn⟩ _ fun j _ => ?_
  exact sup_real _ Finset.univ_nonempty _ fun k _ => ⟨S j k, rfl⟩

/-- Rescaling by `exp (m j - m (j + 1))` moves the shift of every earlier term; at the first tile the old
    normaliser is `0`, which absorbs the factor. -/
theorem online_core {B : ℕ} (hB : 0 < B) (S : ℕ → Fin B → ℝ) (N : ℕ) (m l : ℕ → EReal)
    (hm0 : m 0 = ⊥) (hl0 : l 0 = 0)
    (hm : ∀ j, j < N →
      m (j + 1) = max (m j) (Finset.univ.sup fun k : Fin B => ((S j k : ℝ) : EReal)))
    (hl : ∀ j, j < N →
      l (j + 1) = Ideal.exp (m j - m (j + 1)) * l j
        + ∑ k : Fin B, Ideal.exp (((S j k : ℝ) : EReal) - m (j + 1))) :
    ∀ n, n ≤ N → m n = prefixMax S n ∧
      l n = ∑ j ∈ Finset.range n, ∑ k : Fin B, Ideal.exp (((S j k : ℝ) : EReal) - prefixMax S n) := by
  intro n
  induction n with
  | zero =>
    intro _
    exact ⟨by rw [hm0, prefixMax_zero], by rw [hl0, Finset.range_zero, Finset.sum_empty]⟩
  | succ n ih =>
    intro hn
    obtain ⟨ihm, ihl⟩ := ih (Nat.le_of_succ_le hn)
    have hm1 : m (n + 1) = prefixMax S (n + 1) := by
      rw [hm n hn, ihm, prefixMax_succ]
    refine ⟨hm1, ?_⟩
    rw [hl n hn, hm1, ihm, ihl, Finset.sum_range_succ]
    congr 1
    rcases Nat.eq_zero_or_pos n with h0 | hpos
    · subst h0
      rw [Finset.range_zero, Finset.sum_empty, Finset.sum_empty, mul_zero]
    · obtain ⟨a, ha⟩ := prefixMax_real hB S hpos
      obtain ⟨b, hb⟩ := prefixMax_real hB S (Nat.succ_pos n)
      rw [ha, hb,
        ← Finset.sum_product' (Finset.range n) Finset.univ
          (fun j k => Ideal.exp (((S j k : ℝ) : EReal) - (a : EReal))),
        ← Finset.sum_product' (Finset.range n) Finset.univ
          (fun j k => Ideal.exp (((S j k : ℝ) : EReal) - (b : EReal)))]
      exact rescale_real (Finset.range n ×ˢ Finset.univ) (fun p => S p.1 p.2) a b

/-- Every index `e` is `B * (e / B) + e % B`. -/
theorem sup_tiles {T B : ℕ} (f : Fin (T * B) → EReal) :
    (Finset.univ.sup fun j : Fin T => Finset.univ.sup fun k : Fin B => f ⟨B * j.val + k.val, tile_lt j k⟩)
      = Finset.univ.sup f := by
  apply le_antisymm
  · exact Finset.sup_le fun j _ => Finset.sup_le fun k _ => Finset.le_sup (Finset.mem_univ _)
  · refine Finset.sup_le fun e _ => ?_
    have h0 : 0 < T * B := Nat.lt_of_le_of_lt (Nat.zero_le _) e.isLt
    have hB : 0 < B :=
      Nat.pos_of_ne_zero fun h => by rw [h, Nat.mul_zero] at h0; exact Nat.lt_irrefl 0 h0
    have hj : e.val / B < T := Nat.div_lt_of_lt_mul (Nat.lt_of_lt_of_eq e.isLt (Nat.mul_comm T B))
    have hk : e.val % B < B := Nat.mod_lt _ hB
    let j0 : Fin T := ⟨e.val / B, hj⟩
    let k0 : Fin B := ⟨e.val % B, hk⟩
    have he : e = ⟨B * j0.val + k0.val, tile_lt j0 k0⟩ := Fin.ext (Nat.div_add_mod e.val B).symm
    calc f e = f ⟨B * j0.val + k0.val, tile_lt j0 k0⟩ := congrArg f he
      _ ≤ Finset.univ.sup fun k : Fin B => f ⟨B * j0.val + k.val, tile_lt j0 k⟩ :=
          Finset.le_sup (f := fun k : Fin B => f ⟨B * j0.val + k.val, tile_lt j0 k⟩) (Finset.mem_univ k0)
      _ ≤ _ :=
          Finset.le_sup
            (f := fun j : Fin T => Finset.univ.sup fun k : Fin B => f ⟨B * j.val + k.val, tile_lt j k⟩)
            (Finset.mem_univ j0)

theorem sup_range_fin (T : ℕ) (F : ℕ → EReal) :
    (Finset.range T).sup F = Finset.univ.sup fun j : Fin T => F j.val := by
  apply le_antisymm
  · exact Finset.sup_le fun j hj =>
      Finset.le_sup (f := fun j : Fin T => F j.val) (Finset.mem_univ (⟨j, Finset.mem_range.1 hj⟩ : Fin T))
  · exact Finset.sup_le fun j _ => Finset.le_sup (f := F) (Finset.mem_range.2 j.isLt)

theorem online_softmax {T B : ℕ} (hB : 0 < B) (s : Fin T → Fin B → ℝ) (m l : ℕ → EReal)
    (hm0 : m 0 = ⊥) (hl0 : l 0 = 0)
    (hm : ∀ j (hj : j < T),
      m (j + 1) = max (m j) (Finset.univ.sup fun k : Fin B => ((s ⟨j, hj⟩ k : ℝ) : EReal)))
    (hl : ∀ j (hj : j < T),
      l (j + 1) = Ideal.exp (m j - m (j + 1)) * l j
        + ∑ k : Fin B, Ideal.exp (((s ⟨j, hj⟩ k : ℝ) : EReal) - m (j + 1))) :
    m T = (Finset.univ.sup fun j : Fin T => Finset.univ.sup fun k : Fin B => ((s j k : ℝ) : EReal)) ∧
      l T = ∑ j : Fin T, ∑ k : Fin B, Ideal.exp (((s j k : ℝ) : EReal) - m T) := by
  obtain ⟨S, hS⟩ : ∃ S : ℕ → Fin B → ℝ, ∀ j (hj : j < T), S j = s ⟨j, hj⟩ :=
    ⟨fun j => if hj : j < T then s ⟨j, hj⟩ else fun _ => 0, fun j hj => dif_pos hj⟩
  obtain ⟨h1, h2⟩ := online_core hB S T m l hm0 hl0
    (fun j hj => by rw [hS j hj]; exact hm j hj) (fun j hj => by rw [hS j hj]; exact hl j hj) T le_rfl
  have hM : prefixMax S T
      = Finset.univ.sup fun j : Fin T => Finset.univ.sup fun k : Fin B => ((s j k : ℝ) : EReal) := by
    rw [prefixMax, sup_range_fin]
    refine Finset.sup_congr rfl fun j _ => ?_
    show (Finset.univ.sup fun k : Fin B => ((S j.val k : ℝ) : EReal)) = _
    rw [hS j.val j.isLt]
  refine ⟨h1.trans hM, ?_⟩
  rw [h2, ← h1, Finset.sum_range]
  refine Finset.sum_congr rfl fun j _ => ?_
  rw [hS j.val j.isLt]

theorem online_softmax_flat {T B : ℕ} (hB : 0 < B) (f : Fin (T * B) → EReal)
    (hf : ∀ e, ∃ r : ℝ, f e = (r : EReal)) (m l : ℕ → EReal)
    (hm0 : m 0 = ⊥) (hl0 : l 0 = 0)
    (hm : ∀ j (hj : j < T),
      m (j + 1) = max (m j) (Finset.univ.sup fun k : Fin B => f ⟨B * j + k.val, tile_lt ⟨j, hj⟩ k⟩))
    (hl : ∀ j (hj : j < T),
      l (j + 1) = Ideal.exp (m j - m (j + 1)) * l j
        + ∑ k : Fin B, Ideal.exp (f ⟨B * j + k.val, tile_lt ⟨j, hj⟩ k⟩ - m (j + 1))) :
    m T = Finset.univ.sup f ∧ l T = ∑ e : Fin (T * B), Ideal.exp (f e - Finset.univ.sup f) := by
  choose g hg using hf
  have hfg : f = fun e => ((g e : ℝ) : EReal) := funext hg
  subst hfg
  obtain ⟨h1, h2⟩ := online_softmax hB
    (fun (j : Fin T) (k : Fin B) => g ⟨B * j.val + k.val, tile_lt j k⟩) m l hm0 hl0
    (fun j hj => hm j hj) (fun j hj => hl j hj)
  have h1' : m T = Finset.univ.sup fun e : Fin (T * B) => ((g e : ℝ) : EReal) :=
    h1.trans (sup_tiles fun e : Fin (T * B) => ((g e : ℝ) : EReal))
  refine ⟨h1', ?_⟩
  rw [← h1']
  exact h2.trans (sum_tiles fun e : Fin (T * B) => Ideal.exp (((g e : ℝ) : EReal) - m T))

end AttnMath

end
-- ==== Proof.KI.Val2.lean ====
import proofs.«412990_j12266426597865_3_alg».proof.Proof.KI.Rgn2
import proofs.«412990_j12266426597865_3_alg».proof.Proof.AttnSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val2

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F] (c : Dev nD) (i : grid2.Coords)
  (arg2 : Memref sig .tc .vmem S1x8x16000 .f32) (harg2 : arg2.IsWhole)
  (arg3 : Memref sig .tc .vmem S1x8x1 .f32) (harg3 : arg3.IsWhole)
  (arg4 : Memref sig .tc .vmem S1x8x1 .f32) (harg4 : arg4.IsWhole)
  (arg5 : Memref sig .tc .vmem S8x1 .f32) (harg5 : arg5.IsWhole)
  (arg6 : Memref sig .tc .vmem S8x1 .f32) (harg6 : arg6.IsWhole)
  (x : Vec F S1x8x16000 .f32) (mx sm : Vec F S8x1 .f32)

/-- In each list the head piece spans the whole index set, so the list reads back as that piece's payload. -/
theorem first_pay (hfirst : Rgn2.isFirstTile i) (hlast : ¬Rgn2.isLastTile i) :
    let R := Rgn2.runFirstTile c i arg2 harg2 arg3 harg3 arg4 harg4 arg5 harg5 arg6 harg6 hfirst hlast x
    Rgn2.runMaxOf R.1 = k2_pay6 x (k2_pay1 (F := F))
      ∧ Rgn2.runSumOf R.2.1 = k2_pay5 x (k2_pay1 (F := F)) (k2_pay1 (F := F)) (k2_pay2 (F := F)) := by
  dsimp only
  constructor <;>
  · refine (View.read_writes_junk_eq_canon _ _).trans ?_
    unfold Rgn2.runFirstTile
    dsimp only
    sl_unfold_words
    rw [View.canon_cons_unit_zero (S := S8x1) hz2]
    simp only [View.readAt_eq_ld, harg2.read_unread, View.ld_unit_zero (S := S1x8x16000) hz3, View.readCov_unit_zero (S := S8x1) _ hz2]

theorem middle_pay (hfirst : ¬Rgn2.isFirstTile i) (hlast : ¬Rgn2.isLastTile i) :
    let R := Rgn2.runMiddleTile c i arg2 harg2 arg3 harg3 arg4 harg4 arg5 harg5 arg6 harg6 hfirst hlast x mx sm
    Rgn2.runMaxOf R.1 = k2_pay6 x mx ∧ Rgn2.runSumOf R.2.1 = k2_pay5 x mx mx sm := by
  dsimp only
  constructor <;>
  · refine (View.read_writes_junk_eq_canon _ _).trans ?_
    unfold Rgn2.runMiddleTile
    dsimp only
    sl_unfold_words
    rw [View.canon_cons_unit_zero (S := S8x1) hz2]
    simp only [View.readAt_eq_ld, harg2.read_unread, harg5.read_unread, harg6.read_unread, View.ld_unit_zero (S := S1x8x16000) hz3,
      View.ld_unit_zero (S := S8x1) hz2, View.readCov_unit_zero (S := S8x1) _ hz2]

theorem last_pay (hfirst : ¬Rgn2.isFirstTile i) (hlast : Rgn2.isLastTile i) :
    let R := Rgn2.runLastTile c i arg2 harg2 arg3 harg3 arg4 harg4 arg5 harg5 arg6 harg6 hfirst hlast x mx sm
    Rgn2.runMaxOf R.2.2.1 = k2_pay6 x mx ∧ Rgn2.runSumOf R.2.2.2.1 = k2_pay5 x mx mx sm
      ∧ Rgn2.maxOutOf R.1 = k2_pay7 (k2_pay6 x mx) ∧ Rgn2.sumOutOf R.2.1 = k2_pay8 (k2_pay5 x mx mx sm) := by
  dsimp only
  refine ⟨?_, ?_, ?_, ?_⟩ <;>
  · refine (View.read_writes_junk_eq_canon _ _).trans ?_
    unfold Rgn2.runLastTile
    dsimp only
    sl_unfold_words
    first | rw [View.canon_cons_unit_zero (S := S8x1) hz2] | rw [View.canon_cons_unit_zero (S := S1x8x1) hz3]
    simp only [View.readAt_eq_ld, harg2.read_unread, harg5.read_unread, harg6.read_unread, View.ld_unit_zero (S := S1x8x16000) hz3,
      View.ld_unit_zero (S := S8x1) hz2, View.readCov_unit_zero (S := S8x1) _ hz2]

end Pieces

theorem fold_max_bot {ι : Type*} (s : Finset ι) (f : ι → EReal) : s.fold max ⊥ f = s.sup f := by
  classical
  induction s using Finset.induction_on with
  | empty => rw [Finset.fold_empty, Finset.sup_empty]
  | insert a s ha ih => rw [Finset.fold_insert ha, Finset.sup_insert, ih]; try exact sup_eq_max.symm

theorem ofBits_neg_inf : FloatOps.ofBits (F := Ideal) .f32 0xFF800000#32 = (⊥ : EReal) := by
  simp [Ideal.ofBits, Ideal.ieee]

theorem lift_row (hr : S8x16000.Reduces [1] S8) (h : Fin 8) (k : Fin 16000) : hr.lift (ix1 h) k = ix2 h k := by
  funext a; apply Fin.ext
  match a with
  | ⟨0, _⟩ => rfl
  | ⟨1, _⟩ => rfl

theorem rowMax_apply (src : FVec Ideal S8x16000 .f32) (hr : S8x16000.Reduces [1] S8) (hφ : FKind.Formats .f32)
    (hacc : (0xFF800000#32 : BitVec 32) = FKind.maximumf.neutral .f32 hφ) (h : Fin 8) :
    multiReduction .maximumf [1] S8 src 0xFF800000#32 hr hφ hacc (ix1 h) = Finset.univ.sup fun k : Fin 16000 => src (ix2 h k) := by
  refine (Ideal.multiReduction_maximumf_single src _ hr hφ hacc (ix1 h)).trans ?_
  rw [ofBits_neg_inf]
  refine (fold_max_bot _ _).trans ?_
  exact Finset.sup_congr rfl fun (k : Fin 16000) _ => congrArg src (lift_row hr h k)

theorem rowSum_apply (src : FVec Ideal S8x16000 .f32) (hr : S8x16000.Reduces [1] S8) (hφ : FKind.Formats .f32)
    (hacc : (0x00000000#32 : BitVec 32) = FKind.add.neutral .f32 hφ) (h : Fin 8) :
    multiReduction .add [1] S8 src 0x00000000#32 hr hφ hacc (ix1 h) = ∑ k : Fin 16000, src (ix2 h k) := by
  refine (Ideal.multiReduction_add_single src _ hr hφ hacc (ix1 h)).trans ?_
  exact Finset.sum_congr rfl fun (k : Fin 16000) _ => congrArg src (lift_row hr h k)

theorem column_apply {α : Type} (v : S8.Idx → α) (hc : S8.ShapeCasts S8x1) (h : Fin 8) :
    shapeCast S8x1 v hc (ix2 h (0 : Fin 1)) = v (ix1 h) :=
  shapeCast_apply v hc _ _ (by
    rw [Shape.rowMajor_val_one, Shape.rowMajor_val_two]
    show h.val = h.val * 1 + 0
    omega)

theorem pay3_apply (x : Vec Ideal S1x8x16000 .f32) (h : Fin 8) (k : Fin 16000) :
    k2_pay3 x (ix2 h k) = x (ix3 (0 : Fin 1) h k) := by
  unfold k2_pay3; exact shapeCast_1ab_ab_apply x _ h k

theorem pay4_apply (x : Vec Ideal S1x8x16000 .f32) (mx : Vec Ideal S8x1 .f32) (h : Fin 8) :
    k2_pay4 x mx (ix2 h (0 : Fin 1))
      = max (mx (ix2 h (0 : Fin 1))) (Finset.univ.sup fun k : Fin 16000 => x (ix3 (0 : Fin 1) h k)) := by
  unfold k2_pay4
  show max (mx (ix2 h (0 : Fin 1))) (shapeCast S8x1 _ _ (ix2 h (0 : Fin 1))) = _
  rw [column_apply]
  refine congrArg (max (mx (ix2 h (0 : Fin 1)))) ((rowMax_apply (k2_pay3 x) _ _ _ h).trans ?_)
  exact Finset.sup_congr rfl fun k _ => pay3_apply x h k

theorem pay6_eq (x : Vec Ideal S1x8x16000 .f32) (mx : Vec Ideal S8x1 .f32) : k2_pay6 x mx = k2_pay4 x mx := by
  unfold k2_pay6; exact shapeCast_self _ _

theorem pay5_apply (x : Vec Ideal S1x8x16000 .f32) (v7 v9 v15 : Vec Ideal S8x1 .f32) (h : Fin 8) :
    k2_pay5 x v7 v9 v15 (ix2 h (0 : Fin 1))
      = Ideal.exp (v9 (ix2 h (0 : Fin 1)) - k2_pay4 x v7 (ix2 h (0 : Fin 1))) * v15 (ix2 h (0 : Fin 1))
        + ∑ k : Fin 16000, Ideal.exp (x (ix3 (0 : Fin 1) h k) - k2_pay4 x v7 (ix2 h (0 : Fin 1))) := by
  unfold k2_pay5
  rw [shapeCast_self]
  show Ideal.exp (v9 (ix2 h (0 : Fin 1)) - k2_pay4 x v7 (ix2 h (0 : Fin 1))) * v15 (ix2 h (0 : Fin 1))
      + shapeCast S8x1 _ _ (ix2 h (0 : Fin 1)) = _
  rw [column_apply]
  refine congrArg (Ideal.exp (v9 (ix2 h (0 : Fin 1)) - k2_pay4 x v7 (ix2 h (0 : Fin 1))) * v15 (ix2 h (0 : Fin 1)) + ·) ((rowSum_apply _ _ _ _ h).trans ?_)
  refine Finset.sum_congr rfl fun k _ => ?_
  show Ideal.exp (k2_pay3 x (ix2 h k) - broadcastTo S8x16000 (k2_pay4 x v7) _ (ix2 h k)) = _
  rw [pay3_apply, broadcastTo_apply (k2_pay4 x v7) _ (ix2 h k) (ix2 h (0 : Fin 1)) (fun a => by
    match a with
    | ⟨0, _⟩ => rfl
    | ⟨1, _⟩ => rfl)]

theorem pay1_apply (j : S8x1.Idx) : (k2_pay1 (F := Ideal)) j = (⊥ : EReal) := by
  unfold k2_pay1; rw [shapeCast_self]; exact ofBits_neg_inf
theorem pay2_apply (j : S8x1.Idx) : (k2_pay2 (F := Ideal)) j = (0 : EReal) := by
  unfold k2_pay2; rw [shapeCast_self]; exact Ideal.ofBits_zero_f32

theorem pay7_apply (v : Vec Ideal S8x1 .f32) (h : Fin 8) : k2_pay7 v (ix3 (0 : Fin 1) h (0 : Fin 1)) = v (ix2 h (0 : Fin 1)) := by
  unfold k2_pay7; exact shapeCast_ab_1ab_apply v _ 0 h 0
theorem pay8_apply (v : Vec Ideal S8x1 .f32) (h : Fin 8) : k2_pay8 v (ix3 (0 : Fin 1) h (0 : Fin 1)) = v (ix2 h (0 : Fin 1)) := by
  unfold k2_pay8; exact shapeCast_ab_1ab_apply v _ 0 h 0

variable (V : (c : Dev nD) → (b : Ref sig .tc) → Buf (Elt Ideal) ((c : Thread nD τ).loc b))

abbrev Sc (c : Dev nD) : S4x8x161792.Idx → EReal := V c main_v16

abbrev sc (c : Dev nD) (b : Fin 4) (h : Fin 8) : Fin 160000 → EReal := fun e => Sc V c (ix3 b h ⟨e.val, by omega⟩)

abbrev tileCol (j : ℕ) (hj : j < 10) (k : Fin 16000) : Fin 160000 :=
  ⟨16000 * j + k.val, AttnMath.tile_lt (T := 10) (B := 16000) ⟨j, hj⟩ k⟩

def onlineMax (c : Dev nD) (b : Fin 4) (h : Fin 8) : ℕ → EReal
  | 0 => ⊥
  | j + 1 =>
    if hj : j < 10 then max (onlineMax c b h j) (Finset.univ.sup fun k : Fin 16000 => sc V c b h (tileCol j hj k))
    else onlineMax c b h j

def onlineSum (c : Dev nD) (b : Fin 4) (h : Fin 8) : ℕ → EReal
  | 0 => 0
  | j + 1 =>
    if hj : j < 10 then
      Ideal.exp (onlineMax V c b h j - onlineMax V c b h (j + 1)) * onlineSum c b h j
        + ∑ k : Fin 16000, Ideal.exp (sc V c b h (tileCol j hj k) - onlineMax V c b h (j + 1))
    else onlineSum c b h j

theorem onlineMax_succ (c : Dev nD) (b : Fin 4) (h : Fin 8) (j : ℕ) (hj : j < 10) :
    onlineMax V c b h (j + 1)
      = max (onlineMax V c b h j) (Finset.univ.sup fun k : Fin 16000 => sc V c b h (tileCol j hj k)) := by
  rw [onlineMax, dif_pos hj]

theorem onlineSum_succ (c : Dev nD) (b : Fin 4) (h : Fin 8) (j : ℕ) (hj : j < 10) :
    onlineSum V c b h (j + 1)
      = Ideal.exp (onlineMax V c b h j - onlineMax V c b h (j + 1)) * onlineSum V c b h j
        + ∑ k : Fin 16000, Ideal.exp (sc V c b h (tileCol j hj k) - onlineMax V c b h (j + 1)) := by
  rw [onlineSum, dif_pos hj]

theorem online_final (c : Dev nD) (b : Fin 4) (h : Fin 8) (hfin : ∀ e : Fin 160000, ∃ r : ℝ, sc V c b h e = (r : EReal)) :
    onlineMax V c b h 10 = Finset.univ.sup (sc V c b h)
      ∧ onlineSum V c b h 10 = ∑ e : Fin 160000, Ideal.exp (sc V c b h e - Finset.univ.sup (sc V c b h)) :=
  AttnMath.online_softmax_flat (T := 10) (B := 16000) (by decide) (sc V c b h) hfin
    (onlineMax V c b h) (onlineSum V c b h) rfl rfl
    (fun j hj => onlineMax_succ V c b h j hj) (fun j hj => onlineSum_succ V c b h j hj)

theorem index_scores : ∀ t : Fin cfg2.N, win2_0.index t 0 = t.val / 10 ∧ win2_0.index t 1 = 0 ∧ win2_0.index t 2 = t.val % 10 := by
  decide +kernel

abbrev pt (b : Fin 4) (j : ℕ) (hj : j < 10) : Fin cfg2.N := ⟨10 * b.val + j, by have := b.isLt; have : cfg2.N = 40 := N_2; omega⟩

theorem scoresAt_apply (c : Dev nD) (b : Fin 4) (j : ℕ) (hj : j < 10) (h : Fin 8) (k : Fin 16000) :
    Rgn2.scoresAt V c (pt b j hj) (ix3 (0 : Fin 1) h k) = sc V c b h (tileCol j hj k) := by
  have hm : (cfg2.win 0).moved (grid2.coords (pt b j hj)) (ix3 (0 : Fin 1) h k) = true :=
    ((cfg2.win 0).moved_iff _ _).mpr fun a => by
      have := ((ix3 (0 : Fin 1) h k : S1x8x16000.Idx) a).isLt
      unfold Pipeline.Window.xsize; rw [Rgn2.scores_uncut (pt b j hj) a]; exact this
  unfold Rgn2.scoresAt Pipeline.Window.fill
  rw [dif_pos hm]
  unfold Rgn2.iblk
  rw [View.read_apply]
  show V c main_v16 _ = V c main_v16 _
  congr 1
  funext a; apply Fin.ext
  obtain ⟨i0, i1, i2⟩ := index_scores (pt b j hj)
  have hb := b.isLt
  match a with
  | ⟨0, _⟩ => show win2_0.index (pt b j hj) 0 * 1 + 1 * 0 = b.val; rw [i0]; show (10 * b.val + j) / 10 * 1 + 1 * 0 = b.val; omega
  | ⟨1, _⟩ => show win2_0.index (pt b j hj) 1 * 8 + 1 * h.val = h.val; rw [i1]; omega
  | ⟨2, _⟩ => show win2_0.index (pt b j hj) 2 * 16000 + 1 * k.val = 16000 * j + k.val; rw [i2]; show (10 * b.val + j) % 10 * 16000 + 1 * k.val = 16000 * j + k.val; omega

theorem step_max (c : Dev nD) (b : Fin 4) (h : Fin 8) (j : ℕ) (hj : j < 10) (mx : Vec Ideal S8x1 .f32)
    (hmx : mx (ix2 h (0 : Fin 1)) = onlineMax V c b h j) :
    k2_pay4 (Rgn2.scoresAt V c (pt b j hj)) mx (ix2 h (0 : Fin 1)) = onlineMax V c b h (j + 1) := by
  rw [pay4_apply, hmx, onlineMax_succ V c b h j hj]
  exact congrArg (max (onlineMax V c b h j)) (Finset.sup_congr rfl fun k _ => scoresAt_apply V c b j hj h k)

theorem step_sum (c : Dev nD) (b : Fin 4) (h : Fin 8) (j : ℕ) (hj : j < 10) (v7 v9 v15 : Vec Ideal S8x1 .f32)
    (h7 : v7 (ix2 h (0 : Fin 1)) = onlineMax V c b h j) (h9 : v9 (ix2 h (0 : Fin 1)) = onlineMax V c b h j)
    (h15 : v15 (ix2 h (0 : Fin 1)) = onlineSum V c b h j) :
    k2_pay5 (Rgn2.scoresAt V c (pt b j hj)) v7 v9 v15 (ix2 h (0 : Fin 1)) = onlineSum V c b h (j + 1) := by
  rw [pay5_apply, step_max V c b h j hj v7 h7, h9, h15, onlineSum_succ V c b h j hj]
  refine congrArg (Ideal.exp (onlineMax V c b h j - onlineMax V c b h (j + 1)) * onlineSum V c b h j + ·) ?_
  exact Finset.sum_congr rfl fun k _ => by rw [scoresAt_apply V c b j hj h k]

/-- By induction on the tile: after tile `j` of batch `b` the carried pair is the recurrence after `j + 1` tiles. -/
theorem carried_eq (c : Dev nD) (b : Fin 4) (h : Fin 8) : ∀ (j : ℕ) (hj : j < 10),
    (Rgn2.carriedAt V c (pt b j hj).val (pt b j hj).isLt).1 (ix2 h (0 : Fin 1)) = onlineMax V c b h (j + 1)
      ∧ (Rgn2.carriedAt V c (pt b j hj).val (pt b j hj).isLt).2 (ix2 h (0 : Fin 1)) = onlineSum V c b h (j + 1)
  | 0, hj => by
    have h0 : (pt b 0 hj).val % 10 = 0 := by show (10 * b.val + 0) % 10 = 0; omega
    rw [Rgn2.carriedAt_first V c _ h0, (first_pay ..).1, (first_pay ..).2, pay6_eq]
    exact ⟨step_max V c b h 0 hj _ (pay1_apply _),
      step_sum V c b h 0 hj _ _ _ (pay1_apply _) (pay1_apply _) (pay2_apply _)⟩
  | j + 1, hj => by
    obtain ⟨ihm, ihs⟩ := carried_eq c b h j (by omega)
    have h0 : ¬(pt b (j + 1) hj).val % 10 = 0 := by show ¬(10 * b.val + (j + 1)) % 10 = 0; omega
    by_cases h9 : (pt b (j + 1) hj).val % 10 = 9
    · rw [Rgn2.carriedAt_last V c _ h9, (last_pay ..).1, (last_pay ..).2.1, pay6_eq]
      exact ⟨step_max V c b h (j + 1) hj _ ihm, step_sum V c b h (j + 1) hj _ _ _ ihm ihm ihs⟩
    · rw [Rgn2.carriedAt_middle V c _ h0 h9, (middle_pay ..).1, (middle_pay ..).2, pay6_eq]
      exact ⟨step_max V c b h (j + 1) hj _ ihm, step_sum V c b h (j + 1) hj _ _ _ ihm ihm ihs⟩

abbrev lastPt (b : Fin 4) : Fin cfg2.N := pt b 9 (by decide)

theorem last_mod (b : Fin 4) : (lastPt b).val % 10 = 9 := by show (10 * b.val + 9) % 10 = 9; omega

theorem exists_lastPt (t : Fin cfg2.N) (h9 : t.val % 10 = 9) : ∃ b : Fin 4, t = lastPt b :=
  have hN : cfg2.N = 40 := N_2
  ⟨⟨t.val / 10, by have := t.isLt; omega⟩, Fin.ext (by show t.val = 10 * (t.val / 10) + 9; omega)⟩

/-- Both outputs' block at batch `b`'s last tile is block `(b, 0, 0)`. -/
theorem index_out : ∀ b : Fin 4,
    (win2_1.index (lastPt b) 0 = b.val ∧ win2_1.index (lastPt b) 1 = 0 ∧ win2_1.index (lastPt b) 2 = 0)
      ∧ win2_2.index (lastPt b) 0 = b.val ∧ win2_2.index (lastPt b) 1 = 0 ∧ win2_2.index (lastPt b) 2 = 0 := by
  decide +kernel

/-- At batch `b`'s last tile the two output blocks hold, at row `y 1`, the recurrence after the ten tiles. -/
theorem outAt_apply (c : Dev nD) (b : Fin 4) (y : S1x8x1.Idx) :
    Rgn2.maxOutAt V c (lastPt b) y = onlineMax V c b ⟨(y 1).val, (y 1).isLt⟩ 10
      ∧ Rgn2.sumOutAt V c (lastPt b) y = onlineSum V c b ⟨(y 1).val, (y 1).isLt⟩ 10 := by
  obtain ⟨u, h, w, rfl⟩ : ∃ (u : Fin 1) (h : Fin 8) (w : Fin 1), y = ix3 u h w := ⟨y 0, y 1, y 2, eq_ix3 y⟩
  obtain rfl : u = 0 := Subsingleton.elim _ _
  obtain rfl : w = 0 := Subsingleton.elim _ _
  obtain ⟨hm, hs⟩ := carried_eq V c b h 8 (by decide)
  rw [Rgn2.maxOutAt_last V c _ (last_mod b), Rgn2.sumOutAt_last V c _ (last_mod b), (last_pay ..).2.2.1, (last_pay ..).2.2.2,
    pay7_apply, pay8_apply, pay6_eq]
  exact ⟨step_max V c b h 9 (by decide) _ hm, step_sum V c b h 9 (by decide) _ _ _ hm hm hs⟩

/-- What the two output arrays end holding: at `(b, h, 0)` the recurrence after the ten tiles of batch `b`, row `h`. -/
def maxFinal (c : Dev nD) : S4x8x1.Idx → EReal :=
  fun i => onlineMax V c ⟨(i 0).val, (i 0).isLt⟩ ⟨(i 1).val, (i 1).isLt⟩ 10
def sumFinal (c : Dev nD) : S4x8x1.Idx → EReal :=
  fun i => onlineSum V c ⟨(i 0).val, (i 0).isLt⟩ ⟨(i 1).val, (i 1).isLt⟩ 10

theorem flushed_1 (c : Dev nD) (t : Fin cfg2.N) (hf : (cfg2.win 1).flush t = true) :
    (Rgn2.dat V c).flushed 1 t = ((cfg2.win 1).blk t).view.read (Elt Ideal) (maxFinal V c) := by
  obtain ⟨b, rfl⟩ := exists_lastPt t ((flush2_1 t).mp hf)
  funext y
  rw [View.read_apply]
  show (Rgn2.dat V c).after 1 (lastPt b) ((cfg2.win 1).xinj (grid2.coords (lastPt b)) y) = maxFinal V c _
  rw [Rgn2.after_maxOut, (outAt_apply V c b _).1]
  obtain ⟨⟨i0, i1, -⟩, -⟩ := index_out b
  have hy0 : (y 0).val < 1 := (y 0).isLt
  unfold maxFinal
  congr 1 <;> apply Fin.ext
  · show b.val = win2_1.index (lastPt b) 0 * 1 + 1 * (y 0).val; rw [i0]; omega
  · show (y 1).val = win2_1.index (lastPt b) 1 * 8 + 1 * (y 1).val; rw [i1]; omega

theorem cover_1 (c : Dev nD) (i : ((cfg2.win 1).arr.view.loc (c.tc : Thread nD τ)).2.ty.Idx) :
    ∃ t : Fin cfg2.N, (cfg2.win 1).flush t = true ∧ i ∈ ((cfg2.win 1).blk t).view.set := by
  obtain ⟨b, hb⟩ : ∃ b : Fin 4, b.val = (i 0).val := ⟨⟨(i 0).val, (i 0).isLt⟩, rfl⟩
  have h1 : (i 1).val < 8 := (i 1).isLt
  have h2 : (i 2).val < 1 := (i 2).isLt
  refine ⟨lastPt b, (flush2_1 _).mpr (last_mod b), ?_⟩
  show i ∈ ((View.whole main_v17_0).slice (win2_1.rect (lastPt b))).set
  rw [View.set_slice_whole, Rect.mem_set_unit]
  obtain ⟨⟨i0, i1, i2⟩, -⟩ := index_out b
  intro a
  match a with
  | ⟨0, _⟩ => show win2_1.index (lastPt b) 0 * 1 ≤ (i 0).val ∧ (i 0).val < win2_1.index (lastPt b) 0 * 1 + 1; rw [i0]; omega
  | ⟨1, _⟩ => show win2_1.index (lastPt b) 1 * 8 ≤ (i 1).val ∧ (i 1).val < win2_1.index (lastPt b) 1 * 8 + 8; rw [i1]; omega
  | ⟨2, _⟩ => show win2_1.index (lastPt b) 2 * 1 ≤ (i 2).val ∧ (i 2).val < win2_1.index (lastPt b) 2 * 1 + 1; rw [i2]; omega

theorem flushed_2 (c : Dev nD) (t : Fin cfg2.N) (hf : (cfg2.win 2).flush t = true) :
    (Rgn2.dat V c).flushed 2 t = ((cfg2.win 2).blk t).view.read (Elt Ideal) (sumFinal V c) := by
  obtain ⟨b, rfl⟩ := exists_lastPt t ((flush2_2 t).mp hf)
  funext y
  rw [View.read_apply]
  show (Rgn2.dat V c).after 2 (lastPt b) ((cfg2.win 2).xinj (grid2.coords (lastPt b)) y) = sumFinal V c _
  rw [Rgn2.after_sumOut, (outAt_apply V c b _).2]
  obtain ⟨-, i0, i1, -⟩ := index_out b
  have hy0 : (y 0).val < 1 := (y 0).isLt
  unfold sumFinal
  congr 1 <;> apply Fin.ext
  · show b.val = win2_2.index (lastPt b) 0 * 1 + 1 * (y 0).val; rw [i0]; omega
  · show (y 1).val = win2_2.index (lastPt b) 1 * 8 + 1 * (y 1).val; rw [i1]; omega

theorem cover_2 (c : Dev nD) (i : ((cfg2.win 2).arr.view.loc (c.tc : Thread nD τ)).2.ty.Idx) :
    ∃ t : Fin cfg2.N, (cfg2.win 2).flush t = true ∧ i ∈ ((cfg2.win 2).blk t).view.set := by
  obtain ⟨b, hb⟩ : ∃ b : Fin 4, b.val = (i 0).val := ⟨⟨(i 0).val, (i 0).isLt⟩, rfl⟩
  have h1 : (i 1).val < 8 := (i 1).isLt
  have h2 : (i 2).val < 1 := (i 2).isLt
  refine ⟨lastPt b, (flush2_2 _).mpr (last_mod b), ?_⟩
  show i ∈ ((View.whole main_v17_1).slice (win2_2.rect (lastPt b))).set
  rw [View.set_slice_whole, Rect.mem_set_unit]
  obtain ⟨-, i0, i1, i2⟩ := index_out b
  intro a
  match a with
  | ⟨0, _⟩ => show win2_2.index (lastPt b) 0 * 1 ≤ (i 0).val ∧ (i 0).val < win2_2.index (lastPt b) 0 * 1 + 1; rw [i0]; omega
  | ⟨1, _⟩ => show win2_2.index (lastPt b) 1 * 8 ≤ (i 1).val ∧ (i 1).val < win2_2.index (lastPt b) 1 * 8 + 8; rw [i1]; omega
  | ⟨2, _⟩ => show win2_2.index (lastPt b) 2 * 1 ≤ (i 2).val ∧ (i 2).val < win2_2.index (lastPt b) 2 * 1 + 1; rw [i2]; omega

/-- The four last-tile blocks tile each output array, so with every score real it holds the row's largest score, -/
theorem final_max (c : Dev nD) (hfin : ∀ b h (e : Fin 160000), ∃ r : ℝ, sc V c b h e = (r : EReal)) (b : Fin 4) (h : Fin 8) :
    ((Rgn2.dat V c).arrAt 1 cfg2.N : S4x8x1.Idx → EReal) (ix3 b h (0 : Fin 1)) = Finset.univ.sup (sc V c b h) := by
  rw [(Rgn2.dat V c).arrAt_eq_of_cover 1 (maxFinal V c) (flushed_1 V c) (cover_1 c)]
  exact (online_final V c b h (hfin b h)).1

/-- resp. the sum of the scores' exponentials shifted by that largest score. -/
theorem final_sum (c : Dev nD) (hfin : ∀ b h (e : Fin 160000), ∃ r : ℝ, sc V c b h e = (r : EReal)) (b : Fin 4) (h : Fin 8) :
    ((Rgn2.dat V c).arrAt 2 cfg2.N : S4x8x1.Idx → EReal) (ix3 b h (0 : Fin 1))
      = ∑ e : Fin 160000, Ideal.exp (sc V c b h e - Finset.univ.sup (sc V c b h)) := by
  rw [(Rgn2.dat V c).arrAt_eq_of_cover 2 (sumFinal V c) (flushed_2 V c) (cover_2 c)]
  exact (online_final V c b h (hfin b h)).2

end Cert.KernelIdeal.Val2

end
-- ==== Proof.KI.Glue2.lean ====
import proofs.«412990_j12266426597865_3_alg».proof.Proof.KI.Glue1
import proofs.«412990_j12266426597865_3_alg».proof.Proof.KI.GlueR
import proofs.«412990_j12266426597865_3_alg».proof.Proof.KI.Val2

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

-- The statistics region reads the specification's scores, which are reals: its two outputs are their largest and their normaliser.
theorem stats_eq (hfin : RealIn m c) (hr : NodeIn m c) (b : Fin 4) (h : Fin 8) :
    (W12 m ρ c (Proc.devRef .tc main_v17_0) : S4x8x1.Idx → EReal) (ix3 b h 0) = AttnSpec.top (pS m c) b h
      ∧ (W12 m ρ c (Proc.devRef .tc main_v17_1) : S4x8x1.Idx → EReal) (ix3 b h 0) = AttnSpec.mass (pS m c) b h := by
  have hsc : ∀ b h, Val2.sc (V11 m ρ) c b h = fun e => pS m c b e h := fun b h => funext (sArr_eq m ρ c hr b h)
  have hreal : ∀ b h (e : Fin 160000), ∃ r : ℝ, Val2.sc (V11 m ρ) c b h e = (r : EReal) := fun b h e => by
    rw [hsc]; exact pS_real m c hfin b e h
  have h1 := Val2.final_max (V11 m ρ) c hreal b h
  have h2 := Val2.final_sum (V11 m ρ) c hreal b h
  rw [hsc] at h1 h2
  exact ⟨(congrFun (W12_arr m ρ c 1) _).trans h1, (congrFun (W12_arr m ρ c 2) _).trans h2⟩

end Cert.KernelIdeal.Whole

end
-- ==== Proof.KI.Val3.lean ====
import proofs.«412990_j12266426597865_3_alg».proof.Proof.KI.Rgn3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val3

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev scoresArr (c : Dev nD) : S4x8x161792.Idx → EReal := V c main_v16
abbrev maxArr (c : Dev nD) : S4x8x1.Idx → EReal := V c main_v17_0
abbrev sumArr (c : Dev nD) : S4x8x1.Idx → EReal := V c main_v17_1

def weights (c : Dev nD) : S4x160000x8.Idx → EReal := fun i =>
  Ideal.div (Ideal.exp (scoresArr V c (ix3 (i 0) (i 2) ⟨(i 1).val, Nat.lt_trans (i 1).isLt (by decide)⟩) - maxArr V c (ix3 (i 0) (i 2) 0)))
    (sumArr V c (ix3 (i 0) (i 2) 0))

theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ => show p.val = if a = 1 then 0 else p.val; split <;> omega
  | ⟨1, _⟩ => rfl

-- Entry (u, r, h) of the result block: the transposed quotient read at (h, r), each statistic's column broadcast along its row.
theorem pay_at (s : Vec Ideal S1x8x16000 .f32) (m l : Vec Ideal S1x8x1 .f32) (y : S1x16000x8.Idx) :
    k3_pay1 s m l y
      = Ideal.div (Ideal.exp (s (ix3 (0 : Fin 1) (y 2) (y 1)) - m (ix3 (0 : Fin 1) (y 2) (0 : Fin 1)))) (l (ix3 (0 : Fin 1) (y 2) (0 : Fin 1))) := by
  obtain ⟨u, r, h, rfl⟩ : ∃ (u : Fin 1) (r : Fin 16000) (h : Fin 8), y = ix3 u r h := ⟨y 0, y 1, y 2, eq_ix3 y⟩
  unfold k3_pay1
  refine (shapeCast_ab_1ab_apply _ _ u r h).trans ((transpose_ix2_apply _ _ r h).trans ((divf_apply _ _ (ix2 h r)).trans
    (congrArg₂ Ideal.div ?_ ((broadcastTo_a1_ab_apply _ _ h r).trans (shapeCast_1ab_ab_apply l _ h (0 : Fin 1))))))
  show Ideal.exp _ = _
  exact congrArg Ideal.exp ((subf_apply _ _ (ix2 h r)).trans (congrArg₂ (· - ·) (shapeCast_1ab_ab_apply s _ h r)
    ((broadcastTo_a1_ab_apply _ _ h r).trans (shapeCast_1ab_ab_apply m _ h (0 : Fin 1)))))

theorem idx_facts : ∀ t : Fin cfg3.N,
    win3_0.index t (0 : Fin 3) = win3_3.index t (0 : Fin 3) ∧ win3_0.index t (1 : Fin 3) = 0 ∧ win3_0.index t (2 : Fin 3) = win3_3.index t (1 : Fin 3)
    ∧ win3_1.index t (0 : Fin 3) = win3_3.index t (0 : Fin 3) ∧ win3_1.index t (1 : Fin 3) = 0 ∧ win3_1.index t (2 : Fin 3) = 0
    ∧ win3_2.index t (0 : Fin 3) = win3_3.index t (0 : Fin 3) ∧ win3_2.index t (1 : Fin 3) = 0 ∧ win3_2.index t (2 : Fin 3) = 0
    ∧ win3_3.index t (2 : Fin 3) = 0 :=
  (by decide +kernel : ∀ t : Fin grid3.N, _)

theorem idx_onto : ∀ q0 < 4, ∀ q1 < 10, ∃ t : Fin cfg3.N, win3_3.index t (0 : Fin 3) = q0 ∧ win3_3.index t (1 : Fin 3) = q1 :=
  (by decide +kernel : ∀ q0 < 4, ∀ q1 < 10, ∃ t : Fin grid3.N, _)

theorem hz3 : (![0, 0, 0] : Fin 3 → Nat) = fun _ => 0 := funext fun a => by fin_cases a <;> rfl

theorem idx3_ext {n : Fin 3 → ℕ} {x y : (a : Fin 3) → Fin (n a)} (h0 : (x 0 : ℕ) = y 0) (h1 : (x 1 : ℕ) = y 1)
    (h2 : (x 2 : ℕ) = y 2) : x = y :=
  funext fun a => Fin.ext (match a with | ⟨0, _⟩ => h0 | ⟨1, _⟩ => h1 | ⟨2, _⟩ => h2)

-- The index maps pair batch with batch and columns with columns, so a point's result block is the weights of its own three input blocks.
theorem flushed_eq (c : Dev nD) (t : Fin cfg3.N) :
    (Rgn3.dat V c).flushed 3 t = ((cfg3.win 3).blk t).view.read (Elt Ideal) (weights V c) := by
  show (cfg3.win 3).cut (grid3.coords t) ((Rgn3.dat V c).after 3 t) = _
  rw [Rgn3.after_3]
  unfold Rgn3.normed
  rw [View.canon_unit_zero hz3]
  simp only [View.ld_unit_zero (S := S1x8x16000) hz3, View.ld_unit_zero (S := S1x8x1) hz3]
  obtain ⟨e0, e1, e2, e3, e4, e5, e6, e7, e8, e9⟩ := idx_facts t
  funext j
  have hj0 : (j 0).val < 1 := (j 0).isLt
  refine (pay_at _ _ _ ((cfg3.win 3).xinj (grid3.coords t) j)).trans ?_
  rw [View.read_apply]
  unfold weights
  refine congrArg₂ Ideal.div (congrArg Ideal.exp (congrArg₂ (· - ·) ?_ ?_)) ?_
  · refine congrArg (V c main_v16) (idx3_ext ?_ ?_ ?_)
    · show win3_0.index t (0 : Fin 3) * 1 + 1 * 0 = win3_3.index t (0 : Fin 3) * 1 + 1 * (j 0).val; omega
    · show win3_0.index t (1 : Fin 3) * 8 + 1 * (j 2).val = win3_3.index t (2 : Fin 3) * 8 + 1 * (j 2).val; omega
    · show win3_0.index t (2 : Fin 3) * 16000 + 1 * (j 1).val = win3_3.index t (1 : Fin 3) * 16000 + 1 * (j 1).val; omega
  · refine congrArg (V c main_v17_0) (idx3_ext ?_ ?_ ?_)
    · show win3_1.index t (0 : Fin 3) * 1 + 1 * 0 = win3_3.index t (0 : Fin 3) * 1 + 1 * (j 0).val; omega
    · show win3_1.index t (1 : Fin 3) * 8 + 1 * (j 2).val = win3_3.index t (2 : Fin 3) * 8 + 1 * (j 2).val; omega
    · show win3_1.index t (2 : Fin 3) * 1 + 1 * 0 = 0; omega
  · refine congrArg (V c main_v17_1) (idx3_ext ?_ ?_ ?_)
    · show win3_2.index t (0 : Fin 3) * 1 + 1 * 0 = win3_3.index t (0 : Fin 3) * 1 + 1 * (j 0).val; omega
    · show win3_2.index t (1 : Fin 3) * 8 + 1 * (j 2).val = win3_3.index t (2 : Fin 3) * 8 + 1 * (j 2).val; omega
    · show win3_2.index t (2 : Fin 3) * 1 + 1 * 0 = 0; omega

-- Every index of the result is in the block of the point at (batch, column / 16000).
theorem covered (i : S4x160000x8.Idx) : ∃ t : Fin cfg3.N, (cfg3.win 3).flush t = true ∧ i ∈ ((cfg3.win 3).blk t).view.set := by
  have hi0 : (i 0).val < 4 := (i 0).isLt
  have hi1 : (i 1).val < 160000 := (i 1).isLt
  have hi2 : (i 2).val < 8 := (i 2).isLt
  obtain ⟨t, q0, q1⟩ := idx_onto _ hi0 ((i 1).val / 16000) (by omega)
  have q2 := (idx_facts t).2.2.2.2.2.2.2.2.2
  refine ⟨t, flush3_3 t, ?_⟩
  show i ∈ ((View.whole main_v18).slice (win3_3.rect t)).set
  rw [View.set_slice_whole, Rect.mem_set_unit]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 16000 ≤ (i 1).val ∧ (i 1).val < win3_3.index t (1 : Fin 3) * 16000 + 16000; omega
  | ⟨2, _⟩ => show win3_3.index t (2 : Fin 3) * 8 ≤ (i 2).val ∧ (i 2).val < win3_3.index t (2 : Fin 3) * 8 + 8; omega

theorem final_weights (c : Dev nD) (b : Fin 4) (e : Fin 160000) (h : Fin 8) :
    ((Rgn3.dat V c).arrAt 3 cfg3.N : S4x160000x8.Idx → EReal) (ix3 b e h)
      = Ideal.div (Ideal.exp (scoresArr V c (ix3 b h ⟨e.val, by omega⟩) - maxArr V c (ix3 b h 0))) (sumArr V c (ix3 b h 0)) :=
  congrFun ((Rgn3.dat V c).arrAt_eq_of_cover 3 (weights V c) (fun t _ => flushed_eq V c t) covered) (ix3 b e h)

end Cert.KernelIdeal.Val3

end
-- ==== Proof.KI.Glue3.lean ====
import proofs.«412990_j12266426597865_3_alg».proof.Proof.KI.Glue2
import proofs.«412990_j12266426597865_3_alg».proof.Proof.KI.Val3
import proofs.«412990_j12266426597865_3_alg».proof.Proof.KI.HostReads

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

-- The first result: the last stretch leaves the normalisation region's output, the exponential of each score less the largest, over the normaliser.
theorem W14_weights (hfin : RealIn m c) (hr : NodeIn m c) :
    W14 m ρ c (Proc.devRef .tc main_v18) = AttnSpec.weights (aX m c) (aQw m c) (aQb m c) (aKw m c) (aKb m c) (aE m c) := by
  funext i
  obtain ⟨b, e, h, rfl⟩ : ∃ (b : Fin 4) (e : Fin 160000) (h : Fin 8), i = ix3 b e h := ⟨i 0, i 1, i 2, eq_ix3 i⟩
  have hs : Val3.scoresArr (V12 m ρ) c = sArr m ρ c :=
    (W12_arr m ρ c 0).trans (((Rgn2.dat (V11 m ρ) c).arrAt_in 0 rfl _).trans (Rgn2.A_eq (V11 m ρ) c 0))
  obtain ⟨hm, hl⟩ := stats_eq m ρ c hfin hr b h
  refine (congrFun ((HostReads.C_of_not_written (W13 m ρ c) main_v18 (by decide)).trans (W13_arr m ρ c 3)) _).trans <|
    (Val3.final_weights (V12 m ρ) c b e h).trans ?_
  show _ = AttnSpec.attn (pS m c) b e h
  unfold AttnSpec.attn
  exact congrArg₂ Ideal.div (congrArg Ideal.exp (congrArg₂ (· - ·) ((congrFun hs _).trans (sArr_eq m ρ c hr b h e)) hm)) hl

end Cert.KernelIdeal.Whole

end
-- ==== Proof.KI.GlueV.lean ====
import proofs.«412990_j12266426597865_3_alg».proof.Proof.KI.Glue0

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

-- The second result: nothing after the projection region writes the value projection until the last stretch splits it into heads.
theorem W14_values : W14 m ρ c (Proc.devRef .tc main_v20) = AttnSpec.values (aX m c) (aVw m c) (aVb m c) := by
  funext i
  obtain ⟨b, n, d, h, rfl⟩ : ∃ (b : Fin 4) (n : Fin 10000) (d : Fin 16) (h : Fin 8), i = ix4 b n d h :=
    ⟨i 0, i 1, i 2, i 3, eq_ix4 i⟩
  exact (HostReads.C_v20_apply (W13 m ρ c) b n d h).trans <|
    (congrFun ((W13_of_ne m ρ c main_v3_2 (by decide)).trans <| (W12_of_ne m ρ c main_v3_2 (by decide)).trans <|
      (W11_of_ne m ρ c main_v3_2 (by decide)).trans <| HostReads.B_main_v3_2 (W2 m ρ c)) _).trans
    (vArr_eq m ρ c b n (AttnSpec.feat h d))

end Cert.KernelIdeal.Whole

end
-- ==== Proof.KI.Values.lean ====
import proofs.«412990_j12266426597865_3_alg».proof.Proof.KI.Frame
import proofs.«412990_j12266426597865_3_alg».proof.Proof.KI.Glue3
import proofs.«412990_j12266426597865_3_alg».proof.Proof.KI.GlueV

set_option maxRecDepth 16384

noncomputable section

namespace Cert.KernelIdeal.Whole

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

-- Every final memory of the run holds the last valuation's contents, read here at the two results; the arguments are the frame's.
theorem run_values
    (hfin : ∀ c : Dev nD, (∀ i, ∃ r : ℝ, m ((c : Thread nD τ).loc main_arg0) i = (r : EReal)) ∧ (∀ i, ∃ r : ℝ, m ((c : Thread nD τ).loc main_arg1) i = (r : EReal))
      ∧ (∀ i, ∃ r : ℝ, m ((c : Thread nD τ).loc main_arg2) i = (r : EReal)) ∧ (∀ i, ∃ r : ℝ, m ((c : Thread nD τ).loc main_arg3) i = (r : EReal))
      ∧ (∀ i, ∃ r : ℝ, m ((c : Thread nD τ).loc main_arg4) i = (r : EReal)))
    (hr : ∀ (c : Dev nD) i, 0 ≤ (m ((c : Thread nD τ).loc main_arg7) i).toInt ∧ (m ((c : Thread nD τ).loc main_arg7) i).toInt < 10000) :
    θ_run defs (onTc (τ := τ) (main (F := Ideal))) ⟨m, fun _ => 0, ρ⟩ (fun r => ∀ c : Dev nD,
      r.2.mem ((c.tc : Thread nD τ).loc main_v18) = AttnSpec.weights (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_v20) = AttnSpec.values (m ((c.tc : Thread nD τ).loc main_arg0)) (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  have h := run_all m ρ
  MeshRun.mk (fun s hs hf c =>
    ⟨(MeshRun.post h s hs hf c _ (mem_uc main_v18 (by decide))).trans (W14_weights m ρ c (hfin c) (hr c)),
     (MeshRun.post h s hs hf c _ (mem_uc main_v20 (by decide))).trans (W14_values m ρ c),
     MeshRun.post (frame m ρ) s hs hf c⟩) (MeshRun.progress h) (MeshRun.fair h)

end Cert.KernelIdeal.Whole

end
-- ==== Proof.lean ====
import proofs.«412990_j12266426597865_3_alg».proof.Defs
import proofs.«412990_j12266426597865_3_alg».proof.Proof.Gen.Kernel
import proofs.«412990_j12266426597865_3_alg».proof.Proof.Gen.KernelIdeal
import proofs.«412990_j12266426597865_3_alg».proof.Proof.Gen.ReferenceIdeal
import proofs.«412990_j12266426597865_3_alg».proof.Proof.Gen.Pre_finite_inputs
import proofs.«412990_j12266426597865_3_alg».proof.Proof.Gen.ReferenceIdeal.Run
import proofs.«412990_j12266426597865_3_alg».proof.Proof.PreFacts
import proofs.«412990_j12266426597865_3_alg».proof.Proof.RefValue
import proofs.«412990_j12266426597865_3_alg».proof.Proof.KB.Frame
import proofs.«412990_j12266426597865_3_alg».proof.Proof.KI.Values

/-! A graph attention layer in four kernel regions against its plain form: a one-hot product picks the indexed row, the
    tile-by-tile maximum and normaliser are the softmax's for real scores, and a product with a quarter is a quotient by four. -/

noncomputable section

namespace Cert.Proof

open Idealize.ShloMosaic Idealize.ShloMosaic.TcCoe Idealize.SL.Sem

theorem frame_word : Cert.frame_Kernel (hKernel := Cert.Kernel.Gen.facts) (hPre_finite_inputs := Cert.Pre_finite_inputs.Gen.facts) :=
  fun m ρ _ => Cert.Kernel.Whole.frame m ρ

theorem frame_ideal : Cert.frame_KernelIdeal (hKernelIdeal := Cert.KernelIdeal.Gen.facts) (hPre_finite_inputs := Cert.Pre_finite_inputs.Gen.facts) :=
  fun m ρ _ => Cert.KernelIdeal.Whole.frame m ρ

theorem frame_reference : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2) (Cert.ReferenceIdeal.Value.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  haveI : Cert.Pre_finite_inputs.Facts := Cert.Pre_finite_inputs.Gen.facts
  have hfacts := fun c => Cert.PreFacts.of_pre _ _ _ _ _ _ _ _ (hpre c)
  have hr := fun c => (hfacts c).2.2.2.2.2.2.2
  refine ⟨_, _, Cert.KernelIdeal.Whole.run_values m ρ
    (fun c => ⟨(hfacts c).1, (hfacts c).2.1, (hfacts c).2.2.1, (hfacts c).2.2.2.1, (hfacts c).2.2.2.2.1⟩) hr, ?_⟩
  refine (θ_run (Cert.ReferenceIdeal.defs (F := Ideal)) _ _).mono (fun r h c => ?_)
    (Cert.ReferenceIdeal.RefValue.run_spec m' ρ' (fun c i => by rw [(hagree c).2.2.2.2.2.2.2]; exact hr c i))
  obtain ⟨h50, h17, hargs⟩ := h c
  obtain ⟨e0, e1, e2, e3, e4, e5, e6, e7⟩ := hagree c
  refine ⟨?_, ?_, hargs⟩
  · rw [h50, e0, e1, e2, e3, e4, e7]
  · rw [h17, e0, e5, e6]

theorem claim : Cert.Claim :=
  ⟨Cert.Kernel.Gen.facts, Cert.KernelIdeal.Gen.facts, Cert.ReferenceIdeal.Gen.facts, Cert.Pre_finite_inputs.Gen.facts,
    frame_word, frame_ideal, frame_reference, trivial, algebraic⟩

end Cert.Proof

end
